-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x64 : Shape := ⟨3, ![64, 256, 64]⟩
abbrev S8192x8192 : Shape := ⟨2, ![8192, 8192]⟩
abbrev S8192 : Shape := ⟨1, ![8192]⟩
abbrev S_ : Shape := ⟨0, ![]⟩

class Facts : Prop where
  bcast_S_S64x256x64 : S_.BroadcastsInDim S64x256x64 (![] : Fin 0 → Fin S64x256x64.rank)
  reducesTo_S64x256x64_S_d0_1_2 : S64x256x64.ReducesTo [0, 1, 2] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192 : S_.BroadcastsInDim S8192 (![] : Fin 0 → Fin S8192.rank)
  reducesTo_S8192_S_d0 : S8192.ReducesTo [0] S_

variable [Facts]

def fn_part3 {F : FTy → Type} [FloatOps F] (main_arg11 : FVec F S8192x8192 .f32) (main_arg12 : FVec F S8192 .f32) (main_v48 : IVec S_ 1) (main_v49 : FVec F S8192 .f32) (main_v50 : FVec F S8192 .f32) : IVec S_ 1 :=
  let main_v51 : IVec S8192 1 := cmpf .olt main_v49 main_v50
  let main_c_19 : IVec S_ 1 := constantI S_ 1 1#1
  let main_v52 : IVec S_ 1 := (fun x v => Host.reduce IntOp.andi x v reducesTo_S8192_S_d0 h_S_) main_v51 main_c_19
  let main_v53 : IVec S_ 1 := andi main_v48 main_v52
  let main_v54 : FVec F S8192x8192 .f32 := Host.absf main_arg11
  let main_cst_20 : FVec F S_ .f32 := constant S_ .f32 0x7F800000#32
  let main_v55 : FVec F S8192x8192 .f32 := broadcastInDim S8192x8192 ![] bcast_S_S8192x8192 main_cst_20
  let main_v56 : IVec S8192x8192 1 := cmpf .olt main_v54 main_v55
  let main_c_21 : IVec S_ 1 := constantI S_ 1 1#1
  let main_v57 : IVec S_ 1 := (fun x v => Host.reduce IntOp.andi x v reducesTo_S8192x8192_S_d0_1 h_S_) main_v56 main_c_21
  let main_v58 : IVec S_ 1 := andi main_v53 main_v57
  let main_v59 : FVec F S8192 .f32 := Host.absf main_arg12
  let main_cst_22 : FVec F S_ .f32 := constant S_ .f32 0x7F800000#32
  let main_v60 : FVec F S8192 .f32 := broadcastInDim S8192 ![] bcast_S_S8192 main_cst_22
  let main_v61 : IVec S8192 1 := cmpf .olt main_v59 main_v60
  let main_c_23 : IVec S_ 1 := constantI S_ 1 1#1
  let main_v62 : IVec S_ 1 := (fun x v => Host.reduce IntOp.andi x v reducesTo_S8192_S_d0 h_S_) main_v61 main_c_23
  let main_v63 : IVec S_ 1 := andi main_v58 main_v62
  main_v63

def fn_part2 {F : FTy → Type} [FloatOps F] (main_arg7 : FVec F S8192x8192 .f32) (main_arg8 : FVec F S8192 .f32) (main_arg9 : FVec F S8192x8192 .f32) (main_arg10 : FVec F S8192 .f32) (main_arg11 : FVec F S8192x8192 .f32) (main_arg12 : FVec F S8192 .f32) (main_v33 : IVec S_ 1) : IVec S_ 1 :=
  let main_v34 : FVec F S8192x8192 .f32 := Host.absf main_arg7
  let main_cst_12 : FVec F S_ .f32 := constant S_ .f32 0x7F800000#32
  let main_v35 : FVec F S8192x8192 .f32 := broadcastInDim S8192x8192 ![] bcast_S_S8192x8192 main_cst_12
  let main_v36 : IVec S8192x8192 1 := cmpf .olt main_v34 main_v35
  let main_c_13 : IVec S_ 1 := constantI S_ 1 1#1
  let main_v37 : IVec S_ 1 := (fun x v => Host.reduce IntOp.andi x v reducesTo_S8192x8192_S_d0_1 h_S_) main_v36 main_c_13
  let main_v38 : IVec S_ 1 := andi main_v33 main_v37
  let main_v39 : FVec F S8192 .f32 := Host.absf main_arg8
  let main_cst_14 : FVec F S_ .f32 := constant S_ .f32 0x7F800000#32
  let main_v40 : FVec F S8192 .f32 := broadcastInDim S8192 ![] bcast_S_S8192 main_cst_14
  let main_v41 : IVec S8192 1 := cmpf .olt main_v39 main_v40
  let main_c_15 : IVec S_ 1 := constantI S_ 1 1#1
  let main_v42 : IVec S_ 1 := (fun x v => Host.reduce IntOp.andi x v reducesTo_S8192_S_d0 h_S_) main_v41 main_c_15
  let main_v43 : IVec S_ 1 := andi main_v38 main_v42
  let main_v44 : FVec F S8192x8192 .f32 := Host.absf main_arg9
  let main_cst_16 : FVec F S_ .f32 := constant S_ .f32 0x7F800000#32
  let main_v45 : FVec F S8192x8192 .f32 := broadcastInDim S8192x8192 ![] bcast_S_S8192x8192 main_cst_16
  let main_v46 : IVec S8192x8192 1 := cmpf .olt main_v44 main_v45
  let main_c_17 : IVec S_ 1 := constantI S_ 1 1#1
  let main_v47 : IVec S_ 1 := (fun x v => Host.reduce IntOp.andi x v reducesTo_S8192x8192_S_d0_1 h_S_) main_v46 main_c_17
  let main_v48 : IVec S_ 1 := andi main_v43 main_v47
  let main_v49 : FVec F S8192 .f32 := Host.absf main_arg10
  let main_cst_18 : FVec F S_ .f32 := constant S_ .f32 0x7F800000#32
  let main_v50 : FVec F S8192 .f32 := broadcastInDim S8192 ![] bcast_S_S8192 main_cst_18
  fn_part3 (F := F) main_arg11 main_arg12 main_v48 main_v49 main_v50

def fn_part1 {F : FTy → Type} [FloatOps F] (main_arg4 : FVec F S8192 .f32) (main_arg5 : FVec F S8192x8192 .f32) (main_arg6 : FVec F S8192 .f32) (main_arg7 : FVec F S8192x8192 .f32) (main_arg8 : FVec F S8192 .f32) (main_arg9 : FVec F S8192x8192 .f32) (main_arg10 : FVec F S8192 .f32) (main_arg11 : FVec F S8192x8192 .f32) (main_arg12 : FVec F S8192 .f32) (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S8192x8192 .f32 := Host.absf main_arg5
  let main_cst_8 : FVec F S_ .f32 := constant S_ .f32 0x7F800000#32
  let main_v25 : FVec F S8192x8192 .f32 := broadcastInDim S8192x8192 ![] bcast_S_S8192x8192 main_cst_8
  let main_v26 : IVec S8192x8192 1 := cmpf .olt main_v24 main_v25
  let main_c_9 : IVec S_ 1 := constantI S_ 1 1#1
  let main_v27 : IVec S_ 1 := (fun x v => Host.reduce IntOp.andi x v reducesTo_S8192x8192_S_d0_1 h_S_) main_v26 main_c_9
  let main_v28 : IVec S_ 1 := andi main_v23 main_v27
  let main_v29 : FVec F S8192 .f32 := Host.absf main_arg6
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S64x256x64 .f32) (main_arg1 : FVec F S8192x8192 .f32) (main_arg2 : FVec F S8192 .f32) (main_arg3 : FVec F S8192x8192 .f32) (main_arg4 : FVec F S8192 .f32) (main_arg5 : FVec F S8192x8192 .f32) (main_arg6 : FVec F S8192 .f32) (main_arg7 : FVec F S8192x8192 .f32) (main_arg8 : FVec F S8192 .f32) (main_arg9 : FVec F S8192x8192 .f32) (main_arg10 : FVec F S8192 .f32) (main_arg11 : FVec F S8192x8192 .f32) (main_arg12 : FVec F S8192 .f32) : IVec S_ 1 :=
  let main_v0 : FVec F S64x256x64 .f32 := Host.absf main_arg0
  let main_cst : FVec F S_ .f32 := constant S_ .f32 0x7F800000#32
  let main_v1 : FVec F S64x256x64 .f32 := broadcastInDim S64x256x64 ![] bcast_S_S64x256x64 main_cst
  let main_v2 : IVec S64x256x64 1 := cmpf .olt main_v0 main_v1
  let main_c : IVec S_ 1 := constantI S_ 1 1#1
  let main_v3 : IVec S_ 1 := (fun x v => Host.reduce IntOp.andi x v reducesTo_S64x256x64_S_d0_1_2 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192x8192 .f32 := Host.absf main_arg3
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_arg4 main_arg5 main_arg6 main_arg7 main_arg8 main_arg9 main_arg10 main_arg11 main_arg12 main_v13 main_v16
-- ==== Kernel.lean ====
abbrev S64x256x64 : Shape := ⟨3, ![64, 256, 64]⟩
abbrev S8192x8192 : Shape := ⟨2, ![8192, 8192]⟩
abbrev S8192 : Shape := ⟨1, ![8192]⟩
abbrev S64x128x64 : Shape := ⟨3, ![64, 128, 64]⟩
abbrev S64x8192 : Shape := ⟨2, ![64, 8192]⟩
abbrev S1x8192 : Shape := ⟨2, ![1, 8192]⟩
abbrev S64x2048 : Shape := ⟨2, ![64, 2048]⟩
abbrev S2048x2048 : Shape := ⟨2, ![2048, 2048]⟩
abbrev S1x2048 : Shape := ⟨2, ![1, 2048]⟩
abbrev S64x128x128 : Shape := ⟨3, ![64, 128, 128]⟩
abbrev S_ : Shape := ⟨0, ![]⟩
abbrev S64x128 : Shape := ⟨2, ![64, 128]⟩
abbrev S64x1x128 : Shape := ⟨3, ![64, 1, 128]⟩
abbrev S1 : Shape := ⟨1, ![1]⟩

abbrev nBuf : Space → Nat
  | .hbm => 81
  | .vmem => 54
  | .smem => 0
  | _ => 0

abbrev bufTy : (tb : Table) → Fin (tcTables nBuf tb) → BufTy
  | .hbm, ⟨0, _⟩ => ⟨S64x256x64, .f32⟩
  | .hbm, ⟨1, _⟩ => ⟨S8192x8192, .f32⟩
  | .hbm, ⟨2, _⟩ => ⟨S8192, .f32⟩
  | .hbm, ⟨3, _⟩ => ⟨S8192x8192, .f32⟩
  | .hbm, ⟨4, _⟩ => ⟨S8192, .f32⟩
  | .hbm, ⟨5, _⟩ => ⟨S8192x8192, .f32⟩
  | .hbm, ⟨6, _⟩ => ⟨S8192, .f32⟩
  | .hbm, ⟨7, _⟩ => ⟨S8192x8192, .f32⟩
  | .hbm, ⟨8, _⟩ => ⟨S8192, .f32⟩
  | .hbm, ⟨9, _⟩ => ⟨S8192x8192, .f32⟩
  | .hbm, ⟨10, _⟩ => ⟨S8192, .f32⟩
  | .hbm, ⟨11, _⟩ => ⟨S8192x8192, .f32⟩
  | .hbm, ⟨12, _⟩ => ⟨S8192, .f32⟩
  | .hbm, ⟨13, _⟩ => ⟨S64x128x64, .f32⟩
  | .hbm, ⟨14, _⟩ => ⟨S64x8192, .f32⟩
  | .hbm, ⟨15, _⟩ => ⟨S1x8192, .f32⟩
  | .hbm, ⟨16, _⟩ => ⟨S64x8192, .f32⟩
  | .hbm, ⟨17, _⟩ => ⟨S64x128x64, .f32⟩
  | .hbm, ⟨18, _⟩ => ⟨S1x8192, .f32⟩
  | .hbm, ⟨19, _⟩ => ⟨S64x8192, .f32⟩
  | .hbm, ⟨20, _⟩ => ⟨S64x128x64, .f32⟩
  | .hbm, ⟨21, _⟩ => ⟨S1x8192, .f32⟩
  | .hbm, ⟨22, _⟩ => ⟨S64x8192, .f32⟩
  | .hbm, ⟨23, _⟩ => ⟨S64x128x64, .f32⟩
  | .hbm, ⟨24, _⟩ => ⟨S64x128x128, .f32⟩
  | .hbm, ⟨25, _⟩ => ⟨S_, .f32⟩
  | .hbm, ⟨26, _⟩ => ⟨S64x128, .f32⟩
  | .hbm, ⟨27, _⟩ => ⟨S_, .f32⟩
  | .hbm, ⟨28, _⟩ => ⟨S64x128, .f32⟩
  | .hbm, ⟨29, _⟩ => ⟨S64x128, .f32⟩
  | .hbm, ⟨30, _⟩ => ⟨S64x1x128, .f32⟩
  | .hbm, ⟨31, _⟩ => ⟨S64x128x128, .f32⟩
  | .hbm, ⟨32, _⟩ => ⟨S64x128x128, .f32⟩
  | .hbm, ⟨33, _⟩ => ⟨S64x128x128, .f32⟩
  | .hbm, ⟨34, _⟩ => ⟨S_, .f32⟩
  | .hbm, ⟨35, _⟩ => ⟨S64x128, .f32⟩
  | .hbm, ⟨36, _⟩ => ⟨S64x1x128, .f32⟩
  | .hbm, ⟨37, _⟩ => ⟨S64x128x128, .f32⟩
  | .hbm, ⟨38, _⟩ => ⟨S64x128x128, .f32⟩
  | .hbm, ⟨39, _⟩ => ⟨S64x128x64, .f32⟩
  | .hbm, ⟨40, _⟩ => ⟨S_, .f32⟩
  | .hbm, ⟨41, _⟩ => ⟨S64x128x64, .f32⟩
  | .hbm, ⟨42, _⟩ => ⟨S64x128x64, .f32⟩
  | .hbm, ⟨43, _⟩ => ⟨S64x128x64, .f32⟩
  | .hbm, ⟨44, _⟩ => ⟨S64x8192, .f32⟩
  | .hbm, ⟨45, _⟩ => ⟨S1x8192, .f32⟩
  | .hbm, ⟨46, _⟩ => ⟨S64x8192, .f32⟩
  | .hbm, ⟨47, _⟩ => ⟨S64x128x64, .f32⟩
  | .hbm, ⟨48, _⟩ => ⟨S1x8192, .f32⟩
  | .hbm, ⟨49, _⟩ => ⟨S64x8192, .f32⟩
  | .hbm, ⟨50, _⟩ => ⟨S64x128x64, .f32⟩
  | .hbm, ⟨51, _⟩ => ⟨S1x8192, .f32⟩
  | .hbm, ⟨52, _⟩ => ⟨S64x8192, .f32⟩
  | .hbm, ⟨53, _⟩ => ⟨S64x128x64, .f32⟩
  | .hbm, ⟨54, _⟩ => ⟨S64x128x128, .f32⟩
  | .hbm, ⟨55, _⟩ => ⟨S_, .f32⟩
  | .hbm, ⟨56, _⟩ => ⟨S64x128, .f32⟩
  | .hbm, ⟨57, _⟩ => ⟨S_, .f32⟩
  | .hbm, ⟨58, _⟩ => ⟨S64x128, .f32⟩
  | .hbm, ⟨59, _⟩ => ⟨S64x128, .f32⟩
  | .hbm, ⟨60, _⟩ => ⟨S64x1x128, .f32⟩
  | .hbm, ⟨61, _⟩ => ⟨S64x128x128, .f32⟩
  | .hbm, ⟨62, _⟩ => ⟨S64x128x128, .f32⟩
  | .hbm, ⟨63, _⟩ => ⟨S64x128x128, .f32⟩
  | .hbm, ⟨64, _⟩ => ⟨S_, .f32⟩
  | .hbm, ⟨65, _⟩ => ⟨S64x128, .f32⟩
  | .hbm, ⟨66, _⟩ => ⟨S64x1x128, .f32⟩
  | .hbm, ⟨67, _⟩ => ⟨S64x128x128, .f32⟩
  | .hbm, ⟨68, _⟩ => ⟨S64x128x128, .f32⟩
  | .hbm, ⟨69, _⟩ => ⟨S64x128x64, .f32⟩
  | .hbm, ⟨70, _⟩ => ⟨S_, .f32⟩
  | .hbm, ⟨71, _⟩ => ⟨S64x128x64, .f32⟩
  | .hbm, ⟨72, _⟩ => ⟨S64x128x64, .f32⟩
  | .hbm, ⟨73, _⟩ => ⟨S_, .f32⟩
  | .hbm, ⟨74, _⟩ => ⟨S64x256x64, .f32⟩
  | .hbm, ⟨75, _⟩ => ⟨S_, .i32⟩
  | .hbm, ⟨76, _⟩ => ⟨S1, .i32⟩
  | .hbm, ⟨77, _⟩ => ⟨S64x256x64, .f32⟩
  | .hbm, ⟨78, _⟩ => ⟨S_, .i32⟩
  | .hbm, ⟨79, _⟩ => ⟨S1, .i32⟩
  | .hbm, ⟨80, _⟩ => ⟨S64x256x64, .f32⟩
  | .local _ .vmem, ⟨0, _⟩ => ⟨S64x2048, .f32⟩
  | .local _ .vmem, ⟨1, _⟩ => ⟨S64x2048, .f32⟩
  | .local _ .vmem, ⟨2, _⟩ => ⟨S2048x2048, .f32⟩
  | .local _ .vmem, ⟨3, _⟩ => ⟨S2048x2048, .f32⟩
  | .local _ .vmem, ⟨4, _⟩ => ⟨S1x2048, .f32⟩
  | .local _ .vmem, ⟨5, _⟩ => ⟨S1x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S2048x2048, .f32⟩
  | .local _ .vmem, ⟨12, _⟩ => ⟨S2048x2048, .f32⟩
  | .local _ .vmem, ⟨13, _⟩ => ⟨S1x2048, .f32⟩
  | .local _ .vmem, ⟨14, _⟩ => ⟨S1x2048, .f32⟩
  | .local _ .vmem, ⟨15, _⟩ => ⟨S64x2048, .f32⟩
  | .local _ .vmem, ⟨16, _⟩ => ⟨S64x2048, .f32⟩
  | .local _ .vmem, ⟨17, _⟩ => ⟨S64x2048, .f32⟩
  | .local _ .vmem, ⟨18, _⟩ => ⟨S64x2048, .f32⟩
  | .local _ .vmem, ⟨19, _⟩ => ⟨S64x2048, .f32⟩
  | .local _ .vmem, ⟨20, _⟩ => ⟨S2048x2048, .f32⟩
  | .local _ .vmem, ⟨21, _⟩ => ⟨S2048x2048, .f32⟩
  | .local _ .vmem, ⟨22, _⟩ => ⟨S1x2048, .f32⟩
  | .local _ .vmem, ⟨23, _⟩ => ⟨S1x2048, .f32⟩
  | .local _ .vmem, ⟨24, _⟩ => ⟨S64x2048, .f32⟩
  | .local _ .vmem, ⟨25, _⟩ => ⟨S64x2048, .f32⟩
  | .local _ .vmem, ⟨26, _⟩ => ⟨S64x2048, .f32⟩
  | .local _ .vmem, ⟨27, _⟩ => ⟨S64x2048, .f32⟩
  | .local _ .vmem, ⟨28, _⟩ => ⟨S64x2048, .f32⟩
  | .local _ .vmem, ⟨29, _⟩ => ⟨S2048x2048, .f32⟩
  | .local _ .vmem, ⟨30, _⟩ => ⟨S2048x2048, .f32⟩
  | .local _ .vmem, ⟨31, _⟩ => ⟨S1x2048, .f32⟩
  | .local _ .vmem, ⟨32, _⟩ => ⟨S1x2048, .f32⟩
  | .local _ .vmem, ⟨33, _⟩ => ⟨S64x2048, .f32⟩
  | .local _ .vmem, ⟨34, _⟩ => ⟨S64x2048, .f32⟩
  | .local _ .vmem, ⟨35, _⟩ => ⟨S64x2048, .f32⟩
  | .local _ .vmem, ⟨36, _⟩ => ⟨S64x2048, .f32⟩
  | .local _ .vmem, ⟨37, _⟩ => ⟨S64x2048, .f32⟩
  | .local _ .vmem, ⟨38, _⟩ => ⟨S2048x2048, .f32⟩
  | .local _ .vmem, ⟨39, _⟩ => ⟨S2048x2048, .f32⟩
  | .local _ .vmem, ⟨40, _⟩ => ⟨S1x2048, .f32⟩
  | .local _ .vmem, ⟨41, _⟩ => ⟨S1x2048, .f32⟩
  | .local _ .vmem, ⟨42, _⟩ => ⟨S64x2048, .f32⟩
  | .local _ .vmem, ⟨43, _⟩ => ⟨S64x2048, .f32⟩
  | .local _ .vmem, ⟨44, _⟩ => ⟨S64x2048, .f32⟩
  | .local _ .vmem, ⟨45, _⟩ => ⟨S64x2048, .f32⟩
  | .local _ .vmem, ⟨46, _⟩ => ⟨S64x2048, .f32⟩
  | .local _ .vmem, ⟨47, _⟩ => ⟨S2048x2048, .f32⟩
  | .local _ .vmem, ⟨48, _⟩ => ⟨S2048x2048, .f32⟩
  | .local _ .vmem, ⟨49, _⟩ => ⟨S1x2048, .f32⟩
  | .local _ .vmem, ⟨50, _⟩ => ⟨S1x2048, .f32⟩
  | .local _ .vmem, ⟨51, _⟩ => ⟨S64x2048, .f32⟩
  | .local _ .vmem, ⟨52, _⟩ => ⟨S64x2048, .f32⟩
  | .local _ .vmem, ⟨53, _⟩ => ⟨S64x2048, .f32⟩
  | _, _ => ⟨S64x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_3 : Ref sig .tc := ⟨.hbm, 55, rfl⟩
abbrev main_v38 : Ref sig .tc := ⟨.hbm, 56, rfl⟩
abbrev main_cst_4 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_5 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_6 : Ref sig .tc := ⟨.hbm, 70, rfl⟩
abbrev main_v50 : Ref sig .tc := ⟨.hbm, 71, rfl⟩
abbrev main_v51 : Ref sig .tc := ⟨.hbm, 72, rfl⟩
abbrev main_cst_7 : Ref sig .tc := ⟨.hbm, 73, rfl⟩
abbrev main_v52 : Ref sig .tc := ⟨.hbm, 74, rfl⟩
abbrev main_c : Ref sig .tc := ⟨.hbm, 75, rfl⟩
abbrev main_v53 : Ref sig .tc := ⟨.hbm, 76, rfl⟩
abbrev main_v54 : Ref sig .tc := ⟨.hbm, 77, rfl⟩
abbrev main_c_8 : Ref sig .tc := ⟨.hbm, 78, rfl⟩
abbrev main_v55 : Ref sig .tc := ⟨.hbm, 79, rfl⟩
abbrev main_v56 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_scratch0 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg3_1 : Ref sig .tc := ⟨.vmem, 34, rfl⟩
abbrev cc3_scratch0 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc4_stg3_0 : Ref sig .tc := ⟨.vmem, 42, rfl⟩
abbrev cc4_stg3_1 : Ref sig .tc := ⟨.vmem, 43, rfl⟩
abbrev cc4_scratch0 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg2_1 : Ref sig .tc := ⟨.vmem, 50, rfl⟩
abbrev cc5_stg3_0 : Ref sig .tc := ⟨.vmem, 51, rfl⟩
abbrev cc5_stg3_1 : Ref sig .tc := ⟨.vmem, 52, rfl⟩
abbrev cc5_scratch0 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem3_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem2_1 : DmaSem sig := 45
abbrev cc5_sem3_0 : DmaSem sig := 46
abbrev cc5_sem3_1 : DmaSem sig := 47

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S64x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S64x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![4, 4], ![false, false]⟩

def k2_cond2 (i : grid2.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S64x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S2048x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S64x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![4, 4], ![false, false]⟩

def k3_cond2 (i : grid3.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage3_0 : Fin 2 → Memref sig .tc .vmem S64x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S2048x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S64x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨2, ![4, 4], ![false, false]⟩

def k4_cond2 (i : grid4.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage4_0 : Fin 2 → Memref sig .tc .vmem S64x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S2048x2048 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S1x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S64x2048 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![4, 4], ![false, false]⟩

def k5_cond2 (i : grid5.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage5_0 : Fin 2 → Memref sig .tc .vmem S64x2048 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S2048x2048 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 2 → Memref sig .tc .vmem S1x2048 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S64x2048 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

class Facts₀ : Prop where
  slices_S64x256x64_S64x128x64_0_0_0 : S64x256x64.Slices ![0, 0, 0] S64x128x64
  shapeCasts_S64x128x64_S64x8192 : S64x128x64.ShapeCasts S64x8192
  shapeCasts_S8192_S1x8192 : S8192.ShapeCasts S1x8192
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  bitsLt_bf16_f32 : FTy.bits .bf16 < FTy.bits .f32
  inb_S2048x2048_S2048x2048_0_0 : ∀ a, (![0, 0] : Fin 2 → Nat) a + S2048x2048.size a ≤ S2048x2048.size a
  h_S2048x2048 : 0 < S2048x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S64x2048 : S1x2048.Broadcasts S64x2048
  shapeCasts_S64x8192_S64x128x64 : S64x8192.ShapeCasts S64x128x64
  reducesTo_S64x128x128_S64x128_d1 : S64x128x128.ReducesTo [1] S64x128
  h_S_ : 0 < S_.numel
  bcast_S_S64x128 : S_.BroadcastsInDim S64x128 (![] : Fin 0 → Fin S64x128.rank)
  bcast_S64x128_S64x1x128_0_2 : S64x128.BroadcastsInDim S64x1x128 (![0, 2] : Fin 2 → Fin S64x1x128.rank)
  bcast_S64x1x128_S64x128x128_0_1_2 : S64x1x128.BroadcastsInDim S64x128x128 (![0, 1, 2] : Fin 3 → Fin S64x128x128.rank)
  bcast_S_S64x128x64 : S_.BroadcastsInDim S64x128x64 (![] : Fin 0 → Fin S64x128x64.rank)
  slices_S64x256x64_S64x128x64_0_128_0 : S64x256x64.Slices ![0, 128, 0] S64x128x64
  bcast_S_S64x256x64 : S_.BroadcastsInDim S64x256x64 (![] : Fin 0 → Fin S64x256x64.rank)
  bcast_S_S1 : S_.BroadcastsInDim S1 (![] : Fin 0 → Fin S1.rank)
  dot_S64x2048_S2048x2048_S64x2048_1_1_0_0_n_n_wf : DotDims.WF S64x2048 S2048x2048 S64x2048 [1] [1] [0] [0] [] []
  dot_S64x128x64_S64x128x64_S64x128x128_2_2_1_1_0_0_wf : DotDims.WF S64x128x64 S64x128x64 S64x128x128 [2] [2] [1] [1] [0] [0]
  dot_S64x128x128_S64x128x64_S64x128x64_2_1_1_2_0_0_wf : DotDims.WF S64x128x128 S64x128x64 S64x128x64 [2] [1] [1] [2] [0] [0]
  scatter_S64x256x64_S1_S64x128x64_012_n_1_0_wf : ScatterDims.WF S64x256x64 S1 S64x128x64 [0, 1, 2] [] [1] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x2048.size a ≤ S64x8192.size a
  hwx0_0 : ∀ i : grid0.Coords, EltTy.bits .f32 = 32 ∨ (Rect.block (s := S64x8192) S64x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S8192x8192.size a
  hwx0_1 : ∀ i : grid0.Coords, EltTy.bits .f32 = 32 ∨ (Rect.block (s := S8192x8192) S2048x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x8192.size a
  hwx0_2 : ∀ i : grid0.Coords, EltTy.bits .f32 = 32 ∨ (Rect.block (s := S1x8192) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x2048.size a ≤ S64x8192.size a
  hwx0_3 : ∀ i : grid0.Coords, EltTy.bits .f32 = 32 ∨ (Rect.block (s := S64x8192) S64x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x2048.size a ≤ S64x8192.size a
  hwx1_0 : ∀ i : grid1.Coords, EltTy.bits .f32 = 32 ∨ (Rect.block (s := S64x8192) S64x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S8192x8192.size a
  hwx1_1 : ∀ i : grid1.Coords, EltTy.bits .f32 = 32 ∨ (Rect.block (s := S8192x8192) S2048x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x8192.size a
  hwx1_2 : ∀ i : grid1.Coords, EltTy.bits .f32 = 32 ∨ (Rect.block (s := S1x8192) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x2048.size a ≤ S64x8192.size a
  hwx1_3 : ∀ i : grid1.Coords, EltTy.bits .f32 = 32 ∨ (Rect.block (s := S64x8192) S64x2048.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x2048.size a ≤ S64x8192.size a
  hwx2_0 : ∀ i : grid2.Coords, EltTy.bits .f32 = 32 ∨ (Rect.block (s := S64x8192) S64x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x2048.size a ≤ S8192x8192.size a
  hwx2_1 : ∀ i : grid2.Coords, EltTy.bits .f32 = 32 ∨ (Rect.block (s := S8192x8192) S2048x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x8192.size a
  hwx2_2 : ∀ i : grid2.Coords, EltTy.bits .f32 = 32 ∨ (Rect.block (s := S1x8192) S1x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S64x2048.size a ≤ S64x8192.size a
  hwx2_3 : ∀ i : grid2.Coords, EltTy.bits .f32 = 32 ∨ (Rect.block (s := S64x8192) S64x2048.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S64x2048.size a ≤ S64x8192.size a
  hwx3_0 : ∀ i : grid3.Coords, EltTy.bits .f32 = 32 ∨ (Rect.block (s := S64x8192) S64x2048.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x2048.size a ≤ S8192x8192.size a
  hwx3_1 : ∀ i : grid3.Coords, EltTy.bits .f32 = 32 ∨ (Rect.block (s := S8192x8192) S2048x2048.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2048.size a ≤ S1x8192.size a
  hwx3_2 : ∀ i : grid3.Coords, EltTy.bits .f32 = 32 ∨ (Rect.block (s := S1x8192) S1x2048.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S64x2048.size a ≤ S64x8192.size a
  hwx3_3 : ∀ i : grid3.Coords, EltTy.bits .f32 = 32 ∨ (Rect.block (s := S64x8192) S64x2048.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S64x2048.size a ≤ S64x8192.size a
  hwx4_0 : ∀ i : grid4.Coords, EltTy.bits .f32 = 32 ∨ (Rect.block (s := S64x8192) S64x2048.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x2048.size a ≤ S8192x8192.size a
  hwx4_1 : ∀ i : grid4.Coords, EltTy.bits .f32 = 32 ∨ (Rect.block (s := S8192x8192) S2048x2048.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x2048.size a ≤ S1x8192.size a
  hwx4_2 : ∀ i : grid4.Coords, EltTy.bits .f32 = 32 ∨ (Rect.block (s := S1x8192) S1x2048.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S64x2048.size a ≤ S64x8192.size a
  hwx4_3 : ∀ i : grid4.Coords, EltTy.bits .f32 = 32 ∨ (Rect.block (s := S64x8192) S64x2048.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S64x2048.size a ≤ S64x8192.size a
  hwx5_0 : ∀ i : grid5.Coords, EltTy.bits .f32 = 32 ∨ (Rect.block (s := S64x8192) S64x2048.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x2048.size a ≤ S8192x8192.size a
  hwx5_1 : ∀ i : grid5.Coords, EltTy.bits .f32 = 32 ∨ (Rect.block (s := S8192x8192) S2048x2048.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1x2048.size a ≤ S1x8192.size a
  hwx5_2 : ∀ i : grid5.Coords, EltTy.bits .f32 = 32 ∨ (Rect.block (s := S1x8192) S1x2048.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S64x2048.size a ≤ S64x8192.size a
  hwx5_3 : ∀ i : grid5.Coords, EltTy.bits .f32 = 32 ∨ (Rect.block (s := S64x8192) S64x2048.size (cc5_transform_3 i) (hinb5_3 i)).WholeWords (EltTy.packing .f32)

variable [Facts₀]

def dot_S64x2048_S2048x2048_S64x2048_1_1_0_0_n_n : DotDims S64x2048 S2048x2048 S64x2048 where
  lhsContracting := [1]
  rhsContracting := [1]
  lhsNonContracting := [0]
  rhsNonContracting := [0]
  lhsBatch := []
  rhsBatch := []
  wf := dot_S64x2048_S2048x2048_S64x2048_1_1_0_0_n_n_wf
def dot_S64x128x64_S64x128x64_S64x128x128_2_2_1_1_0_0 : DotDims S64x128x64 S64x128x64 S64x128x128 where
  lhsContracting := [2]
  rhsContracting := [2]
  lhsNonContracting := [1]
  rhsNonContracting := [1]
  lhsBatch := [0]
  rhsBatch := [0]
  wf := dot_S64x128x64_S64x128x64_S64x128x128_2_2_1_1_0_0_wf
def dot_S64x128x128_S64x128x64_S64x128x64_2_1_1_2_0_0 : DotDims S64x128x128 S64x128x64 S64x128x64 where
  lhsContracting := [2]
  rhsContracting := [1]
  lhsNonContracting := [1]
  rhsNonContracting := [2]
  lhsBatch := [0]
  rhsBatch := [0]
  wf := dot_S64x128x128_S64x128x64_S64x128x64_2_1_1_2_0_0_wf
def scatter_S64x256x64_S1_S64x128x64_012_n_1_0 : ScatterDims S64x256x64 S1 S64x128x64 where
  updateWindowDims := [0, 1, 2]
  insertedWindowDims := []
  scatterDimsToOperandDims := [1]
  indexVectorDim := 0
  wf := scatter_S64x256x64_S1_S64x128x64_012_n_1_0_wf

abbrev win0_0 : Pipeline.Window sig grid0 :=
  Pipeline.Window.ofSpec (Memref.whole main_v1) S64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v1) S64x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S2048x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S64x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v1) S64x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S2048x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v9) S64x2048.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v27) S64x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S2048x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v28) S1x2048.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v29) S64x2048.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v27) S64x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S2048x2048.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v31) S1x2048.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v32) S64x2048.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v27) S64x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg11) S2048x2048.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v34) S1x2048.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v35) S64x2048.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

class Facts : Prop extends Facts₀ where

variable [Facts]
-- ==== ReferenceIdeal.lean ====
abbrev S64x256x64 : Shape := ⟨3, ![64, 256, 64]⟩
abbrev S8192x8192 : Shape := ⟨2, ![8192, 8192]⟩
abbrev S8192 : Shape := ⟨1, ![8192]⟩
abbrev S128 : Shape := ⟨1, ![128]⟩
abbrev S_ : Shape := ⟨0, ![]⟩
abbrev S128x1 : Shape := ⟨2, ![128, 1]⟩
abbrev S64x128x64 : Shape := ⟨3, ![64, 128, 64]⟩
abbrev S64x8192 : Shape := ⟨2, ![64, 8192]⟩
abbrev S1x8192 : Shape := ⟨2, ![1, 8192]⟩
abbrev S64x128x128 : Shape := ⟨3, ![64, 128, 128]⟩
abbrev S64x128 : Shape := ⟨2, ![64, 128]⟩
abbrev S64x1x128 : Shape := ⟨3, ![64, 1, 128]⟩

abbrev nBuf : Space → Nat
  | .hbm => 127
  | .vmem => 0
  | .smem => 0
  | _ => 0

abbrev bufTy : (tb : Table) → Fin (tcTables nBuf tb) → BufTy
  | .hbm, ⟨0, _⟩ => ⟨S64x256x64, .f32⟩
  | .hbm, ⟨1, _⟩ => ⟨S8192x8192, .f32⟩
  | .hbm, ⟨2, _⟩ => ⟨S8192, .f32⟩
  | .hbm, ⟨3, _⟩ => ⟨S8192x8192, .f32⟩
  | .hbm, ⟨4, _⟩ => ⟨S8192, .f32⟩
  | .hbm, ⟨5, _⟩ => ⟨S8192x8192, .f32⟩
  | .hbm, ⟨6, _⟩ => ⟨S8192, .f32⟩
  | .hbm, ⟨7, _⟩ => ⟨S8192x8192, .f32⟩
  | .hbm, ⟨8, _⟩ => ⟨S8192, .f32⟩
  | .hbm, ⟨9, _⟩ => ⟨S8192x8192, .f32⟩
  | .hbm, ⟨10, _⟩ => ⟨S8192, .f32⟩
  | .hbm, ⟨11, _⟩ => ⟨S8192x8192, .f32⟩
  | .hbm, ⟨12, _⟩ => ⟨S8192, .f32⟩
  | .hbm, ⟨13, _⟩ => ⟨S128, .i32⟩
  | .hbm, ⟨14, _⟩ => ⟨S128, .i1⟩
  | .hbm, ⟨15, _⟩ => ⟨S128, .i1⟩
  | .hbm, ⟨16, _⟩ => ⟨S128, .i32⟩
  | .hbm, ⟨17, _⟩ => ⟨S128, .i1⟩
  | .hbm, ⟨18, _⟩ => ⟨S128, .i1⟩
  | .hbm, ⟨19, _⟩ => ⟨S_, .f32⟩
  | .hbm, ⟨20, _⟩ => ⟨S64x256x64, .f32⟩
  | .hbm, ⟨21, _⟩ => ⟨S_, .i32⟩
  | .hbm, ⟨22, _⟩ => ⟨S128, .i32⟩
  | .hbm, ⟨23, _⟩ => ⟨S128, .i32⟩
  | .hbm, ⟨24, _⟩ => ⟨S128, .i32⟩
  | .hbm, ⟨25, _⟩ => ⟨S128x1, .i32⟩
  | .hbm, ⟨26, _⟩ => ⟨S64x128x64, .f32⟩
  | .hbm, ⟨27, _⟩ => ⟨S64x8192, .f32⟩
  | .hbm, ⟨28, _⟩ => ⟨S8192x8192, .f32⟩
  | .hbm, ⟨29, _⟩ => ⟨S64x8192, .f32⟩
  | .hbm, ⟨30, _⟩ => ⟨S1x8192, .f32⟩
  | .hbm, ⟨31, _⟩ => ⟨S64x8192, .f32⟩
  | .hbm, ⟨32, _⟩ => ⟨S64x8192, .f32⟩
  | .hbm, ⟨33, _⟩ => ⟨S64x128x64, .f32⟩
  | .hbm, ⟨34, _⟩ => ⟨S8192x8192, .f32⟩
  | .hbm, ⟨35, _⟩ => ⟨S64x8192, .f32⟩
  | .hbm, ⟨36, _⟩ => ⟨S1x8192, .f32⟩
  | .hbm, ⟨37, _⟩ => ⟨S64x8192, .f32⟩
  | .hbm, ⟨38, _⟩ => ⟨S64x8192, .f32⟩
  | .hbm, ⟨39, _⟩ => ⟨S64x128x64, .f32⟩
  | .hbm, ⟨40, _⟩ => ⟨S8192x8192, .f32⟩
  | .hbm, ⟨41, _⟩ => ⟨S64x8192, .f32⟩
  | .hbm, ⟨42, _⟩ => ⟨S1x8192, .f32⟩
  | .hbm, ⟨43, _⟩ => ⟨S64x8192, .f32⟩
  | .hbm, ⟨44, _⟩ => ⟨S64x8192, .f32⟩
  | .hbm, ⟨45, _⟩ => ⟨S64x128x64, .f32⟩
  | .hbm, ⟨46, _⟩ => ⟨S64x128x128, .f32⟩
  | .hbm, ⟨47, _⟩ => ⟨S_, .f32⟩
  | .hbm, ⟨48, _⟩ => ⟨S64x128, .f32⟩
  | .hbm, ⟨49, _⟩ => ⟨S_, .f32⟩
  | .hbm, ⟨50, _⟩ => ⟨S64x128, .f32⟩
  | .hbm, ⟨51, _⟩ => ⟨S64x128, .f32⟩
  | .hbm, ⟨52, _⟩ => ⟨S64x1x128, .f32⟩
  | .hbm, ⟨53, _⟩ => ⟨S64x128x128, .f32⟩
  | .hbm, ⟨54, _⟩ => ⟨S64x128x128, .f32⟩
  | .hbm, ⟨55, _⟩ => ⟨S64x128x128, .f32⟩
  | .hbm, ⟨56, _⟩ => ⟨S_, .f32⟩
  | .hbm, ⟨57, _⟩ => ⟨S64x128, .f32⟩
  | .hbm, ⟨58, _⟩ => ⟨S64x1x128, .f32⟩
  | .hbm, ⟨59, _⟩ => ⟨S64x128x128, .f32⟩
  | .hbm, ⟨60, _⟩ => ⟨S64x128x128, .f32⟩
  | .hbm, ⟨61, _⟩ => ⟨S64x128x64, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S64x128x64, .f32⟩
  | .hbm, ⟨67, _⟩ => ⟨S64x128x64, .f32⟩
  | .hbm, ⟨68, _⟩ => ⟨S_, .i32⟩
  | .hbm, ⟨69, _⟩ => ⟨S128, .i32⟩
  | .hbm, ⟨70, _⟩ => ⟨S128, .i32⟩
  | .hbm, ⟨71, _⟩ => ⟨S128, .i32⟩
  | .hbm, ⟨72, _⟩ => ⟨S128x1, .i32⟩
  | .hbm, ⟨73, _⟩ => ⟨S64x256x64, .f32⟩
  | .hbm, ⟨74, _⟩ => ⟨S_, .i32⟩
  | .hbm, ⟨75, _⟩ => ⟨S128, .i32⟩
  | .hbm, ⟨76, _⟩ => ⟨S128, .i32⟩
  | .hbm, ⟨77, _⟩ => ⟨S128, .i32⟩
  | .hbm, ⟨78, _⟩ => ⟨S128x1, .i32⟩
  | .hbm, ⟨79, _⟩ => ⟨S64x128x64, .f32⟩
  | .hbm, ⟨80, _⟩ => ⟨S64x8192, .f32⟩
  | .hbm, ⟨81, _⟩ => ⟨S8192x8192, .f32⟩
  | .hbm, ⟨82, _⟩ => ⟨S64x8192, .f32⟩
  | .hbm, ⟨83, _⟩ => ⟨S1x8192, .f32⟩
  | .hbm, ⟨84, _⟩ => ⟨S64x8192, .f32⟩
  | .hbm, ⟨85, _⟩ => ⟨S64x8192, .f32⟩
  | .hbm, ⟨86, _⟩ => ⟨S64x128x64, .f32⟩
  | .hbm, ⟨87, _⟩ => ⟨S8192x8192, .f32⟩
  | .hbm, ⟨88, _⟩ => ⟨S64x8192, .f32⟩
  | .hbm, ⟨89, _⟩ => ⟨S1x8192, .f32⟩
  | .hbm, ⟨90, _⟩ => ⟨S64x8192, .f32⟩
  | .hbm, ⟨91, _⟩ => ⟨S64x8192, .f32⟩
  | .hbm, ⟨92, _⟩ => ⟨S64x128x64, .f32⟩
  | .hbm, ⟨93, _⟩ => ⟨S8192x8192, .f32⟩
  | .hbm, ⟨94, _⟩ => ⟨S64x8192, .f32⟩
  | .hbm, ⟨95, _⟩ => ⟨S1x8192, .f32⟩
  | .hbm, ⟨96, _⟩ => ⟨S64x8192, .f32⟩
  | .hbm, ⟨97, _⟩ => ⟨S64x8192, .f32⟩
  | .hbm, ⟨98, _⟩ => ⟨S64x128x64, .f32⟩
  | .hbm, ⟨99, _⟩ => ⟨S64x128x128, .f32⟩
  | .hbm, ⟨100, _⟩ => ⟨S_, .f32⟩
  | .hbm, ⟨101, _⟩ => ⟨S64x128, .f32⟩
  | .hbm, ⟨102, _⟩ => ⟨S_, .f32⟩
  | .hbm, ⟨103, _⟩ => ⟨S64x128, .f32⟩
  | .hbm, ⟨104, _⟩ => ⟨S64x128, .f32⟩
  | .hbm, ⟨105, _⟩ => ⟨S64x1x128, .f32⟩
  | .hbm, ⟨106, _⟩ => ⟨S64x128x128, .f32⟩
  | .hbm, ⟨107, _⟩ => ⟨S64x128x128, .f32⟩
  | .hbm, ⟨108, _⟩ => ⟨S64x128x128, .f32⟩
  | .hbm, ⟨109, _⟩ => ⟨S_, .f32⟩
  | .hbm, ⟨110, _⟩ => ⟨S64x128, .f32⟩
  | .hbm, ⟨111, _⟩ => ⟨S64x1x128, .f32⟩
  | .hbm, ⟨112, _⟩ => ⟨S64x128x128, .f32⟩
  | .hbm, ⟨113, _⟩ => ⟨S64x128x128, .f32⟩
  | .hbm, ⟨114, _⟩ => ⟨S64x128x64, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S64x128x64, .f32⟩
  | .hbm, ⟨120, _⟩ => ⟨S64x128x64, .f32⟩
  | .hbm, ⟨121, _⟩ => ⟨S_, .i32⟩
  | .hbm, ⟨122, _⟩ => ⟨S128, .i32⟩
  | .hbm, ⟨123, _⟩ => ⟨S128, .i32⟩
  | .hbm, ⟨124, _⟩ => ⟨S128, .i32⟩
  | .hbm, ⟨125, _⟩ => ⟨S128x1, .i32⟩
  | .hbm, ⟨126, _⟩ => ⟨S64x256x64, .f32⟩
  | _, _ => ⟨S64x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_c_0 : Ref sig .tc := ⟨.hbm, 14, rfl⟩
abbrev main_c_1 : Ref sig .tc := ⟨.hbm, 15, rfl⟩
abbrev main_c_2 : Ref sig .tc := ⟨.hbm, 16, rfl⟩
abbrev main_c_3 : Ref sig .tc := ⟨.hbm, 17, rfl⟩
abbrev main_c_4 : Ref sig .tc := ⟨.hbm, 18, rfl⟩
abbrev main_cst : Ref sig .tc := ⟨.hbm, 19, rfl⟩
abbrev main_v0 : Ref sig .tc := ⟨.hbm, 20, rfl⟩
abbrev main_c_5 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_6 : Ref sig .tc := ⟨.hbm, 47, rfl⟩
abbrev main_v26 : Ref sig .tc := ⟨.hbm, 48, rfl⟩
abbrev main_cst_7 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_9 : Ref sig .tc := ⟨.hbm, 62, rfl⟩
abbrev main_v38 : Ref sig .tc := ⟨.hbm, 63, rfl⟩
abbrev main_cst_10 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_c_11 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_c_12 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_13 : Ref sig .tc := ⟨.hbm, 100, rfl⟩
abbrev main_v72 : Ref sig .tc := ⟨.hbm, 101, rfl⟩
abbrev main_cst_14 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_15 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_16 : Ref sig .tc := ⟨.hbm, 115, rfl⟩
abbrev main_v84 : Ref sig .tc := ⟨.hbm, 116, rfl⟩
abbrev main_cst_17 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_c_18 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩

abbrev nD : Nat := 1
abbrev τ : Topo := Topo.v7x

variable {F : FTy → Type} [FloatOps F]

class Facts₀ : Prop where
  bcast_S_S64x256x64 : S_.BroadcastsInDim S64x256x64 (![] : Fin 0 → Fin S64x256x64.rank)
  bcast_S_S128 : S_.BroadcastsInDim S128 (![] : Fin 0 → Fin S128.rank)
  bcast_S128_S128x1_0 : S128.BroadcastsInDim S128x1 (![0] : Fin 1 → Fin S128x1.rank)
  shapeCasts_S64x128x64_S64x8192 : S64x128x64.ShapeCasts S64x8192
  transposes_S8192x8192_S8192x8192_1_0 : S8192x8192.Transposes [1, 0] S8192x8192
  bcast_S8192_S1x8192_1 : S8192.BroadcastsInDim S1x8192 (![1] : Fin 1 → Fin S1x8192.rank)
  bcast_S1x8192_S64x8192_0_1 : S1x8192.BroadcastsInDim S64x8192 (![0, 1] : Fin 2 → Fin S64x8192.rank)
  shapeCasts_S64x8192_S64x128x64 : S64x8192.ShapeCasts S64x128x64
  reducesTo_S64x128x128_S64x128_d1 : S64x128x128.ReducesTo [1] S64x128
  h_S_ : 0 < S_.numel
  bcast_S_S64x128 : S_.BroadcastsInDim S64x128 (![] : Fin 0 → Fin S64x128.rank)
  bcast_S64x128_S64x1x128_0_2 : S64x128.BroadcastsInDim S64x1x128 (![0, 2] : Fin 2 → Fin S64x1x128.rank)
  bcast_S64x1x128_S64x128x128_0_1_2 : S64x1x128.BroadcastsInDim S64x128x128 (![0, 1, 2] : Fin 3 → Fin S64x128x128.rank)
  bcast_S_S64x128x64 : S_.BroadcastsInDim S64x128x64 (![] : Fin 0 → Fin S64x128x64.rank)
  gather_S64x256x64_S128x1_S64x128x64_02_1_n_n_1_1_64164_wf : GatherDims.WF S64x256x64 S128x1 S64x128x64 [0, 2] [1] [] [1] [] 1 ![64, 1, 64]
  dot_S64x8192_S8192x8192_S64x8192_1_0_0_1_n_n_wf : DotDims.WF S64x8192 S8192x8192 S64x8192 [1] [0] [0] [1] [] []
  dot_S64x128x64_S64x128x64_S64x128x128_2_2_1_1_0_0_wf : DotDims.WF S64x128x64 S64x128x64 S64x128x128 [2] [2] [1] [1] [0] [0]
  dot_S64x128x128_S64x128x64_S64x128x64_2_1_1_2_0_0_wf : DotDims.WF S64x128x128 S64x128x64 S64x128x64 [2] [1] [1] [2] [0] [0]
  scatter_S64x256x64_S128x1_S64x128x64_02_1_1_1_wf : ScatterDims.WF S64x256x64 S128x1 S64x128x64 [0, 2] [1] [1] 1

variable [Facts₀]

def gather_S64x256x64_S128x1_S64x128x64_02_1_n_n_1_1_64164 : GatherDims S64x256x64 S128x1 S64x128x64 where
  offsetDims := [0, 2]
  collapsedSliceDims := [1]
  operandBatchingDims := []
  startIndicesBatchingDims := []
  startIndexMap := [1]
  indexVectorDim := 1
  sliceSizes := ![64, 1, 64]
  wf := gather_S64x256x64_S128x1_S64x128x64_02_1_n_n_1_1_64164_wf
def dot_S64x8192_S8192x8192_S64x8192_1_0_0_1_n_n : DotDims S64x8192 S8192x8192 S64x8192 where
  lhsContracting := [1]
  rhsContracting := [0]
  lhsNonContracting := [0]
  rhsNonContracting := [1]
  lhsBatch := []
  rhsBatch := []
  wf := dot_S64x8192_S8192x8192_S64x8192_1_0_0_1_n_n_wf
def dot_S64x128x64_S64x128x64_S64x128x128_2_2_1_1_0_0 : DotDims S64x128x64 S64x128x64 S64x128x128 where
  lhsContracting := [2]
  rhsContracting := [2]
  lhsNonContracting := [1]
  rhsNonContracting := [1]
  lhsBatch := [0]
  rhsBatch := [0]
  wf := dot_S64x128x64_S64x128x64_S64x128x128_2_2_1_1_0_0_wf
def dot_S64x128x128_S64x128x64_S64x128x64_2_1_1_2_0_0 : DotDims S64x128x128 S64x128x64 S64x128x64 where
  lhsContracting := [2]
  rhsContracting := [1]
  lhsNonContracting := [1]
  rhsNonContracting := [2]
  lhsBatch := [0]
  rhsBatch := [0]
  wf := dot_S64x128x128_S64x128x64_S64x128x64_2_1_1_2_0_0_wf
def scatter_S64x256x64_S128x1_S64x128x64_02_1_1_1 : ScatterDims S64x256x64 S128x1 S64x128x64 where
  updateWindowDims := [0, 2]
  insertedWindowDims := [1]
  scatterDimsToOperandDims := [1]
  indexVectorDim := 1
  wf := scatter_S64x256x64_S128x1_S64x128x64_02_1_1_1_wf

class Facts : Prop extends Facts₀ where

variable [Facts]
-- ==== Proof.K.Tile.lean ====
import proofs.«104095_j8426725835121_1_alg».proof.Proof.KernelP.Launch
import proofs.«104095_j8426725835121_1_alg».proof.Proof.Gen.Kernel.Skeleton
import proofs.«104095_j8426725835121_1_alg».proof.Proof.Gen.Kernel.Points
import Idealize.ShloMosaic.Lib.Pipeline.FrameBody
import Idealize.ShloMosaic.Lib.Pipeline.Frame
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

abbrev condFirst (i : grid0.Coords) : Prop := (Scalar.cmpi .ne (Scalar.extui (Scalar.cmpi .eq (BitVec.ofNat 32 (i 1).val) 0#32)) 0#32) = 1#1
theorem condFirst_iff : ∀ t : Fin grid0.N, condFirst (grid0.coords t) ↔ t.val % 4 = 0 := by decide +kernel

abbrev condLast (i : grid0.Coords) : Prop := k0_cond2 i = 1#1
theorem condLast_iff : ∀ t : Fin grid0.N, condLast (grid0.coords t) ↔ t.val % 4 = 3 := by decide +kernel

private theorem offsets_zero : (![0, 0] : Fin 2 → Nat) = fun _ => 0 := funext fun a => by fin_cases a <;> rfl

private theorem cover_whole {S : Shape} {e : EltTy} {off : Fin S.rank → Nat} (h : off = fun _ => 0) (inb : ∀ a, off a + S.size a ≤ S.size a)
    (p : S.Idx → Elt F e) (L : List (View.Piece (Elt F) S e)) (y : S.Idx) :
    ∃ pc ∈ ((⟨Rect.unit off S.size inb, p⟩ : View.Piece (Elt F) S e) :: L), y ∈ pc.1.set :=
  ⟨_, List.mem_cons_self, View.mem_set_unit_zero h inb y⟩

set_option maxHeartbeats 1000000 in
/-- First step of a tile: the accumulator is zeroed and the blocks' product added. -/
theorem kernel_first (c : Dev nD) (i : grid0.Coords) (arg2 : Memref sig .tc .vmem S64x2048 .f32) (harg2 : arg2.IsWhole) (arg3 : Memref sig .tc .vmem S2048x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole)
    (hca : condFirst i) (hcb : ¬ condLast i)
    (x : Vec F S64x2048 .f32) (w : Vec F S2048x2048 .f32) (E : Set ℕ) (K : PUnit → sProp 𝕄) :
    iprop(owns (c : Thread nD τ) arg2 fullShare x ∗ owns (c : Thread nD τ) arg3 fullShare w ∗ (∃ a, owns (c : Thread nD τ) arg6 fullShare a)
        ∗ (iprop(owns (c : Thread nD τ) arg2 fullShare x ∗ owns (c : Thread nD τ) arg3 fullShare w ∗ owns (c : Thread nD τ) arg6 fullShare (k0_pay2 x w (k0_pay1 (F := F)))) -∗ K ⟨⟩))
      ⊢ wp frame (wpE (defs₀ (F := F)) Variants.none c none) E (cc0__linear_kernel i arg2 harg2 arg3 harg3 arg4 harg4 arg5 harg5 arg6 harg6) K := by
  simp only [cc0__linear_kernel_eq_skeleton]; unfold cc0__linear_kernel_skel
  unfold owns
  iintro ⟨⟨%f2, %hf2, H2⟩, ⟨%f3, %hf3, H3⟩, ⟨%a, %f6, %hf6, H6⟩, Hk⟩
  obtain rfl := harg2.eq_unread hf2; obtain rfl := harg3.eq_unread hf3; obtain rfl := harg6.eq_unread hf6
  sl_exec (disch := first | exact hca | exact hcb)
  sl_step
  iapply Hk
  isplitl [H2]
  · iexists _; isplitr; · ipureintro; exact hf2
    iexact H2
  isplitl [H3]
  · iexists _; isplitr; · ipureintro; exact hf3
    iexact H3
  iexists _; isplitr
  swap; · iexact H6
  ipureintro
  rw [View.read_writes_eq_canon _ _ _ (cover_whole offsets_zero _ _ _), View.canon_cons_unit_zero offsets_zero]
  sl_unfold_words
  rw [View.readCov_unit_zero _ offsets_zero]
  simp only [View.readAt_eq_ld, hf2, hf3, View.ld_unit_zero (S := S64x2048) offsets_zero, View.ld_unit_zero (S := S2048x2048) offsets_zero]

set_option maxHeartbeats 1000000 in
/-- Middle step: the blocks' product is added to the accumulator. -/
theorem kernel_mid (c : Dev nD) (i : grid0.Coords) (arg2 : Memref sig .tc .vmem S64x2048 .f32) (harg2 : arg2.IsWhole) (arg3 : Memref sig .tc .vmem S2048x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole)
    (hca : ¬ condFirst i) (hcb : ¬ condLast i)
    (x : Vec F S64x2048 .f32) (w : Vec F S2048x2048 .f32) (a : Vec F S64x2048 .f32) (E : Set ℕ) (K : PUnit → sProp 𝕄) :
    iprop(owns (c : Thread nD τ) arg2 fullShare x ∗ owns (c : Thread nD τ) arg3 fullShare w ∗ owns (c : Thread nD τ) arg6 fullShare a
        ∗ (iprop(owns (c : Thread nD τ) arg2 fullShare x ∗ owns (c : Thread nD τ) arg3 fullShare w ∗ owns (c : Thread nD τ) arg6 fullShare (k0_pay2 x w a)) -∗ K ⟨⟩))
      ⊢ wp frame (wpE (defs₀ (F := F)) Variants.none c none) E (cc0__linear_kernel i arg2 harg2 arg3 harg3 arg4 harg4 arg5 harg5 arg6 harg6) K := by
  simp only [cc0__linear_kernel_eq_skeleton]; unfold cc0__linear_kernel_skel
  unfold owns
  iintro ⟨⟨%f2, %hf2, H2⟩, ⟨%f3, %hf3, H3⟩, ⟨%f6, %hf6, H6⟩, Hk⟩
  obtain rfl := harg2.eq_unread hf2; obtain rfl := harg3.eq_unread hf3; obtain rfl := harg6.eq_unread hf6
  sl_exec (disch := first | exact hca | exact hcb)
  sl_step
  iapply Hk
  isplitl [H2]
  · iexists _; isplitr; · ipureintro; exact hf2
    iexact H2
  isplitl [H3]
  · iexists _; isplitr; · ipureintro; exact hf3
    iexact H3
  iexists _; isplitr
  swap; · iexact H6
  ipureintro
  rw [View.read_writes_eq_canon _ _ _ (cover_whole offsets_zero _ _ _), View.canon_unit_zero offsets_zero]
  simp only [View.readAt_eq_ld, hf2, hf3, hf6, View.ld_unit_zero (S := S64x2048) offsets_zero, View.ld_unit_zero (S := S2048x2048) offsets_zero]

set_option maxHeartbeats 1000000 in
/-- Last step of a tile: the product is added, and the sum plus the bias row is stored into the output block. -/
theorem kernel_last (c : Dev nD) (i : grid0.Coords) (arg2 : Memref sig .tc .vmem S64x2048 .f32) (harg2 : arg2.IsWhole) (arg3 : Memref sig .tc .vmem S2048x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole)
    (hca : ¬ condFirst i) (hcb : condLast i)
    (x : Vec F S64x2048 .f32) (w : Vec F S2048x2048 .f32) (b : Vec F S1x2048 .f32) (a : Vec F S64x2048 .f32) (E : Set ℕ) (K : PUnit → sProp 𝕄) :
    iprop(owns (c : Thread nD τ) arg2 fullShare x ∗ owns (c : Thread nD τ) arg3 fullShare w ∗ owns (c : Thread nD τ) arg4 fullShare b
        ∗ (∃ o, owns (c : Thread nD τ) arg5 fullShare o) ∗ owns (c : Thread nD τ) arg6 fullShare a
        ∗ (iprop(owns (c : Thread nD τ) arg2 fullShare x ∗ owns (c : Thread nD τ) arg3 fullShare w ∗ owns (c : Thread nD τ) arg4 fullShare b
            ∗ owns (c : Thread nD τ) arg5 fullShare (k0_pay3 (k0_pay2 x w a) b) ∗ owns (c : Thread nD τ) arg6 fullShare (k0_pay2 x w a)) -∗ K ⟨⟩))
      ⊢ wp frame (wpE (defs₀ (F := F)) Variants.none c none) E (cc0__linear_kernel i arg2 harg2 arg3 harg3 arg4 harg4 arg5 harg5 arg6 harg6) K := by
  simp only [cc0__linear_kernel_eq_skeleton]; unfold cc0__linear_kernel_skel
  unfold owns
  iintro ⟨⟨%f2, %hf2, H2⟩, ⟨%f3, %hf3, H3⟩, ⟨%f4, %hf4, H4⟩, ⟨%o, %f5, %hf5, H5⟩, ⟨%f6, %hf6, H6⟩, Hk⟩
  obtain rfl := harg2.eq_unread hf2; obtain rfl := harg3.eq_unread hf3; obtain rfl := harg4.eq_unread hf4; obtain rfl := harg5.eq_unread hf5; obtain rfl := harg6.eq_unread hf6
  sl_exec (disch := first | exact hca | exact hcb)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    rw [View.read_writes_eq_canon _ _ _ (cover_whole offsets_zero _ _ _), View.canon_unit_zero offsets_zero]
    sl_unfold_words
    rw [View.readCov_unit_zero _ offsets_zero]
    simp only [View.readAt_eq_ld, hf2, hf3, hf4, hf6, View.ld_unit_zero (S := S64x2048) offsets_zero, View.ld_unit_zero (S := S2048x2048) offsets_zero, View.ld_unit_zero (S := S1x2048) offsets_zero]
  iexists _; isplitr
  swap; · iexact H6
  ipureintro
  sl_unfold_words
  rw [View.read_writes_eq_canon _ _ _ (cover_whole offsets_zero _ _ _), View.canon_unit_zero offsets_zero]
  simp only [View.readAt_eq_ld, hf2, hf3, hf6, View.ld_unit_zero (S := S64x2048) offsets_zero, View.ld_unit_zero (S := S2048x2048) offsets_zero]

section Tile

variable (xb : Fin grid0.N → Vec F S64x2048 .f32) (wb : Fin grid0.N → Vec F S2048x2048 .f32)

/-- The accumulator after point n of the (tile, k-step) grid: restarted from zero at k = 0, added to otherwise. -/
def acc : (n : ℕ) → n < grid0.N → Vec F S64x2048 .f32
  | 0, h => k0_pay2 (xb ⟨0, h⟩) (wb ⟨0, h⟩) (k0_pay1 (F := F))
  | n + 1, h =>
    if (n + 1) % 4 = 0 then k0_pay2 (xb ⟨n + 1, h⟩) (wb ⟨n + 1, h⟩) (k0_pay1 (F := F))
    else k0_pay2 (xb ⟨n + 1, h⟩) (wb ⟨n + 1, h⟩) (acc n (Nat.lt_of_succ_lt h))

theorem acc_reset (t : Fin grid0.N) (h0 : t.val % 4 = 0) :
    acc xb wb t.val t.isLt = k0_pay2 (xb t) (wb t) (k0_pay1 (F := F)) := by
  obtain ⟨n, hn⟩ := t
  cases n with
  | zero => rfl
  | succ n => exact if_pos h0

theorem acc_step (t : Fin grid0.N) (h0 : ¬ t.val % 4 = 0) :
    acc xb wb t.val t.isLt = k0_pay2 (xb t) (wb t)
      (acc xb wb (t.val - 1) (Nat.lt_of_le_of_lt (Nat.sub_le _ _) t.isLt)) := by
  obtain ⟨n, hn⟩ := t
  cases n with
  | zero => exact absurd (Nat.zero_mod _) h0
  | succ n => exact if_neg h0

variable (c : Dev nD) (sc : Memref sig .tc .vmem S64x2048 .f32) (A R : sProp (MT nD τ sig Unit (Elt F) ℕ (UR sig nD τ) ℕ))

/-- The invariant between grid points: before the first, what the launch hands over; after point n, the accumulator at
    its value beside the rest R. -/
def Phi : (n : ℕ) → n ≤ grid0.N → sProp 𝕄
  | 0, _ => A
  | n + 1, hn => iprop(owns (c : Thread nD τ) sc fullShare (acc xb wb n hn) ∗ R ∗ (∃ r, prngReg c r))

theorem Phi_pos (n : ℕ) (h : n ≤ grid0.N) (hz : n ≠ 0) :
    Phi xb wb c sc A R n h = iprop(owns (c : Thread nD τ) sc fullShare (acc xb wb (n - 1) (by omega)) ∗ R ∗ (∃ r, prngReg c r)) := by
  cases n with
  | zero => exact absurd rfl hz
  | succ n => rfl

variable (hA : A = iprop(iprop(iprop(∃ d, owns (c : Thread nD τ) sc fullShare d) ∗ R) ∗ (∃ r, prngReg c r)))
include hA

theorem Phi_forget (n : ℕ) (h : n ≤ grid0.N) :
    Phi xb wb c sc A R n h ⊢ (iprop(iprop(iprop(∃ d, owns (c : Thread nD τ) sc fullShare d) ∗ R) ∗ (∃ r, prngReg c r)) : sProp 𝕄) := by
  cases n with
  | zero => rw [show Phi xb wb c sc A R 0 h = A from rfl, hA]
  | succ n =>
    rw [show Phi xb wb c sc A R (n + 1) h = iprop(owns (c : Thread nD τ) sc fullShare (acc xb wb n h) ∗ R ∗ (∃ r, prngReg c r)) from rfl]
    iintro ⟨HS, Hr, Hg⟩
    isplitr [Hg]
    · isplitl [HS]
      · iexists _; iexact HS
      iexact Hr
    iexact Hg

set_option maxHeartbeats 4800000 in
/-- One grid point of the tiled product, from the invariant and the four blocks to the invariant at the next point: the
    k coordinate picks the run, the accumulator follows its recursion, and the output block is left alone unless k = 3,
    where it receives the accumulated sum plus the bias row. -/
theorem tile_body (t : Fin grid0.N) (m0 : Memref sig .tc .vmem S64x2048 .f32) (h0 : m0.IsWhole) (m1 : Memref sig .tc .vmem S2048x2048 .f32) (h1 : m1.IsWhole)
    (m2 : Memref sig .tc .vmem S1x2048 .f32) (h2 : m2.IsWhole) (m3 : Memref sig .tc .vmem S64x2048 .f32) (h3 : m3.IsWhole) (hsc : sc.IsWhole)
    (bb : Vec F S1x2048 .f32) (O : sProp 𝕄) {D0 D1 D2 D3 : Type}
    {f0 : D0 → Vec F S64x2048 .f32} {f1 : D1 → Vec F S2048x2048 .f32} {f2 : D2 → Vec F S1x2048 .f32}
    (hf0 : ∀ d, f0 d = xb t) (hf1 : ∀ d, f1 d = wb t) (hf2 : ∀ d, f2 d = bb) (y : D3 → Vec F S64x2048 .f32)
    {L0 L1 L2 L3 : sProp 𝕄}
    (hL0 : L0 = owns (c : Thread nD τ) m0 fullShare (xb t)) (hL1 : L1 = owns (c : Thread nD τ) m1 fullShare (wb t))
    (hL2 : L2 = owns (c : Thread nD τ) m2 fullShare bb)
    (hL3 : L3 = if t.val % 4 = 3 then owns (c : Thread nD τ) m3 fullShare (k0_pay3 (acc xb wb t.val t.isLt) bb)
      else iprop(∃ d, owns (c : Thread nD τ) m3 fullShare (y d))) :
    iprop(Phi xb wb c sc A R t.val (Nat.le_of_lt t.isLt) ∗ O
        ∗ (∃ d, owns (c : Thread nD τ) m0 fullShare (f0 d)) ∗ (∃ d, owns (c : Thread nD τ) m1 fullShare (f1 d))
        ∗ (∃ d, owns (c : Thread nD τ) m2 fullShare (f2 d)) ∗ (∃ d, owns (c : Thread nD τ) m3 fullShare (y d)))
      ⊢ wp frame (wpE (defs₀ (F := F)) Variants.none c none) Set.univ (cc0__linear_kernel (grid0.coords t) m0 h0 m1 h1 m2 h2 m3 h3 sc hsc)
          (fun _ => iprop(Phi xb wb c sc A R (t.val + 1) t.isLt ∗ O ∗ L0 ∗ L1 ∗ L2 ∗ L3)) := by
  subst hL0 hL1 hL2 hL3
  obtain rfl : f0 = fun _ => xb t := funext hf0
  obtain rfl : f1 = fun _ => wb t := funext hf1
  obtain rfl : f2 = fun _ => bb := funext hf2
  rw [show Phi xb wb c sc A R (t.val + 1) t.isLt = iprop(owns (c : Thread nD τ) sc fullShare (acc xb wb t.val t.isLt) ∗ R ∗ (∃ r, prngReg c r)) from rfl]
  by_cases hfst : t.val % 4 = 0
  · have hlst : ¬ t.val % 4 = 3 := by omega
    rw [if_neg hlst, acc_reset xb wb t hfst]
    iintro ⟨HΦ, Ho, ⟨%dx, Hx⟩, ⟨%dw, Hw⟩, ⟨%db, Hb⟩, Hy⟩
    ihave HΦ := Phi_forget xb wb c sc A R hA _ _ $$ HΦ
    icases HΦ with ⟨⟨HS, Hr⟩, Hg⟩
    iapply (kernel_first c (grid0.coords t) m0 h0 m1 h1 m2 h2 m3 h3 sc hsc
      ((condFirst_iff t).mpr hfst) (fun h => hlst ((condLast_iff t).mp h)) (xb t) (wb t) Set.univ _)
    isplitl [Hx]; · iexact Hx
    isplitl [Hw]; · iexact Hw
    isplitl [HS]; · iexact HS
    iintro ⟨Hx, Hw, HS⟩
    isplitl [HS Hr Hg]
    · isplitl [HS]; · iexact HS
      isplitl [Hr]; · iexact Hr
      iexact Hg
    isplitl [Ho]; · iexact Ho
    isplitl [Hx]; · iexact Hx
    isplitl [Hw]; · iexact Hw
    isplitl [Hb]; · iexact Hb
    iexact Hy
  · have hz : t.val ≠ 0 := fun e => hfst (by rw [e])
    rw [Phi_pos xb wb c sc A R _ _ hz, acc_step xb wb t hfst]
    by_cases hlst : t.val % 4 = 3
    · rw [if_pos hlst]
      iintro ⟨⟨HS, Hr, Hg⟩, Ho, ⟨%dx, Hx⟩, ⟨%dw, Hw⟩, ⟨%db, Hb⟩, ⟨%dy, Hy⟩⟩
      iapply (kernel_last c (grid0.coords t) m0 h0 m1 h1 m2 h2 m3 h3 sc hsc
        (fun h => hfst ((condFirst_iff t).mp h)) ((condLast_iff t).mpr hlst) (xb t) (wb t) bb _ Set.univ _)
      isplitl [Hx]; · iexact Hx
      isplitl [Hw]; · iexact Hw
      isplitl [Hb]; · iexact Hb
      isplitl [Hy]; · iexists _; iexact Hy
      isplitl [HS]; · iexact HS
      iintro ⟨Hx, Hw, Hb, Hy, HS⟩
      isplitl [HS Hr Hg]
      · isplitl [HS]; · iexact HS
        isplitl [Hr]; · iexact Hr
        iexact Hg
      isplitl [Ho]; · iexact Ho
      isplitl [Hx]; · iexact Hx
      isplitl [Hw]; · iexact Hw
      isplitl [Hb]; · iexact Hb
      iexact Hy
    · rw [if_neg hlst]
      iintro ⟨⟨HS, Hr, Hg⟩, Ho, ⟨%dx, Hx⟩, ⟨%dw, Hw⟩, ⟨%db, Hb⟩, Hy⟩
      iapply (kernel_mid c (grid0.coords t) m0 h0 m1 h1 m2 h2 m3 h3 sc hsc
        (fun h => hfst ((condFirst_iff t).mp h)) (fun h => hlst ((condLast_iff t).mp h)) (xb t) (wb t) _ Set.univ _)
      isplitl [Hx]; · iexact Hx
      isplitl [Hw]; · iexact Hw
      isplitl [HS]; · iexact HS
      iintro ⟨Hx, Hw, HS⟩
      isplitl [HS Hr Hg]
      · isplitl [HS]; · iexact HS
        isplitl [Hr]; · iexact Hr
        iexact Hg
      isplitl [Ho]; · iexact Ho
      isplitl [Hx]; · iexact Hx
      isplitl [Hw]; · iexact Hw
      isplitl [Hb]; · iexact Hb
      iexact Hy

end Tile

end Cert.Kernel.Hand

end
-- ==== Proof.K.R0Defs.lean ====
import proofs.«104095_j8426725835121_1_alg».proof.Proof.K.Tile

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev xb0 (c : Dev nD) (t : Fin cfg0.N) : Vec F S64x2048 .f32 := iblk0 V c 0 t
abbrev wb0 (c : Dev nD) (t : Fin cfg0.N) : Vec F S2048x2048 .f32 := iblk0 V c 1 t
abbrev bb0 (c : Dev nD) (t : Fin cfg0.N) : Vec F S1x2048 .f32 := iblk0 V c 2 t
abbrev scM0 : Memref sig .tc .vmem S64x2048 .f32 := Memref.whole cc0_scratch0
abbrev rest0 (c : Dev nD) : sProp 𝕄 :=
  Pipeline.scopedRestBut (Ix := Unit) (Name := ℕ) (U := UR sig nD τ) (Lvl := ℕ) (Val := Elt F) spec0 c [cc0_scratch0]
abbrev acc0 (c : Dev nD) := acc (xb0 V c) (wb0 V c)

/-- The output block where it is stored: the accumulator plus the bias row. -/
def out0 (c : Dev nD) (t : Fin cfg0.N) : Vec F S64x2048 .f32 := k0_pay3 (acc0 V c t.val t.isLt) (bb0 V c t)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 V c t
  Φ t := Phi (xb0 V c) (wb0 V c) c scM0 (Pipeline.ΦA spec0 c) (rest0 c) t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0 V c t := by dsimp only [dat0]

end Cert.Kernel.Hand

end
-- ==== Proof.K.R1Defs.lean ====
import proofs.«104095_j8426725835121_1_alg».proof.Proof.K.Tile

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev xb1 (c : Dev nD) (t : Fin cfg1.N) : Vec F S64x2048 .f32 := iblk1 V c 0 t
abbrev wb1 (c : Dev nD) (t : Fin cfg1.N) : Vec F S2048x2048 .f32 := iblk1 V c 1 t
abbrev bb1 (c : Dev nD) (t : Fin cfg1.N) : Vec F S1x2048 .f32 := iblk1 V c 2 t
abbrev scM1 : Memref sig .tc .vmem S64x2048 .f32 := Memref.whole cc1_scratch0
abbrev rest1 (c : Dev nD) : sProp 𝕄 :=
  Pipeline.scopedRestBut (Ix := Unit) (Name := ℕ) (U := UR sig nD τ) (Lvl := ℕ) (Val := Elt F) spec1 c [cc1_scratch0]
abbrev acc1 (c : Dev nD) := acc (xb1 V c) (wb1 V c)

/-- The output block where it is stored: the accumulator plus the bias row. -/
def out1 (c : Dev nD) (t : Fin cfg1.N) : Vec F S64x2048 .f32 := k0_pay3 (acc1 V c t.val t.isLt) (bb1 V c t)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 V c t
  Φ t := Phi (xb1 V c) (wb1 V c) c scM1 (Pipeline.ΦA spec1 c) (rest1 c) t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1 V c t := by dsimp only [dat1]

end Cert.Kernel.Hand

end
-- ==== Proof.K.R2Defs.lean ====
import proofs.«104095_j8426725835121_1_alg».proof.Proof.K.Tile

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array at the entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev xb2 (c : Dev nD) (t : Fin cfg2.N) : Vec F S64x2048 .f32 := iblk2 V c 0 t
abbrev wb2 (c : Dev nD) (t : Fin cfg2.N) : Vec F S2048x2048 .f32 := iblk2 V c 1 t
abbrev bb2 (c : Dev nD) (t : Fin cfg2.N) : Vec F S1x2048 .f32 := iblk2 V c 2 t
abbrev scM2 : Memref sig .tc .vmem S64x2048 .f32 := Memref.whole cc2_scratch0
abbrev rest2 (c : Dev nD) : sProp 𝕄 :=
  Pipeline.scopedRestBut (Ix := Unit) (Name := ℕ) (U := UR sig nD τ) (Lvl := ℕ) (Val := Elt F) spec2 c [cc2_scratch0]
abbrev acc2 (c : Dev nD) := acc (xb2 V c) (wb2 V c)

/-- The output block where it is stored: the accumulator plus the bias row. -/
def out2 (c : Dev nD) (t : Fin cfg2.N) : Vec F S64x2048 .f32 := k0_pay3 (acc2 V c t.val t.isLt) (bb2 V c t)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 V c t
  Φ t := Phi (xb2 V c) (wb2 V c) c scM2 (Pipeline.ΦA spec2 c) (rest2 c) t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2 V c t := by dsimp only [dat2]

end Cert.Kernel.Hand

end
-- ==== Proof.K.R3Defs.lean ====
import proofs.«104095_j8426725835121_1_alg».proof.Proof.K.Tile

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array at the entry contents. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev xb3 (c : Dev nD) (t : Fin cfg3.N) : Vec F S64x2048 .f32 := iblk3 V c 0 t
abbrev wb3 (c : Dev nD) (t : Fin cfg3.N) : Vec F S2048x2048 .f32 := iblk3 V c 1 t
abbrev bb3 (c : Dev nD) (t : Fin cfg3.N) : Vec F S1x2048 .f32 := iblk3 V c 2 t
abbrev scM3 : Memref sig .tc .vmem S64x2048 .f32 := Memref.whole cc3_scratch0
abbrev rest3 (c : Dev nD) : sProp 𝕄 :=
  Pipeline.scopedRestBut (Ix := Unit) (Name := ℕ) (U := UR sig nD τ) (Lvl := ℕ) (Val := Elt F) spec3 c [cc3_scratch0]
abbrev acc3 (c : Dev nD) := acc (xb3 V c) (wb3 V c)

/-- The output block where it is stored: the accumulator plus the bias row. -/
def out3 (c : Dev nD) (t : Fin cfg3.N) : Vec F S64x2048 .f32 := k0_pay3 (acc3 V c t.val t.isLt) (bb3 V c t)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3 V c t
  Φ t := Phi (xb3 V c) (wb3 V c) c scM3 (Pipeline.ΦA spec3 c) (rest3 c) t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3 V c t := by dsimp only [dat3]

end Cert.Kernel.Hand

end
-- ==== Proof.K.R4Defs.lean ====
import proofs.«104095_j8426725835121_1_alg».proof.Proof.K.Tile

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array at the entry contents. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev xb4 (c : Dev nD) (t : Fin cfg4.N) : Vec F S64x2048 .f32 := iblk4 V c 0 t
abbrev wb4 (c : Dev nD) (t : Fin cfg4.N) : Vec F S2048x2048 .f32 := iblk4 V c 1 t
abbrev bb4 (c : Dev nD) (t : Fin cfg4.N) : Vec F S1x2048 .f32 := iblk4 V c 2 t
abbrev scM4 : Memref sig .tc .vmem S64x2048 .f32 := Memref.whole cc4_scratch0
abbrev rest4 (c : Dev nD) : sProp 𝕄 :=
  Pipeline.scopedRestBut (Ix := Unit) (Name := ℕ) (U := UR sig nD τ) (Lvl := ℕ) (Val := Elt F) spec4 c [cc4_scratch0]
abbrev acc4 (c : Dev nD) := acc (xb4 V c) (wb4 V c)

/-- The output block where it is stored: the accumulator plus the bias row. -/
def out4 (c : Dev nD) (t : Fin cfg4.N) : Vec F S64x2048 .f32 := k0_pay3 (acc4 V c t.val t.isLt) (bb4 V c t)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4 V c t
  Φ t := Phi (xb4 V c) (wb4 V c) c scM4 (Pipeline.ΦA spec4 c) (rest4 c) t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4 V c t := by dsimp only [dat4]

end Cert.Kernel.Hand

end
-- ==== Proof.K.R5Defs.lean ====
import proofs.«104095_j8426725835121_1_alg».proof.Proof.K.Tile

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array at the entry contents. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev xb5 (c : Dev nD) (t : Fin cfg5.N) : Vec F S64x2048 .f32 := iblk5 V c 0 t
abbrev wb5 (c : Dev nD) (t : Fin cfg5.N) : Vec F S2048x2048 .f32 := iblk5 V c 1 t
abbrev bb5 (c : Dev nD) (t : Fin cfg5.N) : Vec F S1x2048 .f32 := iblk5 V c 2 t
abbrev scM5 : Memref sig .tc .vmem S64x2048 .f32 := Memref.whole cc5_scratch0
abbrev rest5 (c : Dev nD) : sProp 𝕄 :=
  Pipeline.scopedRestBut (Ix := Unit) (Name := ℕ) (U := UR sig nD τ) (Lvl := ℕ) (Val := Elt F) spec5 c [cc5_scratch0]
abbrev acc5 (c : Dev nD) := acc (xb5 V c) (wb5 V c)

/-- The output block where it is stored: the accumulator plus the bias row. -/
def out5 (c : Dev nD) (t : Fin cfg5.N) : Vec F S64x2048 .f32 := k0_pay3 (acc5 V c t.val t.isLt) (bb5 V c t)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5 V c t
  Φ t := Phi (xb5 V c) (wb5 V c) c scM5 (Pipeline.ΦA spec5 c) (rest5 c) t.val (Nat.le_of_lt_succ t.isLt)
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5 V c t := by dsimp only [dat5]

end Cert.Kernel.Hand

end
-- ==== Proof.K.Vals.lean ====
-- The buffer contents between the program's items: each host stretch applied, each launch's output array replaced by the launch's result.
import proofs.«104095_j8426725835121_1_alg».proof.Proof.K.R0Defs
import proofs.«104095_j8426725835121_1_alg».proof.Proof.K.R1Defs
import proofs.«104095_j8426725835121_1_alg».proof.Proof.K.R2Defs
import proofs.«104095_j8426725835121_1_alg».proof.Proof.K.R3Defs
import proofs.«104095_j8426725835121_1_alg».proof.Proof.K.R4Defs
import proofs.«104095_j8426725835121_1_alg».proof.Proof.K.R5Defs
import proofs.«104095_j8426725835121_1_alg».proof.Proof.KernelP.Regions

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

abbrev atRefs (W : Dev nD → Valuation τ sig (Elt F)) : (c : Dev nD) → (b : Ref sig .tc) → Buf (Elt F) ((c : Thread nD τ).loc b) :=
  fun c b => W c b

def U1 (c : Dev nD) : Valuation τ sig (Elt F) := StableHlo.after hostOps0 (fun b => m (c, b))

def o0 (c : Dev nD) : Buf (Elt F) ((c : Thread nD τ).loc main_v3) := (dat0 (atRefs (U1 m)) c).arrAt 3 cfg0.N

def U2 (c : Dev nD) : Valuation τ sig (Elt F) := Function.update (U1 m c) main_v3 (o0 m c)

def U3 (c : Dev nD) : Valuation τ sig (Elt F) := StableHlo.after hostOps1 (U2 m c)

def o1 (c : Dev nD) : Buf (Elt F) ((c : Thread nD τ).loc main_v6) := (dat1 (atRefs (U3 m)) c).arrAt 3 cfg1.N

def U4 (c : Dev nD) : Valuation τ sig (Elt F) := Function.update (U3 m c) main_v6 (o1 m c)

def U5 (c : Dev nD) : Valuation τ sig (Elt F) := StableHlo.after hostOps2 (U4 m c)

def o2 (c : Dev nD) : Buf (Elt F) ((c : Thread nD τ).loc main_v9) := (dat2 (atRefs (U5 m)) c).arrAt 3 cfg2.N

def U6 (c : Dev nD) : Valuation τ sig (Elt F) := Function.update (U5 m c) main_v9 (o2 m c)

def U7 (c : Dev nD) : Valuation τ sig (Elt F) := StableHlo.after hostOps3 (U6 m c)

def o3 (c : Dev nD) : Buf (Elt F) ((c : Thread nD τ).loc main_v29) := (dat3 (atRefs (U7 m)) c).arrAt 3 cfg3.N

def U8 (c : Dev nD) : Valuation τ sig (Elt F) := Function.update (U7 m c) main_v29 (o3 m c)

def U9 (c : Dev nD) : Valuation τ sig (Elt F) := StableHlo.after hostOps4 (U8 m c)

def o4 (c : Dev nD) : Buf (Elt F) ((c : Thread nD τ).loc main_v32) := (dat4 (atRefs (U9 m)) c).arrAt 3 cfg4.N

def U10 (c : Dev nD) : Valuation τ sig (Elt F) := Function.update (U9 m c) main_v32 (o4 m c)

def U11 (c : Dev nD) : Valuation τ sig (Elt F) := StableHlo.after hostOps5 (U10 m c)

def o5 (c : Dev nD) : Buf (Elt F) ((c : Thread nD τ).loc main_v35) := (dat5 (atRefs (U11 m)) c).arrAt 3 cfg5.N

def U12 (c : Dev nD) : Valuation τ sig (Elt F) := Function.update (U11 m c) main_v35 (o5 m c)

def U13 (c : Dev nD) : Valuation τ sig (Elt F) := StableHlo.after hostOps6 (U12 m c)

def outs : Gen.Outs (F := F) := fun J r c =>
  match J with
  | 2 => U2 m c r
  | 4 => U4 m c r
  | 6 => U6 m c r
  | 8 => U8 m c r
  | 10 => U10 m c r
  | _ => U12 m c r

end Cert.Kernel.Hand

end
-- ==== Proof.K.R0Body.lean ====
import proofs.«104095_j8426725835121_1_alg».proof.Proof.K.R0Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem liveAt0_0 : ∀ t : Fin cfg0.N, cfg0.idle 0 (cfg0.grid.coords t) = false := by decide +kernel
theorem liveAt0_1 : ∀ t : Fin cfg0.N, cfg0.idle 1 (cfg0.grid.coords t) = false := by decide +kernel
theorem liveAt0_2 : ∀ t : Fin cfg0.N, cfg0.idle 2 (cfg0.grid.coords t) = false := by decide +kernel
theorem idleAt0_3 : ∀ t : Fin cfg0.N, ¬ t.val % 4 = 3 → cfg0.idle 3 (cfg0.grid.coords t) = true := by decide +kernel
theorem liveAt0_3 : ∀ t : Fin cfg0.N, t.val % 4 = 3 → cfg0.idle 3 (cfg0.grid.coords t) = false := by decide +kernel
theorem noFlush0_3 (t : Fin cfg0.N) (h : ¬ t.val % 4 = 3) : (cfg0.win 3).flush t = false :=
  Bool.eq_false_iff.mpr fun hf => h ((flush0_3 t).mp hf)

abbrev ms0_0 (t : Fin cfg0.N) : Memref sig .tc .vmem S64x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x2048 .f32 := win0_3.stage (cfg0.slots t 3)
abbrev hs0_3 (t : Fin cfg0.N) : (ms0_3 t).IsWhole := hstage0_3 ((cfg0.slots t 3).cast nbuf0_3)

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

theorem PhiA0_eq (c : Dev nD) :
    (Pipeline.ΦA spec0 c : sProp 𝕄)
      = iprop(iprop(iprop(∃ d, owns (c : Thread nD τ) scM0 fullShare d) ∗ rest0 c) ∗ (∃ r, prngReg c r)) := by
  unfold Pipeline.ΦA; rw [scopedRest0_split]; simp only [scM0, owns_whole]; try rfl

theorem leaves0_0 (c : Dev nD) (t : Fin cfg0.N) :
    (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) :
    (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) :
    (dat0 V c).leavesExact 2 t = owns (c : Thread nD τ) (ms0_2 t) fullShare (iblk0 V c 2 t) := by
  unfold Dat.leavesExact; rw [liveAt0_2 t, after0_2]
/-- The output block is stored at the last k-step of a tile and nowhere else. -/
theorem leaves0_3 (c : Dev nD) (t : Fin cfg0.N) :
    (dat0 V c).leavesExact 3 t
      = if t.val % 4 = 3 then owns (c : Thread nD τ) (ms0_3 t) fullShare (out0 V c t)
        else iprop(∃ d, owns (c : Thread nD τ) (ms0_3 t) fullShare ((dat0 V c).before 3 t d)) := by
  by_cases h : t.val % 4 = 3
  · rw [if_pos h]; unfold Dat.leavesExact; rw [liveAt0_3 t h, after0_3]
  · rw [if_neg h]; exact Dat.leavesExact_idle _ 3 t (idleAt0_3 t h) (noFlush0_3 t h)

set_option maxHeartbeats 1600000 in
theorem body_obligation0 (c : Dev nD) : BodyObligation (dat0 (F := F) V c) (defs₀ (F := F)) Variants.none () Set.univ := fun t => by
  rw [bigSep_W0, bigSep_W0]
  exact tile_body (xb0 V c) (wb0 V c) c scM0 (Pipeline.ΦA spec0 c) (rest0 c) (PhiA0_eq c) t (ms0_0 t) (hs0_0 t) (ms0_1 t) (hs0_1 t)
    (ms0_2 t) (hs0_2 t) (ms0_3 t) (hs0_3 t) (Memref.isWhole_whole _) (bb0 V c t) ((dat0 V c).owesAt () t.castSucc)
    (before0_0 V c t) (before0_1 V c t) (before0_2 V c t) ((dat0 V c).before 3 t)
    (leaves0_0 V c t) (leaves0_1 V c t) (leaves0_2 V c t) (leaves0_3 V c t)

theorem hin0 (c : Dev nD) : (Pipeline.ΦA spec0 c : sProp 𝕄) ⊢ (dat0 V c).Φ 0 := by
  rw [show (dat0 V c).Φ 0 = Pipeline.ΦA spec0 c from rfl]
  try exact Idealize.SL.BI.Entails.refl _

theorem hout0 (c : Dev nD) : (dat0 V c).Φ (Fin.last cfg0.N) ⊢ (Pipeline.ΦA spec0 c : sProp 𝕄) := by
  rw [PhiA0_eq c]
  exact Phi_forget (xb0 V c) (wb0 V c) c scM0 (Pipeline.ΦA spec0 c) (rest0 c) (PhiA0_eq c) (Fin.last cfg0.N).val
    (Nat.le_of_lt_succ (Fin.last cfg0.N).isLt)

end Cert.Kernel.Hand

end
-- ==== Proof.K.R1Body.lean ====
import proofs.«104095_j8426725835121_1_alg».proof.Proof.K.R1Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem liveAt1_0 : ∀ t : Fin cfg1.N, cfg1.idle 0 (cfg1.grid.coords t) = false := by decide +kernel
theorem liveAt1_1 : ∀ t : Fin cfg1.N, cfg1.idle 1 (cfg1.grid.coords t) = false := by decide +kernel
theorem liveAt1_2 : ∀ t : Fin cfg1.N, cfg1.idle 2 (cfg1.grid.coords t) = false := by decide +kernel
theorem idleAt1_3 : ∀ t : Fin cfg1.N, ¬ t.val % 4 = 3 → cfg1.idle 3 (cfg1.grid.coords t) = true := by decide +kernel
theorem liveAt1_3 : ∀ t : Fin cfg1.N, t.val % 4 = 3 → cfg1.idle 3 (cfg1.grid.coords t) = false := by decide +kernel
theorem noFlush1_3 (t : Fin cfg1.N) (h : ¬ t.val % 4 = 3) : (cfg1.win 3).flush t = false :=
  Bool.eq_false_iff.mpr fun hf => h ((flush1_3 t).mp hf)

abbrev ms1_0 (t : Fin cfg1.N) : Memref sig .tc .vmem S64x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x2048 .f32 := win1_3.stage (cfg1.slots t 3)
abbrev hs1_3 (t : Fin cfg1.N) : (ms1_3 t).IsWhole := hstage1_3 ((cfg1.slots t 3).cast nbuf1_3)

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem PhiA1_eq (c : Dev nD) :
    (Pipeline.ΦA spec1 c : sProp 𝕄)
      = iprop(iprop(iprop(∃ d, owns (c : Thread nD τ) scM1 fullShare d) ∗ rest1 c) ∗ (∃ r, prngReg c r)) := by
  unfold Pipeline.ΦA; rw [scopedRest1_split]; simp only [scM1, owns_whole]; try rfl

theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (ms1_2 t) fullShare (iblk1 V c 2 t) := by
  unfold Dat.leavesExact; rw [liveAt1_2 t, after1_2]
/-- The output block is stored at the last k-step of a tile and nowhere else. -/
theorem leaves1_3 (c : Dev nD) (t : Fin cfg1.N) :
    (dat1 V c).leavesExact 3 t
      = if t.val % 4 = 3 then owns (c : Thread nD τ) (ms1_3 t) fullShare (out1 V c t)
        else iprop(∃ d, owns (c : Thread nD τ) (ms1_3 t) fullShare ((dat1 V c).before 3 t d)) := by
  by_cases h : t.val % 4 = 3
  · rw [if_pos h]; unfold Dat.leavesExact; rw [liveAt1_3 t h, after1_3]
  · rw [if_neg h]; exact Dat.leavesExact_idle _ 3 t (idleAt1_3 t h) (noFlush1_3 t h)

set_option maxHeartbeats 1600000 in
theorem body_obligation1 (c : Dev nD) : BodyObligation (dat1 (F := F) V c) (defs₀ (F := F)) Variants.none () Set.univ := fun t => by
  rw [bigSep_W1, bigSep_W1]
  exact tile_body (xb1 V c) (wb1 V c) c scM1 (Pipeline.ΦA spec1 c) (rest1 c) (PhiA1_eq c) t (ms1_0 t) (hs1_0 t) (ms1_1 t) (hs1_1 t)
    (ms1_2 t) (hs1_2 t) (ms1_3 t) (hs1_3 t) (Memref.isWhole_whole _) (bb1 V c t) ((dat1 V c).owesAt () t.castSucc)
    (before1_0 V c t) (before1_1 V c t) (before1_2 V c t) ((dat1 V c).before 3 t)
    (leaves1_0 V c t) (leaves1_1 V c t) (leaves1_2 V c t) (leaves1_3 V c t)

theorem hin1 (c : Dev nD) : (Pipeline.ΦA spec1 c : sProp 𝕄) ⊢ (dat1 V c).Φ 0 := by
  rw [show (dat1 V c).Φ 0 = Pipeline.ΦA spec1 c from rfl]
  try exact Idealize.SL.BI.Entails.refl _

theorem hout1 (c : Dev nD) : (dat1 V c).Φ (Fin.last cfg1.N) ⊢ (Pipeline.ΦA spec1 c : sProp 𝕄) := by
  rw [PhiA1_eq c]
  exact Phi_forget (xb1 V c) (wb1 V c) c scM1 (Pipeline.ΦA spec1 c) (rest1 c) (PhiA1_eq c) (Fin.last cfg1.N).val
    (Nat.le_of_lt_succ (Fin.last cfg1.N).isLt)

end Cert.Kernel.Hand

end
-- ==== Proof.K.R2Body.lean ====
import proofs.«104095_j8426725835121_1_alg».proof.Proof.K.R2Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem liveAt2_0 : ∀ t : Fin cfg2.N, cfg2.idle 0 (cfg2.grid.coords t) = false := by decide +kernel
theorem liveAt2_1 : ∀ t : Fin cfg2.N, cfg2.idle 1 (cfg2.grid.coords t) = false := by decide +kernel
theorem liveAt2_2 : ∀ t : Fin cfg2.N, cfg2.idle 2 (cfg2.grid.coords t) = false := by decide +kernel
theorem idleAt2_3 : ∀ t : Fin cfg2.N, ¬ t.val % 4 = 3 → cfg2.idle 3 (cfg2.grid.coords t) = true := by decide +kernel
theorem liveAt2_3 : ∀ t : Fin cfg2.N, t.val % 4 = 3 → cfg2.idle 3 (cfg2.grid.coords t) = false := by decide +kernel
theorem noFlush2_3 (t : Fin cfg2.N) (h : ¬ t.val % 4 = 3) : (cfg2.win 3).flush t = false :=
  Bool.eq_false_iff.mpr fun hf => h ((flush2_3 t).mp hf)

abbrev ms2_0 (t : Fin cfg2.N) : Memref sig .tc .vmem S64x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x2048 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x2048 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S64x2048 .f32 := win2_3.stage (cfg2.slots t 3)
abbrev hs2_3 (t : Fin cfg2.N) : (ms2_3 t).IsWhole := hstage2_3 ((cfg2.slots t 3).cast nbuf2_3)

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

theorem PhiA2_eq (c : Dev nD) :
    (Pipeline.ΦA spec2 c : sProp 𝕄)
      = iprop(iprop(iprop(∃ d, owns (c : Thread nD τ) scM2 fullShare d) ∗ rest2 c) ∗ (∃ r, prngReg c r)) := by
  unfold Pipeline.ΦA; rw [scopedRest2_split]; simp only [scM2, owns_whole]; try rfl

theorem leaves2_0 (c : Dev nD) (t : Fin cfg2.N) :
    (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) :
    (dat2 V c).leavesExact 1 t = owns (c : Thread nD τ) (ms2_1 t) fullShare (iblk2 V c 1 t) := by
  unfold Dat.leavesExact; rw [liveAt2_1 t, after2_1]
theorem leaves2_2 (c : Dev nD) (t : Fin cfg2.N) :
    (dat2 V c).leavesExact 2 t = owns (c : Thread nD τ) (ms2_2 t) fullShare (iblk2 V c 2 t) := by
  unfold Dat.leavesExact; rw [liveAt2_2 t, after2_2]
/-- The output block is stored at the last k-step of a tile and nowhere else. -/
theorem leaves2_3 (c : Dev nD) (t : Fin cfg2.N) :
    (dat2 V c).leavesExact 3 t
      = if t.val % 4 = 3 then owns (c : Thread nD τ) (ms2_3 t) fullShare (out2 V c t)
        else iprop(∃ d, owns (c : Thread nD τ) (ms2_3 t) fullShare ((dat2 V c).before 3 t d)) := by
  by_cases h : t.val % 4 = 3
  · rw [if_pos h]; unfold Dat.leavesExact; rw [liveAt2_3 t h, after2_3]
  · rw [if_neg h]; exact Dat.leavesExact_idle _ 3 t (idleAt2_3 t h) (noFlush2_3 t h)

set_option maxHeartbeats 1600000 in
theorem body_obligation2 (c : Dev nD) : BodyObligation (dat2 (F := F) V c) (defs₀ (F := F)) Variants.none () Set.univ := fun t => by
  rw [bigSep_W2, bigSep_W2]
  exact tile_body (xb2 V c) (wb2 V c) c scM2 (Pipeline.ΦA spec2 c) (rest2 c) (PhiA2_eq c) t (ms2_0 t) (hs2_0 t) (ms2_1 t) (hs2_1 t)
    (ms2_2 t) (hs2_2 t) (ms2_3 t) (hs2_3 t) (Memref.isWhole_whole _) (bb2 V c t) ((dat2 V c).owesAt () t.castSucc)
    (before2_0 V c t) (before2_1 V c t) (before2_2 V c t) ((dat2 V c).before 3 t)
    (leaves2_0 V c t) (leaves2_1 V c t) (leaves2_2 V c t) (leaves2_3 V c t)

theorem hin2 (c : Dev nD) : (Pipeline.ΦA spec2 c : sProp 𝕄) ⊢ (dat2 V c).Φ 0 := by
  rw [show (dat2 V c).Φ 0 = Pipeline.ΦA spec2 c from rfl]
  try exact Idealize.SL.BI.Entails.refl _

theorem hout2 (c : Dev nD) : (dat2 V c).Φ (Fin.last cfg2.N) ⊢ (Pipeline.ΦA spec2 c : sProp 𝕄) := by
  rw [PhiA2_eq c]
  exact Phi_forget (xb2 V c) (wb2 V c) c scM2 (Pipeline.ΦA spec2 c) (rest2 c) (PhiA2_eq c) (Fin.last cfg2.N).val
    (Nat.le_of_lt_succ (Fin.last cfg2.N).isLt)

end Cert.Kernel.Hand

end
-- ==== Proof.K.R3Body.lean ====
import proofs.«104095_j8426725835121_1_alg».proof.Proof.K.R3Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem liveAt3_0 : ∀ t : Fin cfg3.N, cfg3.idle 0 (cfg3.grid.coords t) = false := by decide +kernel
theorem liveAt3_1 : ∀ t : Fin cfg3.N, cfg3.idle 1 (cfg3.grid.coords t) = false := by decide +kernel
theorem liveAt3_2 : ∀ t : Fin cfg3.N, cfg3.idle 2 (cfg3.grid.coords t) = false := by decide +kernel
theorem idleAt3_3 : ∀ t : Fin cfg3.N, ¬ t.val % 4 = 3 → cfg3.idle 3 (cfg3.grid.coords t) = true := by decide +kernel
theorem liveAt3_3 : ∀ t : Fin cfg3.N, t.val % 4 = 3 → cfg3.idle 3 (cfg3.grid.coords t) = false := by decide +kernel
theorem noFlush3_3 (t : Fin cfg3.N) (h : ¬ t.val % 4 = 3) : (cfg3.win 3).flush t = false :=
  Bool.eq_false_iff.mpr fun hf => h ((flush3_3 t).mp hf)

abbrev ms3_0 (t : Fin cfg3.N) : Memref sig .tc .vmem S64x2048 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x2048 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x2048 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S64x2048 .f32 := win3_3.stage (cfg3.slots t 3)
abbrev hs3_3 (t : Fin cfg3.N) : (ms3_3 t).IsWhole := hstage3_3 ((cfg3.slots t 3).cast nbuf3_3)

theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)

theorem PhiA3_eq (c : Dev nD) :
    (Pipeline.ΦA spec3 c : sProp 𝕄)
      = iprop(iprop(iprop(∃ d, owns (c : Thread nD τ) scM3 fullShare d) ∗ rest3 c) ∗ (∃ r, prngReg c r)) := by
  unfold Pipeline.ΦA; rw [scopedRest3_split]; simp only [scM3, owns_whole]; try rfl

theorem leaves3_0 (c : Dev nD) (t : Fin cfg3.N) :
    (dat3 V c).leavesExact 0 t = owns (c : Thread nD τ) (ms3_0 t) fullShare (iblk3 V c 0 t) := by
  unfold Dat.leavesExact; rw [liveAt3_0 t, after3_0]
theorem leaves3_1 (c : Dev nD) (t : Fin cfg3.N) :
    (dat3 V c).leavesExact 1 t = owns (c : Thread nD τ) (ms3_1 t) fullShare (iblk3 V c 1 t) := by
  unfold Dat.leavesExact; rw [liveAt3_1 t, after3_1]
theorem leaves3_2 (c : Dev nD) (t : Fin cfg3.N) :
    (dat3 V c).leavesExact 2 t = owns (c : Thread nD τ) (ms3_2 t) fullShare (iblk3 V c 2 t) := by
  unfold Dat.leavesExact; rw [liveAt3_2 t, after3_2]
/-- The output block is stored at the last k-step of a tile and nowhere else. -/
theorem leaves3_3 (c : Dev nD) (t : Fin cfg3.N) :
    (dat3 V c).leavesExact 3 t
      = if t.val % 4 = 3 then owns (c : Thread nD τ) (ms3_3 t) fullShare (out3 V c t)
        else iprop(∃ d, owns (c : Thread nD τ) (ms3_3 t) fullShare ((dat3 V c).before 3 t d)) := by
  by_cases h : t.val % 4 = 3
  · rw [if_pos h]; unfold Dat.leavesExact; rw [liveAt3_3 t h, after3_3]
  · rw [if_neg h]; exact Dat.leavesExact_idle _ 3 t (idleAt3_3 t h) (noFlush3_3 t h)

set_option maxHeartbeats 1600000 in
theorem body_obligation3 (c : Dev nD) : BodyObligation (dat3 (F := F) V c) (defs₀ (F := F)) Variants.none () Set.univ := fun t => by
  rw [bigSep_W3, bigSep_W3]
  exact tile_body (xb3 V c) (wb3 V c) c scM3 (Pipeline.ΦA spec3 c) (rest3 c) (PhiA3_eq c) t (ms3_0 t) (hs3_0 t) (ms3_1 t) (hs3_1 t)
    (ms3_2 t) (hs3_2 t) (ms3_3 t) (hs3_3 t) (Memref.isWhole_whole _) (bb3 V c t) ((dat3 V c).owesAt () t.castSucc)
    (before3_0 V c t) (before3_1 V c t) (before3_2 V c t) ((dat3 V c).before 3 t)
    (leaves3_0 V c t) (leaves3_1 V c t) (leaves3_2 V c t) (leaves3_3 V c t)

theorem hin3 (c : Dev nD) : (Pipeline.ΦA spec3 c : sProp 𝕄) ⊢ (dat3 V c).Φ 0 := by
  rw [show (dat3 V c).Φ 0 = Pipeline.ΦA spec3 c from rfl]
  try exact Idealize.SL.BI.Entails.refl _

theorem hout3 (c : Dev nD) : (dat3 V c).Φ (Fin.last cfg3.N) ⊢ (Pipeline.ΦA spec3 c : sProp 𝕄) := by
  rw [PhiA3_eq c]
  exact Phi_forget (xb3 V c) (wb3 V c) c scM3 (Pipeline.ΦA spec3 c) (rest3 c) (PhiA3_eq c) (Fin.last cfg3.N).val
    (Nat.le_of_lt_succ (Fin.last cfg3.N).isLt)

end Cert.Kernel.Hand

end
-- ==== Proof.K.R4Body.lean ====
import proofs.«104095_j8426725835121_1_alg».proof.Proof.K.R4Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem liveAt4_0 : ∀ t : Fin cfg4.N, cfg4.idle 0 (cfg4.grid.coords t) = false := by decide +kernel
theorem liveAt4_1 : ∀ t : Fin cfg4.N, cfg4.idle 1 (cfg4.grid.coords t) = false := by decide +kernel
theorem liveAt4_2 : ∀ t : Fin cfg4.N, cfg4.idle 2 (cfg4.grid.coords t) = false := by decide +kernel
theorem idleAt4_3 : ∀ t : Fin cfg4.N, ¬ t.val % 4 = 3 → cfg4.idle 3 (cfg4.grid.coords t) = true := by decide +kernel
theorem liveAt4_3 : ∀ t : Fin cfg4.N, t.val % 4 = 3 → cfg4.idle 3 (cfg4.grid.coords t) = false := by decide +kernel
theorem noFlush4_3 (t : Fin cfg4.N) (h : ¬ t.val % 4 = 3) : (cfg4.win 3).flush t = false :=
  Bool.eq_false_iff.mpr fun hf => h ((flush4_3 t).mp hf)

abbrev ms4_0 (t : Fin cfg4.N) : Memref sig .tc .vmem S64x2048 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2048x2048 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x2048 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S64x2048 .f32 := win4_3.stage (cfg4.slots t 3)
abbrev hs4_3 (t : Fin cfg4.N) : (ms4_3 t).IsWhole := hstage4_3 ((cfg4.slots t 3).cast nbuf4_3)

theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl)
    (fun t => by rw [after4_2]; unfold Dat.blockOf iblk4; rw [A_eq4]; try rfl) t d).trans
    (by unfold Dat.fetched Dat.blockOf iblk4; rw [A_eq4]; try rfl)

theorem PhiA4_eq (c : Dev nD) :
    (Pipeline.ΦA spec4 c : sProp 𝕄)
      = iprop(iprop(iprop(∃ d, owns (c : Thread nD τ) scM4 fullShare d) ∗ rest4 c) ∗ (∃ r, prngReg c r)) := by
  unfold Pipeline.ΦA; rw [scopedRest4_split]; simp only [scM4, owns_whole]; try rfl

theorem leaves4_0 (c : Dev nD) (t : Fin cfg4.N) :
    (dat4 V c).leavesExact 0 t = owns (c : Thread nD τ) (ms4_0 t) fullShare (iblk4 V c 0 t) := by
  unfold Dat.leavesExact; rw [liveAt4_0 t, after4_0]
theorem leaves4_1 (c : Dev nD) (t : Fin cfg4.N) :
    (dat4 V c).leavesExact 1 t = owns (c : Thread nD τ) (ms4_1 t) fullShare (iblk4 V c 1 t) := by
  unfold Dat.leavesExact; rw [liveAt4_1 t, after4_1]
theorem leaves4_2 (c : Dev nD) (t : Fin cfg4.N) :
    (dat4 V c).leavesExact 2 t = owns (c : Thread nD τ) (ms4_2 t) fullShare (iblk4 V c 2 t) := by
  unfold Dat.leavesExact; rw [liveAt4_2 t, after4_2]
/-- The output block is stored at the last k-step of a tile and nowhere else. -/
theorem leaves4_3 (c : Dev nD) (t : Fin cfg4.N) :
    (dat4 V c).leavesExact 3 t
      = if t.val % 4 = 3 then owns (c : Thread nD τ) (ms4_3 t) fullShare (out4 V c t)
        else iprop(∃ d, owns (c : Thread nD τ) (ms4_3 t) fullShare ((dat4 V c).before 3 t d)) := by
  by_cases h : t.val % 4 = 3
  · rw [if_pos h]; unfold Dat.leavesExact; rw [liveAt4_3 t h, after4_3]
  · rw [if_neg h]; exact Dat.leavesExact_idle _ 3 t (idleAt4_3 t h) (noFlush4_3 t h)

set_option maxHeartbeats 1600000 in
theorem body_obligation4 (c : Dev nD) : BodyObligation (dat4 (F := F) V c) (defs₀ (F := F)) Variants.none () Set.univ := fun t => by
  rw [bigSep_W4, bigSep_W4]
  exact tile_body (xb4 V c) (wb4 V c) c scM4 (Pipeline.ΦA spec4 c) (rest4 c) (PhiA4_eq c) t (ms4_0 t) (hs4_0 t) (ms4_1 t) (hs4_1 t)
    (ms4_2 t) (hs4_2 t) (ms4_3 t) (hs4_3 t) (Memref.isWhole_whole _) (bb4 V c t) ((dat4 V c).owesAt () t.castSucc)
    (before4_0 V c t) (before4_1 V c t) (before4_2 V c t) ((dat4 V c).before 3 t)
    (leaves4_0 V c t) (leaves4_1 V c t) (leaves4_2 V c t) (leaves4_3 V c t)

theorem hin4 (c : Dev nD) : (Pipeline.ΦA spec4 c : sProp 𝕄) ⊢ (dat4 V c).Φ 0 := by
  rw [show (dat4 V c).Φ 0 = Pipeline.ΦA spec4 c from rfl]
  try exact Idealize.SL.BI.Entails.refl _

theorem hout4 (c : Dev nD) : (dat4 V c).Φ (Fin.last cfg4.N) ⊢ (Pipeline.ΦA spec4 c : sProp 𝕄) := by
  rw [PhiA4_eq c]
  exact Phi_forget (xb4 V c) (wb4 V c) c scM4 (Pipeline.ΦA spec4 c) (rest4 c) (PhiA4_eq c) (Fin.last cfg4.N).val
    (Nat.le_of_lt_succ (Fin.last cfg4.N).isLt)

end Cert.Kernel.Hand

end
-- ==== Proof.K.R5Body.lean ====
import proofs.«104095_j8426725835121_1_alg».proof.Proof.K.R5Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem liveAt5_0 : ∀ t : Fin cfg5.N, cfg5.idle 0 (cfg5.grid.coords t) = false := by decide +kernel
theorem liveAt5_1 : ∀ t : Fin cfg5.N, cfg5.idle 1 (cfg5.grid.coords t) = false := by decide +kernel
theorem liveAt5_2 : ∀ t : Fin cfg5.N, cfg5.idle 2 (cfg5.grid.coords t) = false := by decide +kernel
theorem idleAt5_3 : ∀ t : Fin cfg5.N, ¬ t.val % 4 = 3 → cfg5.idle 3 (cfg5.grid.coords t) = true := by decide +kernel
theorem liveAt5_3 : ∀ t : Fin cfg5.N, t.val % 4 = 3 → cfg5.idle 3 (cfg5.grid.coords t) = false := by decide +kernel
theorem noFlush5_3 (t : Fin cfg5.N) (h : ¬ t.val % 4 = 3) : (cfg5.win 3).flush t = false :=
  Bool.eq_false_iff.mpr fun hf => h ((flush5_3 t).mp hf)

abbrev ms5_0 (t : Fin cfg5.N) : Memref sig .tc .vmem S64x2048 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S2048x2048 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x2048 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S64x2048 .f32 := win5_3.stage (cfg5.slots t 3)
abbrev hs5_3 (t : Fin cfg5.N) : (ms5_3 t).IsWhole := hstage5_3 ((cfg5.slots t 3).cast nbuf5_3)

theorem before5_0 (c : Dev nD) (t : Fin cfg5.N) (d) : (dat5 V c).before 0 t d = iblk5 V c 0 t :=
  ((dat5 V c).before_in_eq_fetched 0 rfl (fun _ => rfl) (fun _ _ _ => rfl)
    (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl)
    (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (fun _ => rfl) (fun _ _ _ => rfl)
    (fun t => by rw [after5_2]; unfold Dat.blockOf iblk5; rw [A_eq5]; try rfl) t d).trans
    (by unfold Dat.fetched Dat.blockOf iblk5; rw [A_eq5]; try rfl)

theorem PhiA5_eq (c : Dev nD) :
    (Pipeline.ΦA spec5 c : sProp 𝕄)
      = iprop(iprop(iprop(∃ d, owns (c : Thread nD τ) scM5 fullShare d) ∗ rest5 c) ∗ (∃ r, prngReg c r)) := by
  unfold Pipeline.ΦA; rw [scopedRest5_split]; simp only [scM5, owns_whole]; try rfl

theorem leaves5_0 (c : Dev nD) (t : Fin cfg5.N) :
    (dat5 V c).leavesExact 0 t = owns (c : Thread nD τ) (ms5_0 t) fullShare (iblk5 V c 0 t) := by
  unfold Dat.leavesExact; rw [liveAt5_0 t, after5_0]
theorem leaves5_1 (c : Dev nD) (t : Fin cfg5.N) :
    (dat5 V c).leavesExact 1 t = owns (c : Thread nD τ) (ms5_1 t) fullShare (iblk5 V c 1 t) := by
  unfold Dat.leavesExact; rw [liveAt5_1 t, after5_1]
theorem leaves5_2 (c : Dev nD) (t : Fin cfg5.N) :
    (dat5 V c).leavesExact 2 t = owns (c : Thread nD τ) (ms5_2 t) fullShare (iblk5 V c 2 t) := by
  unfold Dat.leavesExact; rw [liveAt5_2 t, after5_2]
/-- The output block is stored at the last k-step of a tile and nowhere else. -/
theorem leaves5_3 (c : Dev nD) (t : Fin cfg5.N) :
    (dat5 V c).leavesExact 3 t
      = if t.val % 4 = 3 then owns (c : Thread nD τ) (ms5_3 t) fullShare (out5 V c t)
        else iprop(∃ d, owns (c : Thread nD τ) (ms5_3 t) fullShare ((dat5 V c).before 3 t d)) := by
  by_cases h : t.val % 4 = 3
  · rw [if_pos h]; unfold Dat.leavesExact; rw [liveAt5_3 t h, after5_3]
  · rw [if_neg h]; exact Dat.leavesExact_idle _ 3 t (idleAt5_3 t h) (noFlush5_3 t h)

set_option maxHeartbeats 1600000 in
theorem body_obligation5 (c : Dev nD) : BodyObligation (dat5 (F := F) V c) (defs₀ (F := F)) Variants.none () Set.univ := fun t => by
  rw [bigSep_W5, bigSep_W5]
  exact tile_body (xb5 V c) (wb5 V c) c scM5 (Pipeline.ΦA spec5 c) (rest5 c) (PhiA5_eq c) t (ms5_0 t) (hs5_0 t) (ms5_1 t) (hs5_1 t)
    (ms5_2 t) (hs5_2 t) (ms5_3 t) (hs5_3 t) (Memref.isWhole_whole _) (bb5 V c t) ((dat5 V c).owesAt () t.castSucc)
    (before5_0 V c t) (before5_1 V c t) (before5_2 V c t) ((dat5 V c).before 3 t)
    (leaves5_0 V c t) (leaves5_1 V c t) (leaves5_2 V c t) (leaves5_3 V c t)

theorem hin5 (c : Dev nD) : (Pipeline.ΦA spec5 c : sProp 𝕄) ⊢ (dat5 V c).Φ 0 := by
  rw [show (dat5 V c).Φ 0 = Pipeline.ΦA spec5 c from rfl]
  try exact Idealize.SL.BI.Entails.refl _

theorem hout5 (c : Dev nD) : (dat5 V c).Φ (Fin.last cfg5.N) ⊢ (Pipeline.ΦA spec5 c : sProp 𝕄) := by
  rw [PhiA5_eq c]
  exact Phi_forget (xb5 V c) (wb5 V c) c scM5 (Pipeline.ΦA spec5 c) (rest5 c) (PhiA5_eq c) (Fin.last cfg5.N).val
    (Nat.le_of_lt_succ (Fin.last cfg5.N).isLt)

end Cert.Kernel.Hand

end
-- ==== Proof.K.Run.lean ====
-- The program's run as a chain of thirteen items: seven host stretches and six launches of the tiled linear layer, each launch entered from and left at named buffer contents.
import proofs.«104095_j8426725835121_1_alg».proof.Proof.K.Vals
import proofs.«104095_j8426725835121_1_alg».proof.Proof.K.R0Body
import proofs.«104095_j8426725835121_1_alg».proof.Proof.K.R1Body
import proofs.«104095_j8426725835121_1_alg».proof.Proof.K.R2Body
import proofs.«104095_j8426725835121_1_alg».proof.Proof.K.R3Body
import proofs.«104095_j8426725835121_1_alg».proof.Proof.K.R4Body
import proofs.«104095_j8426725835121_1_alg».proof.Proof.K.R5Body
import proofs.«104095_j8426725835121_1_alg».proof.Proof.KernelP.Regions
import Idealize.ShloMosaic.Lib.Pipeline.FrameBody
import Idealize.ShloMosaic.Lib.Pipeline.RegionsLoop

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

theorem V_eq1 (c : Dev nD) : Gen.V1 m c = U1 m c := rfl

theorem V_eq2 (c : Dev nD) : Gen.V2 m (outs m) c = U2 m c := by
  show Function.update (Gen.V1 m c) main_v3 (U2 m c main_v3) = U2 m c
  rw [V_eq1 m c]
  unfold U2
  rw [Function.update_self]

theorem V_eq3 (c : Dev nD) : Gen.V3 m (outs m) c = U3 m c :=
  congrArg (StableHlo.after hostOps1) (V_eq2 m c)

theorem V_eq4 (c : Dev nD) : Gen.V4 m (outs m) c = U4 m c := by
  show Function.update (Gen.V3 m (outs m) c) main_v6 (U4 m c main_v6) = U4 m c
  rw [V_eq3 m c]
  unfold U4
  rw [Function.update_self]

theorem V_eq5 (c : Dev nD) : Gen.V5 m (outs m) c = U5 m c :=
  congrArg (StableHlo.after hostOps2) (V_eq4 m c)

theorem V_eq6 (c : Dev nD) : Gen.V6 m (outs m) c = U6 m c := by
  show Function.update (Gen.V5 m (outs m) c) main_v9 (U6 m c main_v9) = U6 m c
  rw [V_eq5 m c]
  unfold U6
  rw [Function.update_self]

theorem V_eq7 (c : Dev nD) : Gen.V7 m (outs m) c = U7 m c :=
  congrArg (StableHlo.after hostOps3) (V_eq6 m c)

theorem V_eq8 (c : Dev nD) : Gen.V8 m (outs m) c = U8 m c := by
  show Function.update (Gen.V7 m (outs m) c) main_v29 (U8 m c main_v29) = U8 m c
  rw [V_eq7 m c]
  unfold U8
  rw [Function.update_self]

theorem V_eq9 (c : Dev nD) : Gen.V9 m (outs m) c = U9 m c :=
  congrArg (StableHlo.after hostOps4) (V_eq8 m c)

theorem V_eq10 (c : Dev nD) : Gen.V10 m (outs m) c = U10 m c := by
  show Function.update (Gen.V9 m (outs m) c) main_v32 (U10 m c main_v32) = U10 m c
  rw [V_eq9 m c]
  unfold U10
  rw [Function.update_self]

theorem V_eq11 (c : Dev nD) : Gen.V11 m (outs m) c = U11 m c :=
  congrArg (StableHlo.after hostOps5) (V_eq10 m c)

theorem V_eq12 (c : Dev nD) : Gen.V12 m (outs m) c = U12 m c := by
  show Function.update (Gen.V11 m (outs m) c) main_v35 (U12 m c main_v35) = U12 m c
  rw [V_eq11 m c]
  unfold U12
  rw [Function.update_self]

theorem V_eq13 (c : Dev nD) : Gen.V13 m (outs m) c = U13 m c :=
  congrArg (StableHlo.after hostOps6) (V_eq12 m c)

theorem U2_out (c : Dev nD) : U2 m c main_v3 = o0 m c := by
  unfold U2; rw [Function.update_self]

theorem U2_of_ne (c : Dev nD) (b : Ref sig .tc) (h : b ≠ main_v3) : U2 m c b = U1 m c b := by
  unfold U2
  rw [Function.update_of_ne (StableHlo.devRef_ne_of_ne h : (Proc.devRef .tc b : DevRef τ sig) ≠ Proc.devRef .tc main_v3)]

theorem hF0 (c : Dev nD) : ∀ w : Fin cfg0.W,
    (dat0 (atRefs (U1 m)) c).arrAt w cfg0.N = atRefs (U2 m) c (Pipeline.arrRef spec0 w)
  | ⟨0, _⟩ => ((dat0 (atRefs (U1 m)) c).arrAt_in 0 rfl _).trans
      ((A_eq0 (atRefs (U1 m)) c 0).trans (U2_of_ne m c _ (by decide)).symm)
  | ⟨1, _⟩ => ((dat0 (atRefs (U1 m)) c).arrAt_in 1 rfl _).trans
      ((A_eq0 (atRefs (U1 m)) c 1).trans (U2_of_ne m c _ (by decide)).symm)
  | ⟨2, _⟩ => ((dat0 (atRefs (U1 m)) c).arrAt_in 2 rfl _).trans
      ((A_eq0 (atRefs (U1 m)) c 2).trans (U2_of_ne m c _ (by decide)).symm)
  | ⟨3, _⟩ => (U2_out m c).symm
  | ⟨_ + 4, h⟩ => absurd h (Nat.not_lt.2 (Nat.le_add_left _ _))

theorem hrest0 (c : Dev nD) : ∀ b, b ∉ Finset.univ.image (Pipeline.arrRef spec0) → atRefs (U2 m) c b = atRefs (U1 m) c b :=
  fun b hb => U2_of_ne m c b fun e => hb (Finset.mem_image.mpr ⟨3, Finset.mem_univ _, (by decide : Pipeline.arrRef spec0 (3 : Fin 4) = main_v3).trans e.symm⟩)

theorem U4_out (c : Dev nD) : U4 m c main_v6 = o1 m c := by
  unfold U4; rw [Function.update_self]

theorem U4_of_ne (c : Dev nD) (b : Ref sig .tc) (h : b ≠ main_v6) : U4 m c b = U3 m c b := by
  unfold U4
  rw [Function.update_of_ne (StableHlo.devRef_ne_of_ne h : (Proc.devRef .tc b : DevRef τ sig) ≠ Proc.devRef .tc main_v6)]

theorem hF1 (c : Dev nD) : ∀ w : Fin cfg1.W,
    (dat1 (atRefs (U3 m)) c).arrAt w cfg1.N = atRefs (U4 m) c (Pipeline.arrRef spec1 w)
  | ⟨0, _⟩ => ((dat1 (atRefs (U3 m)) c).arrAt_in 0 rfl _).trans
      ((A_eq1 (atRefs (U3 m)) c 0).trans (U4_of_ne m c _ (by decide)).symm)
  | ⟨1, _⟩ => ((dat1 (atRefs (U3 m)) c).arrAt_in 1 rfl _).trans
      ((A_eq1 (atRefs (U3 m)) c 1).trans (U4_of_ne m c _ (by decide)).symm)
  | ⟨2, _⟩ => ((dat1 (atRefs (U3 m)) c).arrAt_in 2 rfl _).trans
      ((A_eq1 (atRefs (U3 m)) c 2).trans (U4_of_ne m c _ (by decide)).symm)
  | ⟨3, _⟩ => (U4_out m c).symm
  | ⟨_ + 4, h⟩ => absurd h (Nat.not_lt.2 (Nat.le_add_left _ _))

theorem hrest1 (c : Dev nD) : ∀ b, b ∉ Finset.univ.image (Pipeline.arrRef spec1) → atRefs (U4 m) c b = atRefs (U3 m) c b :=
  fun b hb => U4_of_ne m c b fun e => hb (Finset.mem_image.mpr ⟨3, Finset.mem_univ _, (by decide : Pipeline.arrRef spec1 (3 : Fin 4) = main_v6).trans e.symm⟩)

theorem U6_out (c : Dev nD) : U6 m c main_v9 = o2 m c := by
  unfold U6; rw [Function.update_self]

theorem U6_of_ne (c : Dev nD) (b : Ref sig .tc) (h : b ≠ main_v9) : U6 m c b = U5 m c b := by
  unfold U6
  rw [Function.update_of_ne (StableHlo.devRef_ne_of_ne h : (Proc.devRef .tc b : DevRef τ sig) ≠ Proc.devRef .tc main_v9)]

theorem hF2 (c : Dev nD) : ∀ w : Fin cfg2.W,
    (dat2 (atRefs (U5 m)) c).arrAt w cfg2.N = atRefs (U6 m) c (Pipeline.arrRef spec2 w)
  | ⟨0, _⟩ => ((dat2 (atRefs (U5 m)) c).arrAt_in 0 rfl _).trans
      ((A_eq2 (atRefs (U5 m)) c 0).trans (U6_of_ne m c _ (by decide)).symm)
  | ⟨1, _⟩ => ((dat2 (atRefs (U5 m)) c).arrAt_in 1 rfl _).trans
      ((A_eq2 (atRefs (U5 m)) c 1).trans (U6_of_ne m c _ (by decide)).symm)
  | ⟨2, _⟩ => ((dat2 (atRefs (U5 m)) c).arrAt_in 2 rfl _).trans
      ((A_eq2 (atRefs (U5 m)) c 2).trans (U6_of_ne m c _ (by decide)).symm)
  | ⟨3, _⟩ => (U6_out m c).symm
  | ⟨_ + 4, h⟩ => absurd h (Nat.not_lt.2 (Nat.le_add_left _ _))

theorem hrest2 (c : Dev nD) : ∀ b, b ∉ Finset.univ.image (Pipeline.arrRef spec2) → atRefs (U6 m) c b = atRefs (U5 m) c b :=
  fun b hb => U6_of_ne m c b fun e => hb (Finset.mem_image.mpr ⟨3, Finset.mem_univ _, (by decide : Pipeline.arrRef spec2 (3 : Fin 4) = main_v9).trans e.symm⟩)

theorem U8_out (c : Dev nD) : U8 m c main_v29 = o3 m c := by
  unfold U8; rw [Function.update_self]

theorem U8_of_ne (c : Dev nD) (b : Ref sig .tc) (h : b ≠ main_v29) : U8 m c b = U7 m c b := by
  unfold U8
  rw [Function.update_of_ne (StableHlo.devRef_ne_of_ne h : (Proc.devRef .tc b : DevRef τ sig) ≠ Proc.devRef .tc main_v29)]

theorem hF3 (c : Dev nD) : ∀ w : Fin cfg3.W,
    (dat3 (atRefs (U7 m)) c).arrAt w cfg3.N = atRefs (U8 m) c (Pipeline.arrRef spec3 w)
  | ⟨0, _⟩ => ((dat3 (atRefs (U7 m)) c).arrAt_in 0 rfl _).trans
      ((A_eq3 (atRefs (U7 m)) c 0).trans (U8_of_ne m c _ (by decide)).symm)
  | ⟨1, _⟩ => ((dat3 (atRefs (U7 m)) c).arrAt_in 1 rfl _).trans
      ((A_eq3 (atRefs (U7 m)) c 1).trans (U8_of_ne m c _ (by decide)).symm)
  | ⟨2, _⟩ => ((dat3 (atRefs (U7 m)) c).arrAt_in 2 rfl _).trans
      ((A_eq3 (atRefs (U7 m)) c 2).trans (U8_of_ne m c _ (by decide)).symm)
  | ⟨3, _⟩ => (U8_out m c).symm
  | ⟨_ + 4, h⟩ => absurd h (Nat.not_lt.2 (Nat.le_add_left _ _))

theorem hrest3 (c : Dev nD) : ∀ b, b ∉ Finset.univ.image (Pipeline.arrRef spec3) → atRefs (U8 m) c b = atRefs (U7 m) c b :=
  fun b hb => U8_of_ne m c b fun e => hb (Finset.mem_image.mpr ⟨3, Finset.mem_univ _, (by decide : Pipeline.arrRef spec3 (3 : Fin 4) = main_v29).trans e.symm⟩)

theorem U10_out (c : Dev nD) : U10 m c main_v32 = o4 m c := by
  unfold U10; rw [Function.update_self]

theorem U10_of_ne (c : Dev nD) (b : Ref sig .tc) (h : b ≠ main_v32) : U10 m c b = U9 m c b := by
  unfold U10
  rw [Function.update_of_ne (StableHlo.devRef_ne_of_ne h : (Proc.devRef .tc b : DevRef τ sig) ≠ Proc.devRef .tc main_v32)]

theorem hF4 (c : Dev nD) : ∀ w : Fin cfg4.W,
    (dat4 (atRefs (U9 m)) c).arrAt w cfg4.N = atRefs (U10 m) c (Pipeline.arrRef spec4 w)
  | ⟨0, _⟩ => ((dat4 (atRefs (U9 m)) c).arrAt_in 0 rfl _).trans
      ((A_eq4 (atRefs (U9 m)) c 0).trans (U10_of_ne m c _ (by decide)).symm)
  | ⟨1, _⟩ => ((dat4 (atRefs (U9 m)) c).arrAt_in 1 rfl _).trans
      ((A_eq4 (atRefs (U9 m)) c 1).trans (U10_of_ne m c _ (by decide)).symm)
  | ⟨2, _⟩ => ((dat4 (atRefs (U9 m)) c).arrAt_in 2 rfl _).trans
      ((A_eq4 (atRefs (U9 m)) c 2).trans (U10_of_ne m c _ (by decide)).symm)
  | ⟨3, _⟩ => (U10_out m c).symm
  | ⟨_ + 4, h⟩ => absurd h (Nat.not_lt.2 (Nat.le_add_left _ _))

theorem hrest4 (c : Dev nD) : ∀ b, b ∉ Finset.univ.image (Pipeline.arrRef spec4) → atRefs (U10 m) c b = atRefs (U9 m) c b :=
  fun b hb => U10_of_ne m c b fun e => hb (Finset.mem_image.mpr ⟨3, Finset.mem_univ _, (by decide : Pipeline.arrRef spec4 (3 : Fin 4) = main_v32).trans e.symm⟩)

theorem U12_out (c : Dev nD) : U12 m c main_v35 = o5 m c := by
  unfold U12; rw [Function.update_self]

theorem U12_of_ne (c : Dev nD) (b : Ref sig .tc) (h : b ≠ main_v35) : U12 m c b = U11 m c b := by
  unfold U12
  rw [Function.update_of_ne (StableHlo.devRef_ne_of_ne h : (Proc.devRef .tc b : DevRef τ sig) ≠ Proc.devRef .tc main_v35)]

theorem hF5 (c : Dev nD) : ∀ w : Fin cfg5.W,
    (dat5 (atRefs (U11 m)) c).arrAt w cfg5.N = atRefs (U12 m) c (Pipeline.arrRef spec5 w)
  | ⟨0, _⟩ => ((dat5 (atRefs (U11 m)) c).arrAt_in 0 rfl _).trans
      ((A_eq5 (atRefs (U11 m)) c 0).trans (U12_of_ne m c _ (by decide)).symm)
  | ⟨1, _⟩ => ((dat5 (atRefs (U11 m)) c).arrAt_in 1 rfl _).trans
      ((A_eq5 (atRefs (U11 m)) c 1).trans (U12_of_ne m c _ (by decide)).symm)
  | ⟨2, _⟩ => ((dat5 (atRefs (U11 m)) c).arrAt_in 2 rfl _).trans
      ((A_eq5 (atRefs (U11 m)) c 2).trans (U12_of_ne m c _ (by decide)).symm)
  | ⟨3, _⟩ => (U12_out m c).symm
  | ⟨_ + 4, h⟩ => absurd h (Nat.not_lt.2 (Nat.le_add_left _ _))

theorem hrest5 (c : Dev nD) : ∀ b, b ∉ Finset.univ.image (Pipeline.arrRef spec5) → atRefs (U12 m) c b = atRefs (U11 m) c b :=
  fun b hb => U12_of_ne m c b fun e => hb (Finset.mem_image.mpr ⟨3, Finset.mem_univ _, (by decide : Pipeline.arrRef spec5 (3 : Fin 4) = main_v35).trans e.symm⟩)

def pdats : (p : Fin 6) → (c : Dev nD) → Dat τ (Elt F) Unit ℕ (UR sig nD τ) ℕ (cfgs p) c
  | ⟨0, _⟩ => fun c => dat0 (atRefs (U1 m)) c
  | ⟨1, _⟩ => fun c => dat1 (atRefs (U3 m)) c
  | ⟨2, _⟩ => fun c => dat2 (atRefs (U5 m)) c
  | ⟨3, _⟩ => fun c => dat3 (atRefs (U7 m)) c
  | ⟨4, _⟩ => fun c => dat4 (atRefs (U9 m)) c
  | ⟨5, _⟩ => fun c => dat5 (atRefs (U11 m)) c

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

set_option backward.isDefEq.respectTransparency.types false in
/-- A launch as a region of the run, entered with the buffers at contents Uin and left with them at Uout. -/
def seg (p : Fin 6) (lf : Pipeline.LaunchFacts (nD := nD) (τ := τ) cfgs p) (Uin Uout : Dev nD → Valuation τ sig (Elt F))
    (hb : ∀ c, Pipeline.BodyObligationLoose (pdats m p c) (defs₀ (F := F)) Variants.none () Set.univ)
    (hq : ∀ c w, (pdats m p c).q w = fullShare) (howed : ∀ c t, (pdats m p c).owed t = 0) (hrec : ∀ c x, x ∈ (pdats m p c).recorded 0)
    (hA : ∀ c w, (pdats m p c).A w = atRefs Uin c (Pipeline.arrRef (cfgs p).spec w))
    (hi : ∀ c, (Pipeline.ΦA (cfgs p).spec c : sProp 𝕄) ⊢ (pdats m p c).Φ 0)
    (hou : ∀ c, (pdats m p c).Φ (Fin.last (cfgs p).N) ⊢ (Pipeline.ΦA (cfgs p).spec c : sProp 𝕄))
    (hF : ∀ c w, (pdats m p c).arrAt w (cfgs p).N = atRefs Uout c (Pipeline.arrRef (cfgs p).spec w))
    (hr : ∀ c b, b ∉ Finset.univ.image (Pipeline.arrRef (cfgs p).spec) → atRefs Uout c b = atRefs Uin c b) :
    Pipeline.RegionSeg (pcfgs (F := F)) Gen.adm (pdats m) () defs₀ Variants.none L lv p where
  win := lf.win.to₀
  block_pos := lf.block_pos
  stage_whole := lf.stage_whole
  K := PEmpty
  osem k := k.elim
  ho := Pipeline.OwnSemFacts.none _
  hbody := hb
  hwaits := Pipeline.hwaits_of_owed_zero _ _ _ _ L lv p howed
  pre c := iprop(StableHlo.held (c : Thread nD τ) (Pipeline.ucRefs τ sig) (Uin c) ∗ R c)
  post c := iprop(StableHlo.held (c : Thread nD τ) (Pipeline.ucRefs τ sig) (Uout c) ∗ R c)
  X c := iprop(∃ r, prngReg c r)
  Y c := iprop(∃ r, prngReg c r)
  Z c := Pipeline.unscopedRest (Ix := Unit) (Name := ℕ) (U := UR sig nD τ) (Lvl := ℕ) (cfgs p).spec c (atRefs Uin c)
  hentry c := by
    rw [Pipeline.ownSems0_none]
    have hsplit := Pipeline.arrays_of_unscopedBufs (p := p) (pcfgs (F := F)) Gen.adm (pdats m) lf.win lf.arr_whole c
      ((pdats m p c).share_full (hq c)) (atRefs Uin c) (hA c)
    rw [Pipeline.unscopedBufs_held c (Uin c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      simp only [howed c]
      icases HO with ⟨%W, HO⟩; iexists W; isplitr; · ipureintro; exact fun x _ => Or.inl (hrec c x)
      iexact HO
    isplitl [Hp]; · iexact Hp
    iexact Hrest
  hin c := by
    refine BIBase.Entails.trans ?_ (hi c)
    unfold Pipeline.ΦA
    iintro ⟨Hp, -, Hr⟩
    isplitl [Hr]; · iexact Hr
    iexact Hp
  hout c := by
    refine BIBase.Entails.trans (hou c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) Gen.adm (Ix := Unit) (Name := ℕ) (U := UR sig nD τ) (Lvl := ℕ)
      lf.win lf.arr_whole c (pdats m) ((pdats m p c).share_full (hq c))
      (atRefs Uin c) (atRefs Uout c) ((pdats m p c).arrAt · (cfgs p).N) (hF c) (hr c)
    rw [Pipeline.unscopedBufs_held c (Uout c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    simp only [howed c]
    icases HO with ⟨%W, -, HO⟩; iexists W; iexact HO

set_option backward.isDefEq.respectTransparency.types false in
def reg0 : Pipeline.RegionSeg (pcfgs (F := F)) Gen.adm (pdats m) () defs₀ Variants.none L lv 0 :=
  seg m 0 launch0 (U1 m) (U2 m) (fun c => (body_obligation0 (atRefs (U1 m)) c).loose) (fun _ _ => rfl) (fun _ _ => rfl) (fun _ _ => trivial) (fun _ _ => rfl)
    (hin0 (atRefs (U1 m))) (hout0 (atRefs (U1 m))) (hF0 m) (hrest0 m)

theorem hpre0 (c : Dev nD) : iprop(StableHlo.held (c : Thread nD τ) (Pipeline.ucRefs τ sig) (Gen.V1 m c) ∗ R c) ⊢ (reg0 m).pre c := by
  rw [V_eq1 m c]; exact .rfl
theorem hpost0 (c : Dev nD) : (reg0 m).post c ⊢ iprop(StableHlo.held (c : Thread nD τ) (Pipeline.ucRefs τ sig) (Gen.V2 m (outs m) c) ∗ R c) := by
  rw [V_eq2 m c]; exact .rfl

set_option backward.isDefEq.respectTransparency.types false in
def reg1 : Pipeline.RegionSeg (pcfgs (F := F)) Gen.adm (pdats m) () defs₀ Variants.none L lv 1 :=
  seg m 1 launch1 (U3 m) (U4 m) (fun c => (body_obligation1 (atRefs (U3 m)) c).loose) (fun _ _ => rfl) (fun _ _ => rfl) (fun _ _ => trivial) (fun _ _ => rfl)
    (hin1 (atRefs (U3 m))) (hout1 (atRefs (U3 m))) (hF1 m) (hrest1 m)

theorem hpre1 (c : Dev nD) : iprop(StableHlo.held (c : Thread nD τ) (Pipeline.ucRefs τ sig) (Gen.V3 m (outs m) c) ∗ R c) ⊢ (reg1 m).pre c := by
  rw [V_eq3 m c]; exact .rfl
theorem hpost1 (c : Dev nD) : (reg1 m).post c ⊢ iprop(StableHlo.held (c : Thread nD τ) (Pipeline.ucRefs τ sig) (Gen.V4 m (outs m) c) ∗ R c) := by
  rw [V_eq4 m c]; exact .rfl

set_option backward.isDefEq.respectTransparency.types false in
def reg2 : Pipeline.RegionSeg (pcfgs (F := F)) Gen.adm (pdats m) () defs₀ Variants.none L lv 2 :=
  seg m 2 launch2 (U5 m) (U6 m) (fun c => (body_obligation2 (atRefs (U5 m)) c).loose) (fun _ _ => rfl) (fun _ _ => rfl) (fun _ _ => trivial) (fun _ _ => rfl)
    (hin2 (atRefs (U5 m))) (hout2 (atRefs (U5 m))) (hF2 m) (hrest2 m)

theorem hpre2 (c : Dev nD) : iprop(StableHlo.held (c : Thread nD τ) (Pipeline.ucRefs τ sig) (Gen.V5 m (outs m) c) ∗ R c) ⊢ (reg2 m).pre c := by
  rw [V_eq5 m c]; exact .rfl
theorem hpost2 (c : Dev nD) : (reg2 m).post c ⊢ iprop(StableHlo.held (c : Thread nD τ) (Pipeline.ucRefs τ sig) (Gen.V6 m (outs m) c) ∗ R c) := by
  rw [V_eq6 m c]; exact .rfl

set_option backward.isDefEq.respectTransparency.types false in
def reg3 : Pipeline.RegionSeg (pcfgs (F := F)) Gen.adm (pdats m) () defs₀ Variants.none L lv 3 :=
  seg m 3 launch3 (U7 m) (U8 m) (fun c => (body_obligation3 (atRefs (U7 m)) c).loose) (fun _ _ => rfl) (fun _ _ => rfl) (fun _ _ => trivial) (fun _ _ => rfl)
    (hin3 (atRefs (U7 m))) (hout3 (atRefs (U7 m))) (hF3 m) (hrest3 m)

theorem hpre3 (c : Dev nD) : iprop(StableHlo.held (c : Thread nD τ) (Pipeline.ucRefs τ sig) (Gen.V7 m (outs m) c) ∗ R c) ⊢ (reg3 m).pre c := by
  rw [V_eq7 m c]; exact .rfl
theorem hpost3 (c : Dev nD) : (reg3 m).post c ⊢ iprop(StableHlo.held (c : Thread nD τ) (Pipeline.ucRefs τ sig) (Gen.V8 m (outs m) c) ∗ R c) := by
  rw [V_eq8 m c]; exact .rfl

set_option backward.isDefEq.respectTransparency.types false in
def reg4 : Pipeline.RegionSeg (pcfgs (F := F)) Gen.adm (pdats m) () defs₀ Variants.none L lv 4 :=
  seg m 4 launch4 (U9 m) (U10 m) (fun c => (body_obligation4 (atRefs (U9 m)) c).loose) (fun _ _ => rfl) (fun _ _ => rfl) (fun _ _ => trivial) (fun _ _ => rfl)
    (hin4 (atRefs (U9 m))) (hout4 (atRefs (U9 m))) (hF4 m) (hrest4 m)

theorem hpre4 (c : Dev nD) : iprop(StableHlo.held (c : Thread nD τ) (Pipeline.ucRefs τ sig) (Gen.V9 m (outs m) c) ∗ R c) ⊢ (reg4 m).pre c := by
  rw [V_eq9 m c]; exact .rfl
theorem hpost4 (c : Dev nD) : (reg4 m).post c ⊢ iprop(StableHlo.held (c : Thread nD τ) (Pipeline.ucRefs τ sig) (Gen.V10 m (outs m) c) ∗ R c) := by
  rw [V_eq10 m c]; exact .rfl

set_option backward.isDefEq.respectTransparency.types false in
def reg5 : Pipeline.RegionSeg (pcfgs (F := F)) Gen.adm (pdats m) () defs₀ Variants.none L lv 5 :=
  seg m 5 launch5 (U11 m) (U12 m) (fun c => (body_obligation5 (atRefs (U11 m)) c).loose) (fun _ _ => rfl) (fun _ _ => rfl) (fun _ _ => trivial) (fun _ _ => rfl)
    (hin5 (atRefs (U11 m))) (hout5 (atRefs (U11 m))) (hF5 m) (hrest5 m)

theorem hpre5 (c : Dev nD) : iprop(StableHlo.held (c : Thread nD τ) (Pipeline.ucRefs τ sig) (Gen.V11 m (outs m) c) ∗ R c) ⊢ (reg5 m).pre c := by
  rw [V_eq11 m c]; exact .rfl
theorem hpost5 (c : Dev nD) : (reg5 m).post c ⊢ iprop(StableHlo.held (c : Thread nD τ) (Pipeline.ucRefs τ sig) (Gen.V12 m (outs m) c) ∗ R c) := by
  rw [V_eq12 m c]; exact .rfl

theorem hu0 : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
      ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R c) : sProp 𝕄) := by
  refine Pipeline.initEach L lv fun c => ?_
  iintro ⟨⟨-, HO, -, Hp, -⟩, -⟩
  imodintro
  isplitl [Hp]; · iexists _; iexact Hp
  iexists ∅; iexact HO

theorem hE6 (c : Dev nD) : (R c : sProp 𝕄) ⊢ iprop(∃ W, owes (c : Thread nD τ) (0 : CellTallies nD τ sig Unit) W) := by
  iintro ⟨-, H⟩; iexact H

set_option backward.isDefEq.respectTransparency.types false in

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Gen.frame_cond m emb₁ () Variants.none L lv (fun _ _ => rfl) ρ (outs m) (pdats m) 0 (fun _ => BI.emp)
    (initOf (Pipeline.cells cfgs cellOf_inj) (Pipeline.launchToks cfgs cellOf_inj)) hu0 (fun _ c => R c) (hE0 ρ) hE6
    (reg0 m) (hpre0 m) (hpost0 m)
    (reg1 m) (hpre1 m) (hpost1 m)
    (reg2 m) (hpre2 m) (hpost2 m)
    (reg3 m) (hpre3 m) (hpost3 m)
    (reg4 m) (hpre4 m) (hpost4 m)
    (reg5 m) (hpre5 m) (hpost5 m)

end Cert.Kernel.Hand

end
-- ==== Proof.KI.Tile.lean ====
import proofs.«104095_j8426725835121_1_alg».proof.Proof.KernelIdealP.Launch
import proofs.«104095_j8426725835121_1_alg».proof.Proof.Gen.KernelIdeal.Skeleton
import proofs.«104095_j8426725835121_1_alg».proof.Proof.Gen.KernelIdeal.Points
import Idealize.ShloMosaic.Lib.Pipeline.FrameBody
import Idealize.ShloMosaic.Lib.Pipeline.Frame
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

abbrev condFirst (i : grid0.Coords) : Prop := (Scalar.cmpi .ne (Scalar.extui (Scalar.cmpi .eq (BitVec.ofNat 32 (i 1).val) 0#32)) 0#32) = 1#1
theorem condFirst_iff : ∀ t : Fin grid0.N, condFirst (grid0.coords t) ↔ t.val % 4 = 0 := by decide +kernel

abbrev condLast (i : grid0.Coords) : Prop := k0_cond2 i = 1#1
theorem condLast_iff : ∀ t : Fin grid0.N, condLast (grid0.coords t) ↔ t.val % 4 = 3 := by decide +kernel

private theorem offsets_zero : (![0, 0] : Fin 2 → Nat) = fun _ => 0 := funext fun a => by fin_cases a <;> rfl

private theorem cover_whole {S : Shape} {e : EltTy} {off : Fin S.rank → Nat} (h : off = fun _ => 0) (inb : ∀ a, off a + S.size a ≤ S.size a)
    (p : S.Idx → Elt F e) (L : List (View.Piece (Elt F) S e)) (y : S.Idx) :
    ∃ pc ∈ ((⟨Rect.unit off S.size inb, p⟩ : View.Piece (Elt F) S e) :: L), y ∈ pc.1.set :=
  ⟨_, List.mem_cons_self, View.mem_set_unit_zero h inb y⟩

set_option maxHeartbeats 1000000 in
/-- First step of a tile: the accumulator is zeroed and the blocks' product added. -/
theorem kernel_first (c : Dev nD) (i : grid0.Coords) (arg2 : Memref sig .tc .vmem S64x2048 .f32) (harg2 : arg2.IsWhole) (arg3 : Memref sig .tc .vmem S2048x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole)
    (hca : condFirst i) (hcb : ¬ condLast i)
    (x : Vec F S64x2048 .f32) (w : Vec F S2048x2048 .f32) (E : Set ℕ) (K : PUnit → sProp 𝕄) :
    iprop(owns (c : Thread nD τ) arg2 fullShare x ∗ owns (c : Thread nD τ) arg3 fullShare w ∗ (∃ a, owns (c : Thread nD τ) arg6 fullShare a)
        ∗ (iprop(owns (c : Thread nD τ) arg2 fullShare x ∗ owns (c : Thread nD τ) arg3 fullShare w ∗ owns (c : Thread nD τ) arg6 fullShare (k0_pay2 x w (k0_pay1 (F := F)))) -∗ K ⟨⟩))
      ⊢ wp frame (wpE (defs₀ (F := F)) Variants.none c none) E (cc0__linear_kernel i arg2 harg2 arg3 harg3 arg4 harg4 arg5 harg5 arg6 harg6) K := by
  simp only [cc0__linear_kernel_eq_skeleton]; unfold cc0__linear_kernel_skel
  unfold owns
  iintro ⟨⟨%f2, %hf2, H2⟩, ⟨%f3, %hf3, H3⟩, ⟨%a, %f6, %hf6, H6⟩, Hk⟩
  obtain rfl := harg2.eq_unread hf2; obtain rfl := harg3.eq_unread hf3; obtain rfl := harg6.eq_unread hf6
  sl_exec (disch := first | exact hca | exact hcb)
  sl_step
  iapply Hk
  isplitl [H2]
  · iexists _; isplitr; · ipureintro; exact hf2
    iexact H2
  isplitl [H3]
  · iexists _; isplitr; · ipureintro; exact hf3
    iexact H3
  iexists _; isplitr
  swap; · iexact H6
  ipureintro
  rw [View.read_writes_eq_canon _ _ _ (cover_whole offsets_zero _ _ _), View.canon_cons_unit_zero offsets_zero]
  sl_unfold_words
  rw [View.readCov_unit_zero _ offsets_zero]
  simp only [View.readAt_eq_ld, hf2, hf3, View.ld_unit_zero (S := S64x2048) offsets_zero, View.ld_unit_zero (S := S2048x2048) offsets_zero]

set_option maxHeartbeats 1000000 in
/-- Middle step: the blocks' product is added to the accumulator. -/
theorem kernel_mid (c : Dev nD) (i : grid0.Coords) (arg2 : Memref sig .tc .vmem S64x2048 .f32) (harg2 : arg2.IsWhole) (arg3 : Memref sig .tc .vmem S2048x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole)
    (hca : ¬ condFirst i) (hcb : ¬ condLast i)
    (x : Vec F S64x2048 .f32) (w : Vec F S2048x2048 .f32) (a : Vec F S64x2048 .f32) (E : Set ℕ) (K : PUnit → sProp 𝕄) :
    iprop(owns (c : Thread nD τ) arg2 fullShare x ∗ owns (c : Thread nD τ) arg3 fullShare w ∗ owns (c : Thread nD τ) arg6 fullShare a
        ∗ (iprop(owns (c : Thread nD τ) arg2 fullShare x ∗ owns (c : Thread nD τ) arg3 fullShare w ∗ owns (c : Thread nD τ) arg6 fullShare (k0_pay2 x w a)) -∗ K ⟨⟩))
      ⊢ wp frame (wpE (defs₀ (F := F)) Variants.none c none) E (cc0__linear_kernel i arg2 harg2 arg3 harg3 arg4 harg4 arg5 harg5 arg6 harg6) K := by
  simp only [cc0__linear_kernel_eq_skeleton]; unfold cc0__linear_kernel_skel
  unfold owns
  iintro ⟨⟨%f2, %hf2, H2⟩, ⟨%f3, %hf3, H3⟩, ⟨%f6, %hf6, H6⟩, Hk⟩
  obtain rfl := harg2.eq_unread hf2; obtain rfl := harg3.eq_unread hf3; obtain rfl := harg6.eq_unread hf6
  sl_exec (disch := first | exact hca | exact hcb)
  sl_step
  iapply Hk
  isplitl [H2]
  · iexists _; isplitr; · ipureintro; exact hf2
    iexact H2
  isplitl [H3]
  · iexists _; isplitr; · ipureintro; exact hf3
    iexact H3
  iexists _; isplitr
  swap; · iexact H6
  ipureintro
  rw [View.read_writes_eq_canon _ _ _ (cover_whole offsets_zero _ _ _), View.canon_unit_zero offsets_zero]
  simp only [View.readAt_eq_ld, hf2, hf3, hf6, View.ld_unit_zero (S := S64x2048) offsets_zero, View.ld_unit_zero (S := S2048x2048) offsets_zero]

set_option maxHeartbeats 1000000 in
/-- Last step of a tile: the product is added, and the sum plus the bias row is stored into the output block. -/
theorem kernel_last (c : Dev nD) (i : grid0.Coords) (arg2 : Memref sig .tc .vmem S64x2048 .f32) (harg2 : arg2.IsWhole) (arg3 : Memref sig .tc .vmem S2048x2048 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole)
    (hca : ¬ condFirst i) (hcb : condLast i)
    (x : Vec F S64x2048 .f32) (w : Vec F S2048x2048 .f32) (b : Vec F S1x2048 .f32) (a : Vec F S64x2048 .f32) (E : Set ℕ) (K : PUnit → sProp 𝕄) :
    iprop(owns (c : Thread nD τ) arg2 fullShare x ∗ owns (c : Thread nD τ) arg3 fullShare w ∗ owns (c : Thread nD τ) arg4 fullShare b
        ∗ (∃ o, owns (c : Thread nD τ) arg5 fullShare o) ∗ owns (c : Thread nD τ) arg6 fullShare a
        ∗ (iprop(owns (c : Thread nD τ) arg2 fullShare x ∗ owns (c : Thread nD τ) arg3 fullShare w ∗ owns (c : Thread nD τ) arg4 fullShare b
            ∗ owns (c : Thread nD τ) arg5 fullShare (k0_pay3 (k0_pay2 x w a) b) ∗ owns (c : Thread nD τ) arg6 fullShare (k0_pay2 x w a)) -∗ K ⟨⟩))
      ⊢ wp frame (wpE (defs₀ (F := F)) Variants.none c none) E (cc0__linear_kernel i arg2 harg2 arg3 harg3 arg4 harg4 arg5 harg5 arg6 harg6) K := by
  simp only [cc0__linear_kernel_eq_skeleton]; unfold cc0__linear_kernel_skel
  unfold owns
  iintro ⟨⟨%f2, %hf2, H2⟩, ⟨%f3, %hf3, H3⟩, ⟨%f4, %hf4, H4⟩, ⟨%o, %f5, %hf5, H5⟩, ⟨%f6, %hf6, H6⟩, Hk⟩
  obtain rfl := harg2.eq_unread hf2; obtain rfl := harg3.eq_unread hf3; obtain rfl := harg4.eq_unread hf4; obtain rfl := harg5.eq_unread hf5; obtain rfl := harg6.eq_unread hf6
  sl_exec (disch := first | exact hca | exact hcb)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    rw [View.read_writes_eq_canon _ _ _ (cover_whole offsets_zero _ _ _), View.canon_unit_zero offsets_zero]
    sl_unfold_words
    rw [View.readCov_unit_zero _ offsets_zero]
    simp only [View.readAt_eq_ld, hf2, hf3, hf4, hf6, View.ld_unit_zero (S := S64x2048) offsets_zero, View.ld_unit_zero (S := S2048x2048) offsets_zero, View.ld_unit_zero (S := S1x2048) offsets_zero]
  iexists _; isplitr
  swap; · iexact H6
  ipureintro
  sl_unfold_words
  rw [View.read_writes_eq_canon _ _ _ (cover_whole offsets_zero _ _ _), View.canon_unit_zero offsets_zero]
  simp only [View.readAt_eq_ld, hf2, hf3, hf6, View.ld_unit_zero (S := S64x2048) offsets_zero, View.ld_unit_zero (S := S2048x2048) offsets_zero]

section Tile

variable (xb : Fin grid0.N → Vec F S64x2048 .f32) (wb : Fin grid0.N → Vec F S2048x2048 .f32)

/-- The accumulator after point n of the (tile, k-step) grid: restarted from zero at k = 0, added to otherwise. -/
def acc : (n : ℕ) → n < grid0.N → Vec F S64x2048 .f32
  | 0, h => k0_pay2 (xb ⟨0, h⟩) (wb ⟨0, h⟩) (k0_pay1 (F := F))
  | n + 1, h =>
    if (n + 1) % 4 = 0 then k0_pay2 (xb ⟨n + 1, h⟩) (wb ⟨n + 1, h⟩) (k0_pay1 (F := F))
    else k0_pay2 (xb ⟨n + 1, h⟩) (wb ⟨n + 1, h⟩) (acc n (Nat.lt_of_succ_lt h))

theorem acc_reset (t : Fin grid0.N) (h0 : t.val % 4 = 0) :
    acc xb wb t.val t.isLt = k0_pay2 (xb t) (wb t) (k0_pay1 (F := F)) := by
  obtain ⟨n, hn⟩ := t
  cases n with
  | zero => rfl
  | succ n => exact if_pos h0

theorem acc_step (t : Fin grid0.N) (h0 : ¬ t.val % 4 = 0) :
    acc xb wb t.val t.isLt = k0_pay2 (xb t) (wb t)
      (acc xb wb (t.val - 1) (Nat.lt_of_le_of_lt (Nat.sub_le _ _) t.isLt)) := by
  obtain ⟨n, hn⟩ := t
  cases n with
  | zero => exact absurd (Nat.zero_mod _) h0
  | succ n => exact if_neg h0

variable (c : Dev nD) (sc : Memref sig .tc .vmem S64x2048 .f32) (A R : sProp (MT nD τ sig Unit (Elt F) ℕ (UR sig nD τ) ℕ))

/-- The invariant between grid points: before the first, what the launch hands over; after point n, the accumulator at
    its value beside the rest R. -/
def Phi : (n : ℕ) → n ≤ grid0.N → sProp 𝕄
  | 0, _ => A
  | n + 1, hn => iprop(owns (c : Thread nD τ) sc fullShare (acc xb wb n hn) ∗ R ∗ (∃ r, prngReg c r))

theorem Phi_pos (n : ℕ) (h : n ≤ grid0.N) (hz : n ≠ 0) :
    Phi xb wb c sc A R n h = iprop(owns (c : Thread nD τ) sc fullShare (acc xb wb (n - 1) (by omega)) ∗ R ∗ (∃ r, prngReg c r)) := by
  cases n with
  | zero => exact absurd rfl hz
  | succ n => rfl

variable (hA : A = iprop(iprop(iprop(∃ d, owns (c : Thread nD τ) sc fullShare d) ∗ R) ∗ (∃ r, prngReg c r)))
include hA

theorem Phi_forget (n : ℕ) (h : n ≤ grid0.N) :
    Phi xb wb c sc A R n h ⊢ (iprop(iprop(iprop(∃ d, owns (c : Thread nD τ) sc fullShare d) ∗ R) ∗ (∃ r, prngReg c r)) : sProp 𝕄) := by
  cases n with
  | zero => rw [show Phi xb wb c sc A R 0 h = A from rfl, hA]
  | succ n =>
    rw [show Phi xb wb c sc A R (n + 1) h = iprop(owns (c : Thread nD τ) sc fullShare (acc xb wb n h) ∗ R ∗ (∃ r, prngReg c r)) from rfl]
    iintro ⟨HS, Hr, Hg⟩
    isplitr [Hg]
    · isplitl [HS]
      · iexists _; iexact HS
      iexact Hr
    iexact Hg

set_option maxHeartbeats 4800000 in
/-- One grid point of the tiled product, from the invariant and the four blocks to the invariant at the next point: the
    k coordinate picks the run, the accumulator follows its recursion, and the output block is left alone unless k = 3,
    where it receives the accumulated sum plus the bias row. -/
theorem tile_body (t : Fin grid0.N) (m0 : Memref sig .tc .vmem S64x2048 .f32) (h0 : m0.IsWhole) (m1 : Memref sig .tc .vmem S2048x2048 .f32) (h1 : m1.IsWhole)
    (m2 : Memref sig .tc .vmem S1x2048 .f32) (h2 : m2.IsWhole) (m3 : Memref sig .tc .vmem S64x2048 .f32) (h3 : m3.IsWhole) (hsc : sc.IsWhole)
    (bb : Vec F S1x2048 .f32) (O : sProp 𝕄) {D0 D1 D2 D3 : Type}
    {f0 : D0 → Vec F S64x2048 .f32} {f1 : D1 → Vec F S2048x2048 .f32} {f2 : D2 → Vec F S1x2048 .f32}
    (hf0 : ∀ d, f0 d = xb t) (hf1 : ∀ d, f1 d = wb t) (hf2 : ∀ d, f2 d = bb) (y : D3 → Vec F S64x2048 .f32)
    {L0 L1 L2 L3 : sProp 𝕄}
    (hL0 : L0 = owns (c : Thread nD τ) m0 fullShare (xb t)) (hL1 : L1 = owns (c : Thread nD τ) m1 fullShare (wb t))
    (hL2 : L2 = owns (c : Thread nD τ) m2 fullShare bb)
    (hL3 : L3 = if t.val % 4 = 3 then owns (c : Thread nD τ) m3 fullShare (k0_pay3 (acc xb wb t.val t.isLt) bb)
      else iprop(∃ d, owns (c : Thread nD τ) m3 fullShare (y d))) :
    iprop(Phi xb wb c sc A R t.val (Nat.le_of_lt t.isLt) ∗ O
        ∗ (∃ d, owns (c : Thread nD τ) m0 fullShare (f0 d)) ∗ (∃ d, owns (c : Thread nD τ) m1 fullShare (f1 d))
        ∗ (∃ d, owns (c : Thread nD τ) m2 fullShare (f2 d)) ∗ (∃ d, owns (c : Thread nD τ) m3 fullShare (y d)))
      ⊢ wp frame (wpE (defs₀ (F := F)) Variants.none c none) Set.univ (cc0__linear_kernel (grid0.coords t) m0 h0 m1 h1 m2 h2 m3 h3 sc hsc)
          (fun _ => iprop(Phi xb wb c sc A R (t.val + 1) t.isLt ∗ O ∗ L0 ∗ L1 ∗ L2 ∗ L3)) := by
  subst hL0 hL1 hL2 hL3
  obtain rfl : f0 = fun _ => xb t := funext hf0
  obtain rfl : f1 = fun _ => wb t := funext hf1
  obtain rfl : f2 = fun _ => bb := funext hf2
  rw [show Phi xb wb c sc A R (t.val + 1) t.isLt = iprop(owns (c : Thread nD τ) sc fullShare (acc xb wb t.val t.isLt) ∗ R ∗ (∃ r, prngReg c r)) from rfl]
  by_cases hfst : t.val % 4 = 0
  · have hlst : ¬ t.val % 4 = 3 := by omega
    rw [if_neg hlst, acc_reset xb wb t hfst]
    iintro ⟨HΦ, Ho, ⟨%dx, Hx⟩, ⟨%dw, Hw⟩, ⟨%db, Hb⟩, Hy⟩
    ihave HΦ := Phi_forget xb wb c sc A R hA _ _ $$ HΦ
    icases HΦ with ⟨⟨HS, Hr⟩, Hg⟩
    iapply (kernel_first c (grid0.coords t) m0 h0 m1 h1 m2 h2 m3 h3 sc hsc
      ((condFirst_iff t).mpr hfst) (fun h => hlst ((condLast_iff t).mp h)) (xb t) (wb t) Set.univ _)
    isplitl [Hx]; · iexact Hx
    isplitl [Hw]; · iexact Hw
    isplitl [HS]; · iexact HS
    iintro ⟨Hx, Hw, HS⟩
    isplitl [HS Hr Hg]
    · isplitl [HS]; · iexact HS
      isplitl [Hr]; · iexact Hr
      iexact Hg
    isplitl [Ho]; · iexact Ho
    isplitl [Hx]; · iexact Hx
    isplitl [Hw]; · iexact Hw
    isplitl [Hb]; · iexact Hb
    iexact Hy
  · have hz : t.val ≠ 0 := fun e => hfst (by rw [e])
    rw [Phi_pos xb wb c sc A R _ _ hz, acc_step xb wb t hfst]
    by_cases hlst : t.val % 4 = 3
    · rw [if_pos hlst]
      iintro ⟨⟨HS, Hr, Hg⟩, Ho, ⟨%dx, Hx⟩, ⟨%dw, Hw⟩, ⟨%db, Hb⟩, ⟨%dy, Hy⟩⟩
      iapply (kernel_last c (grid0.coords t) m0 h0 m1 h1 m2 h2 m3 h3 sc hsc
        (fun h => hfst ((condFirst_iff t).mp h)) ((condLast_iff t).mpr hlst) (xb t) (wb t) bb _ Set.univ _)
      isplitl [Hx]; · iexact Hx
      isplitl [Hw]; · iexact Hw
      isplitl [Hb]; · iexact Hb
      isplitl [Hy]; · iexists _; iexact Hy
      isplitl [HS]; · iexact HS
      iintro ⟨Hx, Hw, Hb, Hy, HS⟩
      isplitl [HS Hr Hg]
      · isplitl [HS]; · iexact HS
        isplitl [Hr]; · iexact Hr
        iexact Hg
      isplitl [Ho]; · iexact Ho
      isplitl [Hx]; · iexact Hx
      isplitl [Hw]; · iexact Hw
      isplitl [Hb]; · iexact Hb
      iexact Hy
    · rw [if_neg hlst]
      iintro ⟨⟨HS, Hr, Hg⟩, Ho, ⟨%dx, Hx⟩, ⟨%dw, Hw⟩, ⟨%db, Hb⟩, Hy⟩
      iapply (kernel_mid c (grid0.coords t) m0 h0 m1 h1 m2 h2 m3 h3 sc hsc
        (fun h => hfst ((condFirst_iff t).mp h)) (fun h => hlst ((condLast_iff t).mp h)) (xb t) (wb t) _ Set.univ _)
      isplitl [Hx]; · iexact Hx
      isplitl [Hw]; · iexact Hw
      isplitl [HS]; · iexact HS
      iintro ⟨Hx, Hw, HS⟩
      isplitl [HS Hr Hg]
      · isplitl [HS]; · iexact HS
        isplitl [Hr]; · iexact Hr
        iexact Hg
      isplitl [Ho]; · iexact Ho
      isplitl [Hx]; · iexact Hx
      isplitl [Hw]; · iexact Hw
      isplitl [Hb]; · iexact Hb
      iexact Hy

end Tile

end Cert.KernelIdeal.Hand

end
-- ==== Proof.KI.R0Defs.lean ====
import proofs.«104095_j8426725835121_1_alg».proof.Proof.KI.Tile

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev xb0 (c : Dev nD) (t : Fin cfg0.N) : Vec F S64x2048 .f32 := iblk0 V c 0 t
abbrev wb0 (c : Dev nD) (t : Fin cfg0.N) : Vec F S2048x2048 .f32 := iblk0 V c 1 t
abbrev bb0 (c : Dev nD) (t : Fin cfg0.N) : Vec F S1x2048 .f32 := iblk0 V c 2 t
abbrev scM0 : Memref sig .tc .vmem S64x2048 .f32 := Memref.whole cc0_scratch0
abbrev rest0 (c : Dev nD) : sProp 𝕄 :=
  Pipeline.scopedRestBut (Ix := Unit) (Name := ℕ) (U := UR sig nD τ) (Lvl := ℕ) (Val := Elt F) spec0 c [cc0_scratch0]
abbrev acc0 (c : Dev nD) := acc (xb0 V c) (wb0 V c)

/-- The output block where it is stored: the accumulator plus the bias row. -/
def out0 (c : Dev nD) (t : Fin cfg0.N) : Vec F S64x2048 .f32 := k0_pay3 (acc0 V c t.val t.isLt) (bb0 V c t)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 V c t
  Φ t := Phi (xb0 V c) (wb0 V c) c scM0 (Pipeline.ΦA spec0 c) (rest0 c) t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0 V c t := by dsimp only [dat0]

end Cert.KernelIdeal.Hand

end
-- ==== Proof.KI.R1Defs.lean ====
import proofs.«104095_j8426725835121_1_alg».proof.Proof.KI.Tile

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev xb1 (c : Dev nD) (t : Fin cfg1.N) : Vec F S64x2048 .f32 := iblk1 V c 0 t
abbrev wb1 (c : Dev nD) (t : Fin cfg1.N) : Vec F S2048x2048 .f32 := iblk1 V c 1 t
abbrev bb1 (c : Dev nD) (t : Fin cfg1.N) : Vec F S1x2048 .f32 := iblk1 V c 2 t
abbrev scM1 : Memref sig .tc .vmem S64x2048 .f32 := Memref.whole cc1_scratch0
abbrev rest1 (c : Dev nD) : sProp 𝕄 :=
  Pipeline.scopedRestBut (Ix := Unit) (Name := ℕ) (U := UR sig nD τ) (Lvl := ℕ) (Val := Elt F) spec1 c [cc1_scratch0]
abbrev acc1 (c : Dev nD) := acc (xb1 V c) (wb1 V c)

/-- The output block where it is stored: the accumulator plus the bias row. -/
def out1 (c : Dev nD) (t : Fin cfg1.N) : Vec F S64x2048 .f32 := k0_pay3 (acc1 V c t.val t.isLt) (bb1 V c t)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 V c t
  Φ t := Phi (xb1 V c) (wb1 V c) c scM1 (Pipeline.ΦA spec1 c) (rest1 c) t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1 V c t := by dsimp only [dat1]

end Cert.KernelIdeal.Hand

end
-- ==== Proof.KI.R2Defs.lean ====
import proofs.«104095_j8426725835121_1_alg».proof.Proof.KI.Tile

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array at the entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev xb2 (c : Dev nD) (t : Fin cfg2.N) : Vec F S64x2048 .f32 := iblk2 V c 0 t
abbrev wb2 (c : Dev nD) (t : Fin cfg2.N) : Vec F S2048x2048 .f32 := iblk2 V c 1 t
abbrev bb2 (c : Dev nD) (t : Fin cfg2.N) : Vec F S1x2048 .f32 := iblk2 V c 2 t
abbrev scM2 : Memref sig .tc .vmem S64x2048 .f32 := Memref.whole cc2_scratch0
abbrev rest2 (c : Dev nD) : sProp 𝕄 :=
  Pipeline.scopedRestBut (Ix := Unit) (Name := ℕ) (U := UR sig nD τ) (Lvl := ℕ) (Val := Elt F) spec2 c [cc2_scratch0]
abbrev acc2 (c : Dev nD) := acc (xb2 V c) (wb2 V c)

/-- The output block where it is stored: the accumulator plus the bias row. -/
def out2 (c : Dev nD) (t : Fin cfg2.N) : Vec F S64x2048 .f32 := k0_pay3 (acc2 V c t.val t.isLt) (bb2 V c t)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 V c t
  Φ t := Phi (xb2 V c) (wb2 V c) c scM2 (Pipeline.ΦA spec2 c) (rest2 c) t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2 V c t := by dsimp only [dat2]

end Cert.KernelIdeal.Hand

end
-- ==== Proof.KI.R3Defs.lean ====
import proofs.«104095_j8426725835121_1_alg».proof.Proof.KI.Tile

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array at the entry contents. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev xb3 (c : Dev nD) (t : Fin cfg3.N) : Vec F S64x2048 .f32 := iblk3 V c 0 t
abbrev wb3 (c : Dev nD) (t : Fin cfg3.N) : Vec F S2048x2048 .f32 := iblk3 V c 1 t
abbrev bb3 (c : Dev nD) (t : Fin cfg3.N) : Vec F S1x2048 .f32 := iblk3 V c 2 t
abbrev scM3 : Memref sig .tc .vmem S64x2048 .f32 := Memref.whole cc3_scratch0
abbrev rest3 (c : Dev nD) : sProp 𝕄 :=
  Pipeline.scopedRestBut (Ix := Unit) (Name := ℕ) (U := UR sig nD τ) (Lvl := ℕ) (Val := Elt F) spec3 c [cc3_scratch0]
abbrev acc3 (c : Dev nD) := acc (xb3 V c) (wb3 V c)

/-- The output block where it is stored: the accumulator plus the bias row. -/
def out3 (c : Dev nD) (t : Fin cfg3.N) : Vec F S64x2048 .f32 := k0_pay3 (acc3 V c t.val t.isLt) (bb3 V c t)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3 V c t
  Φ t := Phi (xb3 V c) (wb3 V c) c scM3 (Pipeline.ΦA spec3 c) (rest3 c) t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3 V c t := by dsimp only [dat3]

end Cert.KernelIdeal.Hand

end
-- ==== Proof.KI.R4Defs.lean ====
import proofs.«104095_j8426725835121_1_alg».proof.Proof.KI.Tile

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array at the entry contents. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev xb4 (c : Dev nD) (t : Fin cfg4.N) : Vec F S64x2048 .f32 := iblk4 V c 0 t
abbrev wb4 (c : Dev nD) (t : Fin cfg4.N) : Vec F S2048x2048 .f32 := iblk4 V c 1 t
abbrev bb4 (c : Dev nD) (t : Fin cfg4.N) : Vec F S1x2048 .f32 := iblk4 V c 2 t
abbrev scM4 : Memref sig .tc .vmem S64x2048 .f32 := Memref.whole cc4_scratch0
abbrev rest4 (c : Dev nD) : sProp 𝕄 :=
  Pipeline.scopedRestBut (Ix := Unit) (Name := ℕ) (U := UR sig nD τ) (Lvl := ℕ) (Val := Elt F) spec4 c [cc4_scratch0]
abbrev acc4 (c : Dev nD) := acc (xb4 V c) (wb4 V c)

/-- The output block where it is stored: the accumulator plus the bias row. -/
def out4 (c : Dev nD) (t : Fin cfg4.N) : Vec F S64x2048 .f32 := k0_pay3 (acc4 V c t.val t.isLt) (bb4 V c t)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4 V c t
  Φ t := Phi (xb4 V c) (wb4 V c) c scM4 (Pipeline.ΦA spec4 c) (rest4 c) t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4 V c t := by dsimp only [dat4]

end Cert.KernelIdeal.Hand

end
-- ==== Proof.KI.R5Defs.lean ====
import proofs.«104095_j8426725835121_1_alg».proof.Proof.KI.Tile

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array at the entry contents. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev xb5 (c : Dev nD) (t : Fin cfg5.N) : Vec F S64x2048 .f32 := iblk5 V c 0 t
abbrev wb5 (c : Dev nD) (t : Fin cfg5.N) : Vec F S2048x2048 .f32 := iblk5 V c 1 t
abbrev bb5 (c : Dev nD) (t : Fin cfg5.N) : Vec F S1x2048 .f32 := iblk5 V c 2 t
abbrev scM5 : Memref sig .tc .vmem S64x2048 .f32 := Memref.whole cc5_scratch0
abbrev rest5 (c : Dev nD) : sProp 𝕄 :=
  Pipeline.scopedRestBut (Ix := Unit) (Name := ℕ) (U := UR sig nD τ) (Lvl := ℕ) (Val := Elt F) spec5 c [cc5_scratch0]
abbrev acc5 (c : Dev nD) := acc (xb5 V c) (wb5 V c)

/-- The output block where it is stored: the accumulator plus the bias row. -/
def out5 (c : Dev nD) (t : Fin cfg5.N) : Vec F S64x2048 .f32 := k0_pay3 (acc5 V c t.val t.isLt) (bb5 V c t)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5 V c t
  Φ t := Phi (xb5 V c) (wb5 V c) c scM5 (Pipeline.ΦA spec5 c) (rest5 c) t.val (Nat.le_of_lt_succ t.isLt)
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5 V c t := by dsimp only [dat5]

end Cert.KernelIdeal.Hand

end
-- ==== Proof.KI.Vals.lean ====
-- The buffer contents between the program's items: each host stretch applied, each launch's output array replaced by the launch's result.
import proofs.«104095_j8426725835121_1_alg».proof.Proof.KI.R0Defs
import proofs.«104095_j8426725835121_1_alg».proof.Proof.KI.R1Defs
import proofs.«104095_j8426725835121_1_alg».proof.Proof.KI.R2Defs
import proofs.«104095_j8426725835121_1_alg».proof.Proof.KI.R3Defs
import proofs.«104095_j8426725835121_1_alg».proof.Proof.KI.R4Defs
import proofs.«104095_j8426725835121_1_alg».proof.Proof.KI.R5Defs
import proofs.«104095_j8426725835121_1_alg».proof.Proof.KernelIdealP.Regions

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

abbrev atRefs (W : Dev nD → Valuation τ sig (Elt F)) : (c : Dev nD) → (b : Ref sig .tc) → Buf (Elt F) ((c : Thread nD τ).loc b) :=
  fun c b => W c b

def U1 (c : Dev nD) : Valuation τ sig (Elt F) := StableHlo.after hostOps0 (fun b => m (c, b))

def o0 (c : Dev nD) : Buf (Elt F) ((c : Thread nD τ).loc main_v3) := (dat0 (atRefs (U1 m)) c).arrAt 3 cfg0.N

def U2 (c : Dev nD) : Valuation τ sig (Elt F) := Function.update (U1 m c) main_v3 (o0 m c)

def U3 (c : Dev nD) : Valuation τ sig (Elt F) := StableHlo.after hostOps1 (U2 m c)

def o1 (c : Dev nD) : Buf (Elt F) ((c : Thread nD τ).loc main_v6) := (dat1 (atRefs (U3 m)) c).arrAt 3 cfg1.N

def U4 (c : Dev nD) : Valuation τ sig (Elt F) := Function.update (U3 m c) main_v6 (o1 m c)

def U5 (c : Dev nD) : Valuation τ sig (Elt F) := StableHlo.after hostOps2 (U4 m c)

def o2 (c : Dev nD) : Buf (Elt F) ((c : Thread nD τ).loc main_v9) := (dat2 (atRefs (U5 m)) c).arrAt 3 cfg2.N

def U6 (c : Dev nD) : Valuation τ sig (Elt F) := Function.update (U5 m c) main_v9 (o2 m c)

def U7 (c : Dev nD) : Valuation τ sig (Elt F) := StableHlo.after hostOps3 (U6 m c)

def o3 (c : Dev nD) : Buf (Elt F) ((c : Thread nD τ).loc main_v29) := (dat3 (atRefs (U7 m)) c).arrAt 3 cfg3.N

def U8 (c : Dev nD) : Valuation τ sig (Elt F) := Function.update (U7 m c) main_v29 (o3 m c)

def U9 (c : Dev nD) : Valuation τ sig (Elt F) := StableHlo.after hostOps4 (U8 m c)

def o4 (c : Dev nD) : Buf (Elt F) ((c : Thread nD τ).loc main_v32) := (dat4 (atRefs (U9 m)) c).arrAt 3 cfg4.N

def U10 (c : Dev nD) : Valuation τ sig (Elt F) := Function.update (U9 m c) main_v32 (o4 m c)

def U11 (c : Dev nD) : Valuation τ sig (Elt F) := StableHlo.after hostOps5 (U10 m c)

def o5 (c : Dev nD) : Buf (Elt F) ((c : Thread nD τ).loc main_v35) := (dat5 (atRefs (U11 m)) c).arrAt 3 cfg5.N

def U12 (c : Dev nD) : Valuation τ sig (Elt F) := Function.update (U11 m c) main_v35 (o5 m c)

def U13 (c : Dev nD) : Valuation τ sig (Elt F) := StableHlo.after hostOps6 (U12 m c)

def outs : Gen.Outs (F := F) := fun J r c =>
  match J with
  | 2 => U2 m c r
  | 4 => U4 m c r
  | 6 => U6 m c r
  | 8 => U8 m c r
  | 10 => U10 m c r
  | _ => U12 m c r

end Cert.KernelIdeal.Hand

end
-- ==== Proof.KI.R0Body.lean ====
import proofs.«104095_j8426725835121_1_alg».proof.Proof.KI.R0Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem liveAt0_0 : ∀ t : Fin cfg0.N, cfg0.idle 0 (cfg0.grid.coords t) = false := by decide +kernel
theorem liveAt0_1 : ∀ t : Fin cfg0.N, cfg0.idle 1 (cfg0.grid.coords t) = false := by decide +kernel
theorem liveAt0_2 : ∀ t : Fin cfg0.N, cfg0.idle 2 (cfg0.grid.coords t) = false := by decide +kernel
theorem idleAt0_3 : ∀ t : Fin cfg0.N, ¬ t.val % 4 = 3 → cfg0.idle 3 (cfg0.grid.coords t) = true := by decide +kernel
theorem liveAt0_3 : ∀ t : Fin cfg0.N, t.val % 4 = 3 → cfg0.idle 3 (cfg0.grid.coords t) = false := by decide +kernel
theorem noFlush0_3 (t : Fin cfg0.N) (h : ¬ t.val % 4 = 3) : (cfg0.win 3).flush t = false :=
  Bool.eq_false_iff.mpr fun hf => h ((flush0_3 t).mp hf)

abbrev ms0_0 (t : Fin cfg0.N) : Memref sig .tc .vmem S64x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x2048 .f32 := win0_3.stage (cfg0.slots t 3)
abbrev hs0_3 (t : Fin cfg0.N) : (ms0_3 t).IsWhole := hstage0_3 ((cfg0.slots t 3).cast nbuf0_3)

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

theorem PhiA0_eq (c : Dev nD) :
    (Pipeline.ΦA spec0 c : sProp 𝕄)
      = iprop(iprop(iprop(∃ d, owns (c : Thread nD τ) scM0 fullShare d) ∗ rest0 c) ∗ (∃ r, prngReg c r)) := by
  unfold Pipeline.ΦA; rw [scopedRest0_split]; simp only [scM0, owns_whole]; try rfl

theorem leaves0_0 (c : Dev nD) (t : Fin cfg0.N) :
    (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) :
    (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) :
    (dat0 V c).leavesExact 2 t = owns (c : Thread nD τ) (ms0_2 t) fullShare (iblk0 V c 2 t) := by
  unfold Dat.leavesExact; rw [liveAt0_2 t, after0_2]
/-- The output block is stored at the last k-step of a tile and nowhere else. -/
theorem leaves0_3 (c : Dev nD) (t : Fin cfg0.N) :
    (dat0 V c).leavesExact 3 t
      = if t.val % 4 = 3 then owns (c : Thread nD τ) (ms0_3 t) fullShare (out0 V c t)
        else iprop(∃ d, owns (c : Thread nD τ) (ms0_3 t) fullShare ((dat0 V c).before 3 t d)) := by
  by_cases h : t.val % 4 = 3
  · rw [if_pos h]; unfold Dat.leavesExact; rw [liveAt0_3 t h, after0_3]
  · rw [if_neg h]; exact Dat.leavesExact_idle _ 3 t (idleAt0_3 t h) (noFlush0_3 t h)

set_option maxHeartbeats 1600000 in
theorem body_obligation0 (c : Dev nD) : BodyObligation (dat0 (F := F) V c) (defs₀ (F := F)) Variants.none () Set.univ := fun t => by
  rw [bigSep_W0, bigSep_W0]
  exact tile_body (xb0 V c) (wb0 V c) c scM0 (Pipeline.ΦA spec0 c) (rest0 c) (PhiA0_eq c) t (ms0_0 t) (hs0_0 t) (ms0_1 t) (hs0_1 t)
    (ms0_2 t) (hs0_2 t) (ms0_3 t) (hs0_3 t) (Memref.isWhole_whole _) (bb0 V c t) ((dat0 V c).owesAt () t.castSucc)
    (before0_0 V c t) (before0_1 V c t) (before0_2 V c t) ((dat0 V c).before 3 t)
    (leaves0_0 V c t) (leaves0_1 V c t) (leaves0_2 V c t) (leaves0_3 V c t)

theorem hin0 (c : Dev nD) : (Pipeline.ΦA spec0 c : sProp 𝕄) ⊢ (dat0 V c).Φ 0 := by
  rw [show (dat0 V c).Φ 0 = Pipeline.ΦA spec0 c from rfl]
  try exact Idealize.SL.BI.Entails.refl _

theorem hout0 (c : Dev nD) : (dat0 V c).Φ (Fin.last cfg0.N) ⊢ (Pipeline.ΦA spec0 c : sProp 𝕄) := by
  rw [PhiA0_eq c]
  exact Phi_forget (xb0 V c) (wb0 V c) c scM0 (Pipeline.ΦA spec0 c) (rest0 c) (PhiA0_eq c) (Fin.last cfg0.N).val
    (Nat.le_of_lt_succ (Fin.last cfg0.N).isLt)

end Cert.KernelIdeal.Hand

end
-- ==== Proof.KI.R1Body.lean ====
import proofs.«104095_j8426725835121_1_alg».proof.Proof.KI.R1Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem liveAt1_0 : ∀ t : Fin cfg1.N, cfg1.idle 0 (cfg1.grid.coords t) = false := by decide +kernel
theorem liveAt1_1 : ∀ t : Fin cfg1.N, cfg1.idle 1 (cfg1.grid.coords t) = false := by decide +kernel
theorem liveAt1_2 : ∀ t : Fin cfg1.N, cfg1.idle 2 (cfg1.grid.coords t) = false := by decide +kernel
theorem idleAt1_3 : ∀ t : Fin cfg1.N, ¬ t.val % 4 = 3 → cfg1.idle 3 (cfg1.grid.coords t) = true := by decide +kernel
theorem liveAt1_3 : ∀ t : Fin cfg1.N, t.val % 4 = 3 → cfg1.idle 3 (cfg1.grid.coords t) = false := by decide +kernel
theorem noFlush1_3 (t : Fin cfg1.N) (h : ¬ t.val % 4 = 3) : (cfg1.win 3).flush t = false :=
  Bool.eq_false_iff.mpr fun hf => h ((flush1_3 t).mp hf)

abbrev ms1_0 (t : Fin cfg1.N) : Memref sig .tc .vmem S64x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x2048 .f32 := win1_3.stage (cfg1.slots t 3)
abbrev hs1_3 (t : Fin cfg1.N) : (ms1_3 t).IsWhole := hstage1_3 ((cfg1.slots t 3).cast nbuf1_3)

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem PhiA1_eq (c : Dev nD) :
    (Pipeline.ΦA spec1 c : sProp 𝕄)
      = iprop(iprop(iprop(∃ d, owns (c : Thread nD τ) scM1 fullShare d) ∗ rest1 c) ∗ (∃ r, prngReg c r)) := by
  unfold Pipeline.ΦA; rw [scopedRest1_split]; simp only [scM1, owns_whole]; try rfl

theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (ms1_2 t) fullShare (iblk1 V c 2 t) := by
  unfold Dat.leavesExact; rw [liveAt1_2 t, after1_2]
/-- The output block is stored at the last k-step of a tile and nowhere else. -/
theorem leaves1_3 (c : Dev nD) (t : Fin cfg1.N) :
    (dat1 V c).leavesExact 3 t
      = if t.val % 4 = 3 then owns (c : Thread nD τ) (ms1_3 t) fullShare (out1 V c t)
        else iprop(∃ d, owns (c : Thread nD τ) (ms1_3 t) fullShare ((dat1 V c).before 3 t d)) := by
  by_cases h : t.val % 4 = 3
  · rw [if_pos h]; unfold Dat.leavesExact; rw [liveAt1_3 t h, after1_3]
  · rw [if_neg h]; exact Dat.leavesExact_idle _ 3 t (idleAt1_3 t h) (noFlush1_3 t h)

set_option maxHeartbeats 1600000 in
theorem body_obligation1 (c : Dev nD) : BodyObligation (dat1 (F := F) V c) (defs₀ (F := F)) Variants.none () Set.univ := fun t => by
  rw [bigSep_W1, bigSep_W1]
  exact tile_body (xb1 V c) (wb1 V c) c scM1 (Pipeline.ΦA spec1 c) (rest1 c) (PhiA1_eq c) t (ms1_0 t) (hs1_0 t) (ms1_1 t) (hs1_1 t)
    (ms1_2 t) (hs1_2 t) (ms1_3 t) (hs1_3 t) (Memref.isWhole_whole _) (bb1 V c t) ((dat1 V c).owesAt () t.castSucc)
    (before1_0 V c t) (before1_1 V c t) (before1_2 V c t) ((dat1 V c).before 3 t)
    (leaves1_0 V c t) (leaves1_1 V c t) (leaves1_2 V c t) (leaves1_3 V c t)

theorem hin1 (c : Dev nD) : (Pipeline.ΦA spec1 c : sProp 𝕄) ⊢ (dat1 V c).Φ 0 := by
  rw [show (dat1 V c).Φ 0 = Pipeline.ΦA spec1 c from rfl]
  try exact Idealize.SL.BI.Entails.refl _

theorem hout1 (c : Dev nD) : (dat1 V c).Φ (Fin.last cfg1.N) ⊢ (Pipeline.ΦA spec1 c : sProp 𝕄) := by
  rw [PhiA1_eq c]
  exact Phi_forget (xb1 V c) (wb1 V c) c scM1 (Pipeline.ΦA spec1 c) (rest1 c) (PhiA1_eq c) (Fin.last cfg1.N).val
    (Nat.le_of_lt_succ (Fin.last cfg1.N).isLt)

end Cert.KernelIdeal.Hand

end
-- ==== Proof.KI.R2Body.lean ====
import proofs.«104095_j8426725835121_1_alg».proof.Proof.KI.R2Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem liveAt2_0 : ∀ t : Fin cfg2.N, cfg2.idle 0 (cfg2.grid.coords t) = false := by decide +kernel
theorem liveAt2_1 : ∀ t : Fin cfg2.N, cfg2.idle 1 (cfg2.grid.coords t) = false := by decide +kernel
theorem liveAt2_2 : ∀ t : Fin cfg2.N, cfg2.idle 2 (cfg2.grid.coords t) = false := by decide +kernel
theorem idleAt2_3 : ∀ t : Fin cfg2.N, ¬ t.val % 4 = 3 → cfg2.idle 3 (cfg2.grid.coords t) = true := by decide +kernel
theorem liveAt2_3 : ∀ t : Fin cfg2.N, t.val % 4 = 3 → cfg2.idle 3 (cfg2.grid.coords t) = false := by decide +kernel
theorem noFlush2_3 (t : Fin cfg2.N) (h : ¬ t.val % 4 = 3) : (cfg2.win 3).flush t = false :=
  Bool.eq_false_iff.mpr fun hf => h ((flush2_3 t).mp hf)

abbrev ms2_0 (t : Fin cfg2.N) : Memref sig .tc .vmem S64x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x2048 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x2048 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S64x2048 .f32 := win2_3.stage (cfg2.slots t 3)
abbrev hs2_3 (t : Fin cfg2.N) : (ms2_3 t).IsWhole := hstage2_3 ((cfg2.slots t 3).cast nbuf2_3)

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

theorem PhiA2_eq (c : Dev nD) :
    (Pipeline.ΦA spec2 c : sProp 𝕄)
      = iprop(iprop(iprop(∃ d, owns (c : Thread nD τ) scM2 fullShare d) ∗ rest2 c) ∗ (∃ r, prngReg c r)) := by
  unfold Pipeline.ΦA; rw [scopedRest2_split]; simp only [scM2, owns_whole]; try rfl

theorem leaves2_0 (c : Dev nD) (t : Fin cfg2.N) :
    (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) :
    (dat2 V c).leavesExact 1 t = owns (c : Thread nD τ) (ms2_1 t) fullShare (iblk2 V c 1 t) := by
  unfold Dat.leavesExact; rw [liveAt2_1 t, after2_1]
theorem leaves2_2 (c : Dev nD) (t : Fin cfg2.N) :
    (dat2 V c).leavesExact 2 t = owns (c : Thread nD τ) (ms2_2 t) fullShare (iblk2 V c 2 t) := by
  unfold Dat.leavesExact; rw [liveAt2_2 t, after2_2]
/-- The output block is stored at the last k-step of a tile and nowhere else. -/
theorem leaves2_3 (c : Dev nD) (t : Fin cfg2.N) :
    (dat2 V c).leavesExact 3 t
      = if t.val % 4 = 3 then owns (c : Thread nD τ) (ms2_3 t) fullShare (out2 V c t)
        else iprop(∃ d, owns (c : Thread nD τ) (ms2_3 t) fullShare ((dat2 V c).before 3 t d)) := by
  by_cases h : t.val % 4 = 3
  · rw [if_pos h]; unfold Dat.leavesExact; rw [liveAt2_3 t h, after2_3]
  · rw [if_neg h]; exact Dat.leavesExact_idle _ 3 t (idleAt2_3 t h) (noFlush2_3 t h)

set_option maxHeartbeats 1600000 in
theorem body_obligation2 (c : Dev nD) : BodyObligation (dat2 (F := F) V c) (defs₀ (F := F)) Variants.none () Set.univ := fun t => by
  rw [bigSep_W2, bigSep_W2]
  exact tile_body (xb2 V c) (wb2 V c) c scM2 (Pipeline.ΦA spec2 c) (rest2 c) (PhiA2_eq c) t (ms2_0 t) (hs2_0 t) (ms2_1 t) (hs2_1 t)
    (ms2_2 t) (hs2_2 t) (ms2_3 t) (hs2_3 t) (Memref.isWhole_whole _) (bb2 V c t) ((dat2 V c).owesAt () t.castSucc)
    (before2_0 V c t) (before2_1 V c t) (before2_2 V c t) ((dat2 V c).before 3 t)
    (leaves2_0 V c t) (leaves2_1 V c t) (leaves2_2 V c t) (leaves2_3 V c t)

theorem hin2 (c : Dev nD) : (Pipeline.ΦA spec2 c : sProp 𝕄) ⊢ (dat2 V c).Φ 0 := by
  rw [show (dat2 V c).Φ 0 = Pipeline.ΦA spec2 c from rfl]
  try exact Idealize.SL.BI.Entails.refl _

theorem hout2 (c : Dev nD) : (dat2 V c).Φ (Fin.last cfg2.N) ⊢ (Pipeline.ΦA spec2 c : sProp 𝕄) := by
  rw [PhiA2_eq c]
  exact Phi_forget (xb2 V c) (wb2 V c) c scM2 (Pipeline.ΦA spec2 c) (rest2 c) (PhiA2_eq c) (Fin.last cfg2.N).val
    (Nat.le_of_lt_succ (Fin.last cfg2.N).isLt)

end Cert.KernelIdeal.Hand

end
-- ==== Proof.KI.R3Body.lean ====
import proofs.«104095_j8426725835121_1_alg».proof.Proof.KI.R3Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem liveAt3_0 : ∀ t : Fin cfg3.N, cfg3.idle 0 (cfg3.grid.coords t) = false := by decide +kernel
theorem liveAt3_1 : ∀ t : Fin cfg3.N, cfg3.idle 1 (cfg3.grid.coords t) = false := by decide +kernel
theorem liveAt3_2 : ∀ t : Fin cfg3.N, cfg3.idle 2 (cfg3.grid.coords t) = false := by decide +kernel
theorem idleAt3_3 : ∀ t : Fin cfg3.N, ¬ t.val % 4 = 3 → cfg3.idle 3 (cfg3.grid.coords t) = true := by decide +kernel
theorem liveAt3_3 : ∀ t : Fin cfg3.N, t.val % 4 = 3 → cfg3.idle 3 (cfg3.grid.coords t) = false := by decide +kernel
theorem noFlush3_3 (t : Fin cfg3.N) (h : ¬ t.val % 4 = 3) : (cfg3.win 3).flush t = false :=
  Bool.eq_false_iff.mpr fun hf => h ((flush3_3 t).mp hf)

abbrev ms3_0 (t : Fin cfg3.N) : Memref sig .tc .vmem S64x2048 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x2048 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x2048 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S64x2048 .f32 := win3_3.stage (cfg3.slots t 3)
abbrev hs3_3 (t : Fin cfg3.N) : (ms3_3 t).IsWhole := hstage3_3 ((cfg3.slots t 3).cast nbuf3_3)

theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)

theorem PhiA3_eq (c : Dev nD) :
    (Pipeline.ΦA spec3 c : sProp 𝕄)
      = iprop(iprop(iprop(∃ d, owns (c : Thread nD τ) scM3 fullShare d) ∗ rest3 c) ∗ (∃ r, prngReg c r)) := by
  unfold Pipeline.ΦA; rw [scopedRest3_split]; simp only [scM3, owns_whole]; try rfl

theorem leaves3_0 (c : Dev nD) (t : Fin cfg3.N) :
    (dat3 V c).leavesExact 0 t = owns (c : Thread nD τ) (ms3_0 t) fullShare (iblk3 V c 0 t) := by
  unfold Dat.leavesExact; rw [liveAt3_0 t, after3_0]
theorem leaves3_1 (c : Dev nD) (t : Fin cfg3.N) :
    (dat3 V c).leavesExact 1 t = owns (c : Thread nD τ) (ms3_1 t) fullShare (iblk3 V c 1 t) := by
  unfold Dat.leavesExact; rw [liveAt3_1 t, after3_1]
theorem leaves3_2 (c : Dev nD) (t : Fin cfg3.N) :
    (dat3 V c).leavesExact 2 t = owns (c : Thread nD τ) (ms3_2 t) fullShare (iblk3 V c 2 t) := by
  unfold Dat.leavesExact; rw [liveAt3_2 t, after3_2]
/-- The output block is stored at the last k-step of a tile and nowhere else. -/
theorem leaves3_3 (c : Dev nD) (t : Fin cfg3.N) :
    (dat3 V c).leavesExact 3 t
      = if t.val % 4 = 3 then owns (c : Thread nD τ) (ms3_3 t) fullShare (out3 V c t)
        else iprop(∃ d, owns (c : Thread nD τ) (ms3_3 t) fullShare ((dat3 V c).before 3 t d)) := by
  by_cases h : t.val % 4 = 3
  · rw [if_pos h]; unfold Dat.leavesExact; rw [liveAt3_3 t h, after3_3]
  · rw [if_neg h]; exact Dat.leavesExact_idle _ 3 t (idleAt3_3 t h) (noFlush3_3 t h)

set_option maxHeartbeats 1600000 in
theorem body_obligation3 (c : Dev nD) : BodyObligation (dat3 (F := F) V c) (defs₀ (F := F)) Variants.none () Set.univ := fun t => by
  rw [bigSep_W3, bigSep_W3]
  exact tile_body (xb3 V c) (wb3 V c) c scM3 (Pipeline.ΦA spec3 c) (rest3 c) (PhiA3_eq c) t (ms3_0 t) (hs3_0 t) (ms3_1 t) (hs3_1 t)
    (ms3_2 t) (hs3_2 t) (ms3_3 t) (hs3_3 t) (Memref.isWhole_whole _) (bb3 V c t) ((dat3 V c).owesAt () t.castSucc)
    (before3_0 V c t) (before3_1 V c t) (before3_2 V c t) ((dat3 V c).before 3 t)
    (leaves3_0 V c t) (leaves3_1 V c t) (leaves3_2 V c t) (leaves3_3 V c t)

theorem hin3 (c : Dev nD) : (Pipeline.ΦA spec3 c : sProp 𝕄) ⊢ (dat3 V c).Φ 0 := by
  rw [show (dat3 V c).Φ 0 = Pipeline.ΦA spec3 c from rfl]
  try exact Idealize.SL.BI.Entails.refl _

theorem hout3 (c : Dev nD) : (dat3 V c).Φ (Fin.last cfg3.N) ⊢ (Pipeline.ΦA spec3 c : sProp 𝕄) := by
  rw [PhiA3_eq c]
  exact Phi_forget (xb3 V c) (wb3 V c) c scM3 (Pipeline.ΦA spec3 c) (rest3 c) (PhiA3_eq c) (Fin.last cfg3.N).val
    (Nat.le_of_lt_succ (Fin.last cfg3.N).isLt)

end Cert.KernelIdeal.Hand

end
-- ==== Proof.KI.R4Body.lean ====
import proofs.«104095_j8426725835121_1_alg».proof.Proof.KI.R4Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem liveAt4_0 : ∀ t : Fin cfg4.N, cfg4.idle 0 (cfg4.grid.coords t) = false := by decide +kernel
theorem liveAt4_1 : ∀ t : Fin cfg4.N, cfg4.idle 1 (cfg4.grid.coords t) = false := by decide +kernel
theorem liveAt4_2 : ∀ t : Fin cfg4.N, cfg4.idle 2 (cfg4.grid.coords t) = false := by decide +kernel
theorem idleAt4_3 : ∀ t : Fin cfg4.N, ¬ t.val % 4 = 3 → cfg4.idle 3 (cfg4.grid.coords t) = true := by decide +kernel
theorem liveAt4_3 : ∀ t : Fin cfg4.N, t.val % 4 = 3 → cfg4.idle 3 (cfg4.grid.coords t) = false := by decide +kernel
theorem noFlush4_3 (t : Fin cfg4.N) (h : ¬ t.val % 4 = 3) : (cfg4.win 3).flush t = false :=
  Bool.eq_false_iff.mpr fun hf => h ((flush4_3 t).mp hf)

abbrev ms4_0 (t : Fin cfg4.N) : Memref sig .tc .vmem S64x2048 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2048x2048 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x2048 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S64x2048 .f32 := win4_3.stage (cfg4.slots t 3)
abbrev hs4_3 (t : Fin cfg4.N) : (ms4_3 t).IsWhole := hstage4_3 ((cfg4.slots t 3).cast nbuf4_3)

theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl)
    (fun t => by rw [after4_2]; unfold Dat.blockOf iblk4; rw [A_eq4]; try rfl) t d).trans
    (by unfold Dat.fetched Dat.blockOf iblk4; rw [A_eq4]; try rfl)

theorem PhiA4_eq (c : Dev nD) :
    (Pipeline.ΦA spec4 c : sProp 𝕄)
      = iprop(iprop(iprop(∃ d, owns (c : Thread nD τ) scM4 fullShare d) ∗ rest4 c) ∗ (∃ r, prngReg c r)) := by
  unfold Pipeline.ΦA; rw [scopedRest4_split]; simp only [scM4, owns_whole]; try rfl

theorem leaves4_0 (c : Dev nD) (t : Fin cfg4.N) :
    (dat4 V c).leavesExact 0 t = owns (c : Thread nD τ) (ms4_0 t) fullShare (iblk4 V c 0 t) := by
  unfold Dat.leavesExact; rw [liveAt4_0 t, after4_0]
theorem leaves4_1 (c : Dev nD) (t : Fin cfg4.N) :
    (dat4 V c).leavesExact 1 t = owns (c : Thread nD τ) (ms4_1 t) fullShare (iblk4 V c 1 t) := by
  unfold Dat.leavesExact; rw [liveAt4_1 t, after4_1]
theorem leaves4_2 (c : Dev nD) (t : Fin cfg4.N) :
    (dat4 V c).leavesExact 2 t = owns (c : Thread nD τ) (ms4_2 t) fullShare (iblk4 V c 2 t) := by
  unfold Dat.leavesExact; rw [liveAt4_2 t, after4_2]
/-- The output block is stored at the last k-step of a tile and nowhere else. -/
theorem leaves4_3 (c : Dev nD) (t : Fin cfg4.N) :
    (dat4 V c).leavesExact 3 t
      = if t.val % 4 = 3 then owns (c : Thread nD τ) (ms4_3 t) fullShare (out4 V c t)
        else iprop(∃ d, owns (c : Thread nD τ) (ms4_3 t) fullShare ((dat4 V c).before 3 t d)) := by
  by_cases h : t.val % 4 = 3
  · rw [if_pos h]; unfold Dat.leavesExact; rw [liveAt4_3 t h, after4_3]
  · rw [if_neg h]; exact Dat.leavesExact_idle _ 3 t (idleAt4_3 t h) (noFlush4_3 t h)

set_option maxHeartbeats 1600000 in
theorem body_obligation4 (c : Dev nD) : BodyObligation (dat4 (F := F) V c) (defs₀ (F := F)) Variants.none () Set.univ := fun t => by
  rw [bigSep_W4, bigSep_W4]
  exact tile_body (xb4 V c) (wb4 V c) c scM4 (Pipeline.ΦA spec4 c) (rest4 c) (PhiA4_eq c) t (ms4_0 t) (hs4_0 t) (ms4_1 t) (hs4_1 t)
    (ms4_2 t) (hs4_2 t) (ms4_3 t) (hs4_3 t) (Memref.isWhole_whole _) (bb4 V c t) ((dat4 V c).owesAt () t.castSucc)
    (before4_0 V c t) (before4_1 V c t) (before4_2 V c t) ((dat4 V c).before 3 t)
    (leaves4_0 V c t) (leaves4_1 V c t) (leaves4_2 V c t) (leaves4_3 V c t)

theorem hin4 (c : Dev nD) : (Pipeline.ΦA spec4 c : sProp 𝕄) ⊢ (dat4 V c).Φ 0 := by
  rw [show (dat4 V c).Φ 0 = Pipeline.ΦA spec4 c from rfl]
  try exact Idealize.SL.BI.Entails.refl _

theorem hout4 (c : Dev nD) : (dat4 V c).Φ (Fin.last cfg4.N) ⊢ (Pipeline.ΦA spec4 c : sProp 𝕄) := by
  rw [PhiA4_eq c]
  exact Phi_forget (xb4 V c) (wb4 V c) c scM4 (Pipeline.ΦA spec4 c) (rest4 c) (PhiA4_eq c) (Fin.last cfg4.N).val
    (Nat.le_of_lt_succ (Fin.last cfg4.N).isLt)

end Cert.KernelIdeal.Hand

end
-- ==== Proof.KI.R5Body.lean ====
import proofs.«104095_j8426725835121_1_alg».proof.Proof.KI.R5Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem liveAt5_0 : ∀ t : Fin cfg5.N, cfg5.idle 0 (cfg5.grid.coords t) = false := by decide +kernel
theorem liveAt5_1 : ∀ t : Fin cfg5.N, cfg5.idle 1 (cfg5.grid.coords t) = false := by decide +kernel
theorem liveAt5_2 : ∀ t : Fin cfg5.N, cfg5.idle 2 (cfg5.grid.coords t) = false := by decide +kernel
theorem idleAt5_3 : ∀ t : Fin cfg5.N, ¬ t.val % 4 = 3 → cfg5.idle 3 (cfg5.grid.coords t) = true := by decide +kernel
theorem liveAt5_3 : ∀ t : Fin cfg5.N, t.val % 4 = 3 → cfg5.idle 3 (cfg5.grid.coords t) = false := by decide +kernel
theorem noFlush5_3 (t : Fin cfg5.N) (h : ¬ t.val % 4 = 3) : (cfg5.win 3).flush t = false :=
  Bool.eq_false_iff.mpr fun hf => h ((flush5_3 t).mp hf)

abbrev ms5_0 (t : Fin cfg5.N) : Memref sig .tc .vmem S64x2048 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S2048x2048 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x2048 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S64x2048 .f32 := win5_3.stage (cfg5.slots t 3)
abbrev hs5_3 (t : Fin cfg5.N) : (ms5_3 t).IsWhole := hstage5_3 ((cfg5.slots t 3).cast nbuf5_3)

theorem before5_0 (c : Dev nD) (t : Fin cfg5.N) (d) : (dat5 V c).before 0 t d = iblk5 V c 0 t :=
  ((dat5 V c).before_in_eq_fetched 0 rfl (fun _ => rfl) (fun _ _ _ => rfl)
    (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl)
    (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (fun _ => rfl) (fun _ _ _ => rfl)
    (fun t => by rw [after5_2]; unfold Dat.blockOf iblk5; rw [A_eq5]; try rfl) t d).trans
    (by unfold Dat.fetched Dat.blockOf iblk5; rw [A_eq5]; try rfl)

theorem PhiA5_eq (c : Dev nD) :
    (Pipeline.ΦA spec5 c : sProp 𝕄)
      = iprop(iprop(iprop(∃ d, owns (c : Thread nD τ) scM5 fullShare d) ∗ rest5 c) ∗ (∃ r, prngReg c r)) := by
  unfold Pipeline.ΦA; rw [scopedRest5_split]; simp only [scM5, owns_whole]; try rfl

theorem leaves5_0 (c : Dev nD) (t : Fin cfg5.N) :
    (dat5 V c).leavesExact 0 t = owns (c : Thread nD τ) (ms5_0 t) fullShare (iblk5 V c 0 t) := by
  unfold Dat.leavesExact; rw [liveAt5_0 t, after5_0]
theorem leaves5_1 (c : Dev nD) (t : Fin cfg5.N) :
    (dat5 V c).leavesExact 1 t = owns (c : Thread nD τ) (ms5_1 t) fullShare (iblk5 V c 1 t) := by
  unfold Dat.leavesExact; rw [liveAt5_1 t, after5_1]
theorem leaves5_2 (c : Dev nD) (t : Fin cfg5.N) :
    (dat5 V c).leavesExact 2 t = owns (c : Thread nD τ) (ms5_2 t) fullShare (iblk5 V c 2 t) := by
  unfold Dat.leavesExact; rw [liveAt5_2 t, after5_2]
/-- The output block is stored at the last k-step of a tile and nowhere else. -/
theorem leaves5_3 (c : Dev nD) (t : Fin cfg5.N) :
    (dat5 V c).leavesExact 3 t
      = if t.val % 4 = 3 then owns (c : Thread nD τ) (ms5_3 t) fullShare (out5 V c t)
        else iprop(∃ d, owns (c : Thread nD τ) (ms5_3 t) fullShare ((dat5 V c).before 3 t d)) := by
  by_cases h : t.val % 4 = 3
  · rw [if_pos h]; unfold Dat.leavesExact; rw [liveAt5_3 t h, after5_3]
  · rw [if_neg h]; exact Dat.leavesExact_idle _ 3 t (idleAt5_3 t h) (noFlush5_3 t h)

set_option maxHeartbeats 1600000 in
theorem body_obligation5 (c : Dev nD) : BodyObligation (dat5 (F := F) V c) (defs₀ (F := F)) Variants.none () Set.univ := fun t => by
  rw [bigSep_W5, bigSep_W5]
  exact tile_body (xb5 V c) (wb5 V c) c scM5 (Pipeline.ΦA spec5 c) (rest5 c) (PhiA5_eq c) t (ms5_0 t) (hs5_0 t) (ms5_1 t) (hs5_1 t)
    (ms5_2 t) (hs5_2 t) (ms5_3 t) (hs5_3 t) (Memref.isWhole_whole _) (bb5 V c t) ((dat5 V c).owesAt () t.castSucc)
    (before5_0 V c t) (before5_1 V c t) (before5_2 V c t) ((dat5 V c).before 3 t)
    (leaves5_0 V c t) (leaves5_1 V c t) (leaves5_2 V c t) (leaves5_3 V c t)

theorem hin5 (c : Dev nD) : (Pipeline.ΦA spec5 c : sProp 𝕄) ⊢ (dat5 V c).Φ 0 := by
  rw [show (dat5 V c).Φ 0 = Pipeline.ΦA spec5 c from rfl]
  try exact Idealize.SL.BI.Entails.refl _

theorem hout5 (c : Dev nD) : (dat5 V c).Φ (Fin.last cfg5.N) ⊢ (Pipeline.ΦA spec5 c : sProp 𝕄) := by
  rw [PhiA5_eq c]
  exact Phi_forget (xb5 V c) (wb5 V c) c scM5 (Pipeline.ΦA spec5 c) (rest5 c) (PhiA5_eq c) (Fin.last cfg5.N).val
    (Nat.le_of_lt_succ (Fin.last cfg5.N).isLt)

end Cert.KernelIdeal.Hand

end
-- ==== Proof.KI.Run.lean ====
-- The program's run as a chain of thirteen items: seven host stretches and six launches of the tiled linear layer, each launch entered from and left at named buffer contents.
import proofs.«104095_j8426725835121_1_alg».proof.Proof.KI.Vals
import proofs.«104095_j8426725835121_1_alg».proof.Proof.KI.R0Body
import proofs.«104095_j8426725835121_1_alg».proof.Proof.KI.R1Body
import proofs.«104095_j8426725835121_1_alg».proof.Proof.KI.R2Body
import proofs.«104095_j8426725835121_1_alg».proof.Proof.KI.R3Body
import proofs.«104095_j8426725835121_1_alg».proof.Proof.KI.R4Body
import proofs.«104095_j8426725835121_1_alg».proof.Proof.KI.R5Body
import proofs.«104095_j8426725835121_1_alg».proof.Proof.KernelIdealP.Regions
import Idealize.ShloMosaic.Lib.Pipeline.FrameBody
import Idealize.ShloMosaic.Lib.Pipeline.RegionsLoop

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

theorem V_eq1 (c : Dev nD) : Gen.V1 m c = U1 m c := rfl

theorem V_eq2 (c : Dev nD) : Gen.V2 m (outs m) c = U2 m c := by
  show Function.update (Gen.V1 m c) main_v3 (U2 m c main_v3) = U2 m c
  rw [V_eq1 m c]
  unfold U2
  rw [Function.update_self]

theorem V_eq3 (c : Dev nD) : Gen.V3 m (outs m) c = U3 m c :=
  congrArg (StableHlo.after hostOps1) (V_eq2 m c)

theorem V_eq4 (c : Dev nD) : Gen.V4 m (outs m) c = U4 m c := by
  show Function.update (Gen.V3 m (outs m) c) main_v6 (U4 m c main_v6) = U4 m c
  rw [V_eq3 m c]
  unfold U4
  rw [Function.update_self]

theorem V_eq5 (c : Dev nD) : Gen.V5 m (outs m) c = U5 m c :=
  congrArg (StableHlo.after hostOps2) (V_eq4 m c)

theorem V_eq6 (c : Dev nD) : Gen.V6 m (outs m) c = U6 m c := by
  show Function.update (Gen.V5 m (outs m) c) main_v9 (U6 m c main_v9) = U6 m c
  rw [V_eq5 m c]
  unfold U6
  rw [Function.update_self]

theorem V_eq7 (c : Dev nD) : Gen.V7 m (outs m) c = U7 m c :=
  congrArg (StableHlo.after hostOps3) (V_eq6 m c)

theorem V_eq8 (c : Dev nD) : Gen.V8 m (outs m) c = U8 m c := by
  show Function.update (Gen.V7 m (outs m) c) main_v29 (U8 m c main_v29) = U8 m c
  rw [V_eq7 m c]
  unfold U8
  rw [Function.update_self]

theorem V_eq9 (c : Dev nD) : Gen.V9 m (outs m) c = U9 m c :=
  congrArg (StableHlo.after hostOps4) (V_eq8 m c)

theorem V_eq10 (c : Dev nD) : Gen.V10 m (outs m) c = U10 m c := by
  show Function.update (Gen.V9 m (outs m) c) main_v32 (U10 m c main_v32) = U10 m c
  rw [V_eq9 m c]
  unfold U10
  rw [Function.update_self]

theorem V_eq11 (c : Dev nD) : Gen.V11 m (outs m) c = U11 m c :=
  congrArg (StableHlo.after hostOps5) (V_eq10 m c)

theorem V_eq12 (c : Dev nD) : Gen.V12 m (outs m) c = U12 m c := by
  show Function.update (Gen.V11 m (outs m) c) main_v35 (U12 m c main_v35) = U12 m c
  rw [V_eq11 m c]
  unfold U12
  rw [Function.update_self]

theorem V_eq13 (c : Dev nD) : Gen.V13 m (outs m) c = U13 m c :=
  congrArg (StableHlo.after hostOps6) (V_eq12 m c)

theorem U2_out (c : Dev nD) : U2 m c main_v3 = o0 m c := by
  unfold U2; rw [Function.update_self]

theorem U2_of_ne (c : Dev nD) (b : Ref sig .tc) (h : b ≠ main_v3) : U2 m c b = U1 m c b := by
  unfold U2
  rw [Function.update_of_ne (StableHlo.devRef_ne_of_ne h : (Proc.devRef .tc b : DevRef τ sig) ≠ Proc.devRef .tc main_v3)]

theorem hF0 (c : Dev nD) : ∀ w : Fin cfg0.W,
    (dat0 (atRefs (U1 m)) c).arrAt w cfg0.N = atRefs (U2 m) c (Pipeline.arrRef spec0 w)
  | ⟨0, _⟩ => ((dat0 (atRefs (U1 m)) c).arrAt_in 0 rfl _).trans
      ((A_eq0 (atRefs (U1 m)) c 0).trans (U2_of_ne m c _ (by decide)).symm)
  | ⟨1, _⟩ => ((dat0 (atRefs (U1 m)) c).arrAt_in 1 rfl _).trans
      ((A_eq0 (atRefs (U1 m)) c 1).trans (U2_of_ne m c _ (by decide)).symm)
  | ⟨2, _⟩ => ((dat0 (atRefs (U1 m)) c).arrAt_in 2 rfl _).trans
      ((A_eq0 (atRefs (U1 m)) c 2).trans (U2_of_ne m c _ (by decide)).symm)
  | ⟨3, _⟩ => (U2_out m c).symm
  | ⟨_ + 4, h⟩ => absurd h (Nat.not_lt.2 (Nat.le_add_left _ _))

theorem hrest0 (c : Dev nD) : ∀ b, b ∉ Finset.univ.image (Pipeline.arrRef spec0) → atRefs (U2 m) c b = atRefs (U1 m) c b :=
  fun b hb => U2_of_ne m c b fun e => hb (Finset.mem_image.mpr ⟨3, Finset.mem_univ _, (by decide : Pipeline.arrRef spec0 (3 : Fin 4) = main_v3).trans e.symm⟩)

theorem U4_out (c : Dev nD) : U4 m c main_v6 = o1 m c := by
  unfold U4; rw [Function.update_self]

theorem U4_of_ne (c : Dev nD) (b : Ref sig .tc) (h : b ≠ main_v6) : U4 m c b = U3 m c b := by
  unfold U4
  rw [Function.update_of_ne (StableHlo.devRef_ne_of_ne h : (Proc.devRef .tc b : DevRef τ sig) ≠ Proc.devRef .tc main_v6)]

theorem hF1 (c : Dev nD) : ∀ w : Fin cfg1.W,
    (dat1 (atRefs (U3 m)) c).arrAt w cfg1.N = atRefs (U4 m) c (Pipeline.arrRef spec1 w)
  | ⟨0, _⟩ => ((dat1 (atRefs (U3 m)) c).arrAt_in 0 rfl _).trans
      ((A_eq1 (atRefs (U3 m)) c 0).trans (U4_of_ne m c _ (by decide)).symm)
  | ⟨1, _⟩ => ((dat1 (atRefs (U3 m)) c).arrAt_in 1 rfl _).trans
      ((A_eq1 (atRefs (U3 m)) c 1).trans (U4_of_ne m c _ (by decide)).symm)
  | ⟨2, _⟩ => ((dat1 (atRefs (U3 m)) c).arrAt_in 2 rfl _).trans
      ((A_eq1 (atRefs (U3 m)) c 2).trans (U4_of_ne m c _ (by decide)).symm)
  | ⟨3, _⟩ => (U4_out m c).symm
  | ⟨_ + 4, h⟩ => absurd h (Nat.not_lt.2 (Nat.le_add_left _ _))

theorem hrest1 (c : Dev nD) : ∀ b, b ∉ Finset.univ.image (Pipeline.arrRef spec1) → atRefs (U4 m) c b = atRefs (U3 m) c b :=
  fun b hb => U4_of_ne m c b fun e => hb (Finset.mem_image.mpr ⟨3, Finset.mem_univ _, (by decide : Pipeline.arrRef spec1 (3 : Fin 4) = main_v6).trans e.symm⟩)

theorem U6_out (c : Dev nD) : U6 m c main_v9 = o2 m c := by
  unfold U6; rw [Function.update_self]

theorem U6_of_ne (c : Dev nD) (b : Ref sig .tc) (h : b ≠ main_v9) : U6 m c b = U5 m c b := by
  unfold U6
  rw [Function.update_of_ne (StableHlo.devRef_ne_of_ne h : (Proc.devRef .tc b : DevRef τ sig) ≠ Proc.devRef .tc main_v9)]

theorem hF2 (c : Dev nD) : ∀ w : Fin cfg2.W,
    (dat2 (atRefs (U5 m)) c).arrAt w cfg2.N = atRefs (U6 m) c (Pipeline.arrRef spec2 w)
  | ⟨0, _⟩ => ((dat2 (atRefs (U5 m)) c).arrAt_in 0 rfl _).trans
      ((A_eq2 (atRefs (U5 m)) c 0).trans (U6_of_ne m c _ (by decide)).symm)
  | ⟨1, _⟩ => ((dat2 (atRefs (U5 m)) c).arrAt_in 1 rfl _).trans
      ((A_eq2 (atRefs (U5 m)) c 1).trans (U6_of_ne m c _ (by decide)).symm)
  | ⟨2, _⟩ => ((dat2 (atRefs (U5 m)) c).arrAt_in 2 rfl _).trans
      ((A_eq2 (atRefs (U5 m)) c 2).trans (U6_of_ne m c _ (by decide)).symm)
  | ⟨3, _⟩ => (U6_out m c).symm
  | ⟨_ + 4, h⟩ => absurd h (Nat.not_lt.2 (Nat.le_add_left _ _))

theorem hrest2 (c : Dev nD) : ∀ b, b ∉ Finset.univ.image (Pipeline.arrRef spec2) → atRefs (U6 m) c b = atRefs (U5 m) c b :=
  fun b hb => U6_of_ne m c b fun e => hb (Finset.mem_image.mpr ⟨3, Finset.mem_univ _, (by decide : Pipeline.arrRef spec2 (3 : Fin 4) = main_v9).trans e.symm⟩)

theorem U8_out (c : Dev nD) : U8 m c main_v29 = o3 m c := by
  unfold U8; rw [Function.update_self]

theorem U8_of_ne (c : Dev nD) (b : Ref sig .tc) (h : b ≠ main_v29) : U8 m c b = U7 m c b := by
  unfold U8
  rw [Function.update_of_ne (StableHlo.devRef_ne_of_ne h : (Proc.devRef .tc b : DevRef τ sig) ≠ Proc.devRef .tc main_v29)]

theorem hF3 (c : Dev nD) : ∀ w : Fin cfg3.W,
    (dat3 (atRefs (U7 m)) c).arrAt w cfg3.N = atRefs (U8 m) c (Pipeline.arrRef spec3 w)
  | ⟨0, _⟩ => ((dat3 (atRefs (U7 m)) c).arrAt_in 0 rfl _).trans
      ((A_eq3 (atRefs (U7 m)) c 0).trans (U8_of_ne m c _ (by decide)).symm)
  | ⟨1, _⟩ => ((dat3 (atRefs (U7 m)) c).arrAt_in 1 rfl _).trans
      ((A_eq3 (atRefs (U7 m)) c 1).trans (U8_of_ne m c _ (by decide)).symm)
  | ⟨2, _⟩ => ((dat3 (atRefs (U7 m)) c).arrAt_in 2 rfl _).trans
      ((A_eq3 (atRefs (U7 m)) c 2).trans (U8_of_ne m c _ (by decide)).symm)
  | ⟨3, _⟩ => (U8_out m c).symm
  | ⟨_ + 4, h⟩ => absurd h (Nat.not_lt.2 (Nat.le_add_left _ _))

theorem hrest3 (c : Dev nD) : ∀ b, b ∉ Finset.univ.image (Pipeline.arrRef spec3) → atRefs (U8 m) c b = atRefs (U7 m) c b :=
  fun b hb => U8_of_ne m c b fun e => hb (Finset.mem_image.mpr ⟨3, Finset.mem_univ _, (by decide : Pipeline.arrRef spec3 (3 : Fin 4) = main_v29).trans e.symm⟩)

theorem U10_out (c : Dev nD) : U10 m c main_v32 = o4 m c := by
  unfold U10; rw [Function.update_self]

theorem U10_of_ne (c : Dev nD) (b : Ref sig .tc) (h : b ≠ main_v32) : U10 m c b = U9 m c b := by
  unfold U10
  rw [Function.update_of_ne (StableHlo.devRef_ne_of_ne h : (Proc.devRef .tc b : DevRef τ sig) ≠ Proc.devRef .tc main_v32)]

theorem hF4 (c : Dev nD) : ∀ w : Fin cfg4.W,
    (dat4 (atRefs (U9 m)) c).arrAt w cfg4.N = atRefs (U10 m) c (Pipeline.arrRef spec4 w)
  | ⟨0, _⟩ => ((dat4 (atRefs (U9 m)) c).arrAt_in 0 rfl _).trans
      ((A_eq4 (atRefs (U9 m)) c 0).trans (U10_of_ne m c _ (by decide)).symm)
  | ⟨1, _⟩ => ((dat4 (atRefs (U9 m)) c).arrAt_in 1 rfl _).trans
      ((A_eq4 (atRefs (U9 m)) c 1).trans (U10_of_ne m c _ (by decide)).symm)
  | ⟨2, _⟩ => ((dat4 (atRefs (U9 m)) c).arrAt_in 2 rfl _).trans
      ((A_eq4 (atRefs (U9 m)) c 2).trans (U10_of_ne m c _ (by decide)).symm)
  | ⟨3, _⟩ => (U10_out m c).symm
  | ⟨_ + 4, h⟩ => absurd h (Nat.not_lt.2 (Nat.le_add_left _ _))

theorem hrest4 (c : Dev nD) : ∀ b, b ∉ Finset.univ.image (Pipeline.arrRef spec4) → atRefs (U10 m) c b = atRefs (U9 m) c b :=
  fun b hb => U10_of_ne m c b fun e => hb (Finset.mem_image.mpr ⟨3, Finset.mem_univ _, (by decide : Pipeline.arrRef spec4 (3 : Fin 4) = main_v32).trans e.symm⟩)

theorem U12_out (c : Dev nD) : U12 m c main_v35 = o5 m c := by
  unfold U12; rw [Function.update_self]

theorem U12_of_ne (c : Dev nD) (b : Ref sig .tc) (h : b ≠ main_v35) : U12 m c b = U11 m c b := by
  unfold U12
  rw [Function.update_of_ne (StableHlo.devRef_ne_of_ne h : (Proc.devRef .tc b : DevRef τ sig) ≠ Proc.devRef .tc main_v35)]

theorem hF5 (c : Dev nD) : ∀ w : Fin cfg5.W,
    (dat5 (atRefs (U11 m)) c).arrAt w cfg5.N = atRefs (U12 m) c (Pipeline.arrRef spec5 w)
  | ⟨0, _⟩ => ((dat5 (atRefs (U11 m)) c).arrAt_in 0 rfl _).trans
      ((A_eq5 (atRefs (U11 m)) c 0).trans (U12_of_ne m c _ (by decide)).symm)
  | ⟨1, _⟩ => ((dat5 (atRefs (U11 m)) c).arrAt_in 1 rfl _).trans
      ((A_eq5 (atRefs (U11 m)) c 1).trans (U12_of_ne m c _ (by decide)).symm)
  | ⟨2, _⟩ => ((dat5 (atRefs (U11 m)) c).arrAt_in 2 rfl _).trans
      ((A_eq5 (atRefs (U11 m)) c 2).trans (U12_of_ne m c _ (by decide)).symm)
  | ⟨3, _⟩ => (U12_out m c).symm
  | ⟨_ + 4, h⟩ => absurd h (Nat.not_lt.2 (Nat.le_add_left _ _))

theorem hrest5 (c : Dev nD) : ∀ b, b ∉ Finset.univ.image (Pipeline.arrRef spec5) → atRefs (U12 m) c b = atRefs (U11 m) c b :=
  fun b hb => U12_of_ne m c b fun e => hb (Finset.mem_image.mpr ⟨3, Finset.mem_univ _, (by decide : Pipeline.arrRef spec5 (3 : Fin 4) = main_v35).trans e.symm⟩)

def pdats : (p : Fin 6) → (c : Dev nD) → Dat τ (Elt F) Unit ℕ (UR sig nD τ) ℕ (cfgs p) c
  | ⟨0, _⟩ => fun c => dat0 (atRefs (U1 m)) c
  | ⟨1, _⟩ => fun c => dat1 (atRefs (U3 m)) c
  | ⟨2, _⟩ => fun c => dat2 (atRefs (U5 m)) c
  | ⟨3, _⟩ => fun c => dat3 (atRefs (U7 m)) c
  | ⟨4, _⟩ => fun c => dat4 (atRefs (U9 m)) c
  | ⟨5, _⟩ => fun c => dat5 (atRefs (U11 m)) c

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

set_option backward.isDefEq.respectTransparency.types false in
/-- A launch as a region of the run, entered with the buffers at contents Uin and left with them at Uout. -/
def seg (p : Fin 6) (lf : Pipeline.LaunchFacts (nD := nD) (τ := τ) cfgs p) (Uin Uout : Dev nD → Valuation τ sig (Elt F))
    (hb : ∀ c, Pipeline.BodyObligationLoose (pdats m p c) (defs₀ (F := F)) Variants.none () Set.univ)
    (hq : ∀ c w, (pdats m p c).q w = fullShare) (howed : ∀ c t, (pdats m p c).owed t = 0) (hrec : ∀ c x, x ∈ (pdats m p c).recorded 0)
    (hA : ∀ c w, (pdats m p c).A w = atRefs Uin c (Pipeline.arrRef (cfgs p).spec w))
    (hi : ∀ c, (Pipeline.ΦA (cfgs p).spec c : sProp 𝕄) ⊢ (pdats m p c).Φ 0)
    (hou : ∀ c, (pdats m p c).Φ (Fin.last (cfgs p).N) ⊢ (Pipeline.ΦA (cfgs p).spec c : sProp 𝕄))
    (hF : ∀ c w, (pdats m p c).arrAt w (cfgs p).N = atRefs Uout c (Pipeline.arrRef (cfgs p).spec w))
    (hr : ∀ c b, b ∉ Finset.univ.image (Pipeline.arrRef (cfgs p).spec) → atRefs Uout c b = atRefs Uin c b) :
    Pipeline.RegionSeg (pcfgs (F := F)) Gen.adm (pdats m) () defs₀ Variants.none L lv p where
  win := lf.win.to₀
  block_pos := lf.block_pos
  stage_whole := lf.stage_whole
  K := PEmpty
  osem k := k.elim
  ho := Pipeline.OwnSemFacts.none _
  hbody := hb
  hwaits := Pipeline.hwaits_of_owed_zero _ _ _ _ L lv p howed
  pre c := iprop(StableHlo.held (c : Thread nD τ) (Pipeline.ucRefs τ sig) (Uin c) ∗ R c)
  post c := iprop(StableHlo.held (c : Thread nD τ) (Pipeline.ucRefs τ sig) (Uout c) ∗ R c)
  X c := iprop(∃ r, prngReg c r)
  Y c := iprop(∃ r, prngReg c r)
  Z c := Pipeline.unscopedRest (Ix := Unit) (Name := ℕ) (U := UR sig nD τ) (Lvl := ℕ) (cfgs p).spec c (atRefs Uin c)
  hentry c := by
    rw [Pipeline.ownSems0_none]
    have hsplit := Pipeline.arrays_of_unscopedBufs (p := p) (pcfgs (F := F)) Gen.adm (pdats m) lf.win lf.arr_whole c
      ((pdats m p c).share_full (hq c)) (atRefs Uin c) (hA c)
    rw [Pipeline.unscopedBufs_held c (Uin c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      simp only [howed c]
      icases HO with ⟨%W, HO⟩; iexists W; isplitr; · ipureintro; exact fun x _ => Or.inl (hrec c x)
      iexact HO
    isplitl [Hp]; · iexact Hp
    iexact Hrest
  hin c := by
    refine BIBase.Entails.trans ?_ (hi c)
    unfold Pipeline.ΦA
    iintro ⟨Hp, -, Hr⟩
    isplitl [Hr]; · iexact Hr
    iexact Hp
  hout c := by
    refine BIBase.Entails.trans (hou c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) Gen.adm (Ix := Unit) (Name := ℕ) (U := UR sig nD τ) (Lvl := ℕ)
      lf.win lf.arr_whole c (pdats m) ((pdats m p c).share_full (hq c))
      (atRefs Uin c) (atRefs Uout c) ((pdats m p c).arrAt · (cfgs p).N) (hF c) (hr c)
    rw [Pipeline.unscopedBufs_held c (Uout c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    simp only [howed c]
    icases HO with ⟨%W, -, HO⟩; iexists W; iexact HO

set_option backward.isDefEq.respectTransparency.types false in
def reg0 : Pipeline.RegionSeg (pcfgs (F := F)) Gen.adm (pdats m) () defs₀ Variants.none L lv 0 :=
  seg m 0 launch0 (U1 m) (U2 m) (fun c => (body_obligation0 (atRefs (U1 m)) c).loose) (fun _ _ => rfl) (fun _ _ => rfl) (fun _ _ => trivial) (fun _ _ => rfl)
    (hin0 (atRefs (U1 m))) (hout0 (atRefs (U1 m))) (hF0 m) (hrest0 m)

theorem hpre0 (c : Dev nD) : iprop(StableHlo.held (c : Thread nD τ) (Pipeline.ucRefs τ sig) (Gen.V1 m c) ∗ R c) ⊢ (reg0 m).pre c := by
  rw [V_eq1 m c]; exact .rfl
theorem hpost0 (c : Dev nD) : (reg0 m).post c ⊢ iprop(StableHlo.held (c : Thread nD τ) (Pipeline.ucRefs τ sig) (Gen.V2 m (outs m) c) ∗ R c) := by
  rw [V_eq2 m c]; exact .rfl

set_option backward.isDefEq.respectTransparency.types false in
def reg1 : Pipeline.RegionSeg (pcfgs (F := F)) Gen.adm (pdats m) () defs₀ Variants.none L lv 1 :=
  seg m 1 launch1 (U3 m) (U4 m) (fun c => (body_obligation1 (atRefs (U3 m)) c).loose) (fun _ _ => rfl) (fun _ _ => rfl) (fun _ _ => trivial) (fun _ _ => rfl)
    (hin1 (atRefs (U3 m))) (hout1 (atRefs (U3 m))) (hF1 m) (hrest1 m)

theorem hpre1 (c : Dev nD) : iprop(StableHlo.held (c : Thread nD τ) (Pipeline.ucRefs τ sig) (Gen.V3 m (outs m) c) ∗ R c) ⊢ (reg1 m).pre c := by
  rw [V_eq3 m c]; exact .rfl
theorem hpost1 (c : Dev nD) : (reg1 m).post c ⊢ iprop(StableHlo.held (c : Thread nD τ) (Pipeline.ucRefs τ sig) (Gen.V4 m (outs m) c) ∗ R c) := by
  rw [V_eq4 m c]; exact .rfl

set_option backward.isDefEq.respectTransparency.types false in
def reg2 : Pipeline.RegionSeg (pcfgs (F := F)) Gen.adm (pdats m) () defs₀ Variants.none L lv 2 :=
  seg m 2 launch2 (U5 m) (U6 m) (fun c => (body_obligation2 (atRefs (U5 m)) c).loose) (fun _ _ => rfl) (fun _ _ => rfl) (fun _ _ => trivial) (fun _ _ => rfl)
    (hin2 (atRefs (U5 m))) (hout2 (atRefs (U5 m))) (hF2 m) (hrest2 m)

theorem hpre2 (c : Dev nD) : iprop(StableHlo.held (c : Thread nD τ) (Pipeline.ucRefs τ sig) (Gen.V5 m (outs m) c) ∗ R c) ⊢ (reg2 m).pre c := by
  rw [V_eq5 m c]; exact .rfl
theorem hpost2 (c : Dev nD) : (reg2 m).post c ⊢ iprop(StableHlo.held (c : Thread nD τ) (Pipeline.ucRefs τ sig) (Gen.V6 m (outs m) c) ∗ R c) := by
  rw [V_eq6 m c]; exact .rfl

set_option backward.isDefEq.respectTransparency.types false in
def reg3 : Pipeline.RegionSeg (pcfgs (F := F)) Gen.adm (pdats m) () defs₀ Variants.none L lv 3 :=
  seg m 3 launch3 (U7 m) (U8 m) (fun c => (body_obligation3 (atRefs (U7 m)) c).loose) (fun _ _ => rfl) (fun _ _ => rfl) (fun _ _ => trivial) (fun _ _ => rfl)
    (hin3 (atRefs (U7 m))) (hout3 (atRefs (U7 m))) (hF3 m) (hrest3 m)

theorem hpre3 (c : Dev nD) : iprop(StableHlo.held (c : Thread nD τ) (Pipeline.ucRefs τ sig) (Gen.V7 m (outs m) c) ∗ R c) ⊢ (reg3 m).pre c := by
  rw [V_eq7 m c]; exact .rfl
theorem hpost3 (c : Dev nD) : (reg3 m).post c ⊢ iprop(StableHlo.held (c : Thread nD τ) (Pipeline.ucRefs τ sig) (Gen.V8 m (outs m) c) ∗ R c) := by
  rw [V_eq8 m c]; exact .rfl

set_option backward.isDefEq.respectTransparency.types false in
def reg4 : Pipeline.RegionSeg (pcfgs (F := F)) Gen.adm (pdats m) () defs₀ Variants.none L lv 4 :=
  seg m 4 launch4 (U9 m) (U10 m) (fun c => (body_obligation4 (atRefs (U9 m)) c).loose) (fun _ _ => rfl) (fun _ _ => rfl) (fun _ _ => trivial) (fun _ _ => rfl)
    (hin4 (atRefs (U9 m))) (hout4 (atRefs (U9 m))) (hF4 m) (hrest4 m)

theorem hpre4 (c : Dev nD) : iprop(StableHlo.held (c : Thread nD τ) (Pipeline.ucRefs τ sig) (Gen.V9 m (outs m) c) ∗ R c) ⊢ (reg4 m).pre c := by
  rw [V_eq9 m c]; exact .rfl
theorem hpost4 (c : Dev nD) : (reg4 m).post c ⊢ iprop(StableHlo.held (c : Thread nD τ) (Pipeline.ucRefs τ sig) (Gen.V10 m (outs m) c) ∗ R c) := by
  rw [V_eq10 m c]; exact .rfl

set_option backward.isDefEq.respectTransparency.types false in
def reg5 : Pipeline.RegionSeg (pcfgs (F := F)) Gen.adm (pdats m) () defs₀ Variants.none L lv 5 :=
  seg m 5 launch5 (U11 m) (U12 m) (fun c => (body_obligation5 (atRefs (U11 m)) c).loose) (fun _ _ => rfl) (fun _ _ => rfl) (fun _ _ => trivial) (fun _ _ => rfl)
    (hin5 (atRefs (U11 m))) (hout5 (atRefs (U11 m))) (hF5 m) (hrest5 m)

theorem hpre5 (c : Dev nD) : iprop(StableHlo.held (c : Thread nD τ) (Pipeline.ucRefs τ sig) (Gen.V11 m (outs m) c) ∗ R c) ⊢ (reg5 m).pre c := by
  rw [V_eq11 m c]; exact .rfl
theorem hpost5 (c : Dev nD) : (reg5 m).post c ⊢ iprop(StableHlo.held (c : Thread nD τ) (Pipeline.ucRefs τ sig) (Gen.V12 m (outs m) c) ∗ R c) := by
  rw [V_eq12 m c]; exact .rfl

theorem hu0 : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
      ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R c) : sProp 𝕄) := by
  refine Pipeline.initEach L lv fun c => ?_
  iintro ⟨⟨-, HO, -, Hp, -⟩, -⟩
  imodintro
  isplitl [Hp]; · iexists _; iexact Hp
  iexists ∅; iexact HO

theorem hE6 (c : Dev nD) : (R c : sProp 𝕄) ⊢ iprop(∃ W, owes (c : Thread nD τ) (0 : CellTallies nD τ sig Unit) W) := by
  iintro ⟨-, H⟩; iexact H

set_option backward.isDefEq.respectTransparency.types false in

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Gen.frame_cond m emb₁ () Variants.none L lv (fun _ _ => rfl) ρ (outs m) (pdats m) 0 (fun _ => BI.emp)
    (initOf (Pipeline.cells cfgs cellOf_inj) (Pipeline.launchToks cfgs cellOf_inj)) hu0 (fun _ c => R c) (hE0 ρ) hE6
    (reg0 m) (hpre0 m) (hpost0 m)
    (reg1 m) (hpre1 m) (hpost1 m)
    (reg2 m) (hpre2 m) (hpost2 m)
    (reg3 m) (hpre3 m) (hpost3 m)
    (reg4 m) (hpre4 m) (hpost4 m)
    (reg5 m) (hpre5 m) (hpost5 m)

end Cert.KernelIdeal.Hand

end
-- ==== Proof.KI.RunVal.lean ====
-- The run's conclusion together with what the result buffer holds at the end.
import proofs.«104095_j8426725835121_1_alg».proof.Proof.KI.Run
import proofs.«104095_j8426725835121_1_alg».proof.Proof.KernelIdealP.RunCond

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in

theorem run_val (ρ : Dev nD → PrngReg) : θ_run defs (onTc (τ := τ) (main (F := F))) ⟨m, fun _ => 0, ρ⟩ (fun r => ∀ c : Dev nD,
      r.2.mem ((c.tc : Thread nD τ).loc main_v56) = U13 m c main_v56
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  have h := Gen.run_cond m emb₁ () Variants.none L lv (fun _ _ => rfl) ρ (outs m) (pdats m) 0 (fun _ => BI.emp)
    (initOf (Pipeline.cells cfgs cellOf_inj) (Pipeline.launchToks cfgs cellOf_inj)) hu0 (fun _ c => R c) (hE0 ρ) hE6
    (reg0 m) (hpre0 m) (hpost0 m)
    (reg1 m) (hpre1 m) (hpost1 m)
    (reg2 m) (hpre2 m) (hpost2 m)
    (reg3 m) (hpre3 m) (hpost3 m)
    (reg4 m) (hpre4 m) (hpost4 m)
    (reg5 m) (hpre5 m) (hpost5 m)
  refine (θ_run defs _ _).mono (fun r hr c => ?_) h
  have hc := hr c
  rw [V_eq13 m c] at hc
  exact hc

end Cert.KernelIdeal.Hand

end
-- ==== Proof.KI.Terms.lean ====
-- The kernel program's result as a composition of named pieces over its own shape records.
import proofs.«104095_j8426725835121_1_alg».proof.KernelIdeal

noncomputable section

namespace Cert.KernelIdeal.Hand

open Idealize.ShloMosaic Idealize.SL.Sem
open Cert.KernelIdeal Cert.KernelIdeal.Facts₀ Cert.KernelIdeal.Facts

variable {F : FTy → Type} [FloatOps F]
variable [Cert.KernelIdeal.Facts]

def xsK0 (x : FVec F S64x256x64 .f32) : FVec F S64x8192 .f32 :=
  shapeCast S64x8192 (extractStridedSlice S64x128x64 ![0, 0, 0] x slices_S64x256x64_S64x128x64_0_0_0) shapeCasts_S64x128x64_S64x8192

def xsK1 (x : FVec F S64x256x64 .f32) : FVec F S64x8192 .f32 :=
  shapeCast S64x8192 (extractStridedSlice S64x128x64 ![0, 128, 0] x slices_S64x256x64_S64x128x64_0_128_0) shapeCasts_S64x128x64_S64x8192

def b2K (b : FVec F S8192 .f32) : FVec F S1x8192 .f32 := shapeCast S1x8192 b shapeCasts_S8192_S1x8192

def rs3K (y : FVec F S64x8192 .f32) : FVec F S64x128x64 .f32 := shapeCast S64x128x64 y shapeCasts_S64x8192_S64x128x64

def attnK (Q K V : FVec F S64x128x64 .f32) : FVec F S64x128x64 .f32 :=
  Host.dotGeneral dot_S64x128x128_S64x128x64_S64x128x64_2_1_1_2_0_0 none
    (Host.divf
      (Host.exp (subf
        (Host.dotGeneral dot_S64x128x64_S64x128x64_S64x128x128_2_2_1_1_0_0 none Q K)
        (broadcastInDim S64x128x128 ![0, 1, 2] bcast_S64x1x128_S64x128x128_0_1_2
          (broadcastInDim S64x1x128 ![0, 2] bcast_S64x128_S64x1x128_0_2
            (maximumf (broadcastInDim S64x128 ![] bcast_S_S64x128 (constant (F := F) S_ .f32 0xFF800000#32))
              (Host.reduce FloatOps.maximumf
                (Host.dotGeneral dot_S64x128x64_S64x128x64_S64x128x128_2_2_1_1_0_0 none Q K)
                (constant (F := F) S_ .f32 0xFF800000#32) reducesTo_S64x128x128_S64x128_d1 h_S_))))))
      (broadcastInDim S64x128x128 ![0, 1, 2] bcast_S64x1x128_S64x128x128_0_1_2
        (broadcastInDim S64x1x128 ![0, 2] bcast_S64x128_S64x1x128_0_2
          (Host.reduceAdd
            (Host.exp (subf
              (Host.dotGeneral dot_S64x128x64_S64x128x64_S64x128x128_2_2_1_1_0_0 none Q K)
              (broadcastInDim S64x128x128 ![0, 1, 2] bcast_S64x1x128_S64x128x128_0_1_2
                (broadcastInDim S64x1x128 ![0, 2] bcast_S64x128_S64x1x128_0_2
                  (maximumf (broadcastInDim S64x128 ![] bcast_S_S64x128 (constant (F := F) S_ .f32 0xFF800000#32))
                    (Host.reduce FloatOps.maximumf
                      (Host.dotGeneral dot_S64x128x64_S64x128x64_S64x128x128_2_2_1_1_0_0 none Q K)
                      (constant (F := F) S_ .f32 0xFF800000#32) reducesTo_S64x128x128_S64x128_d1 h_S_))))))
            (constant (F := F) S_ .f32 0x00000000#32) reducesTo_S64x128x128_S64x128_d1 h_S_))))
    V

def headK (q k v : FVec F S64x8192 .f32) : FVec F S64x128x64 .f32 :=
  mulf (attnK (rs3K q) (rs3K k) (rs3K v))
    (broadcastInDim S64x128x64 ![] bcast_S_S64x128x64 (constant (F := F) S_ .f32 0x3E000000#32))

def idxK (s : BitVec 32) : IVec S1 32 := broadcastInDim S1 ![] bcast_S_S1 (constantI S_ 32 s)

def kOut (q0 k0 v0 q1 k1 v1 : FVec F S64x8192 .f32) : FVec F S64x256x64 .f32 :=
  Host.scatter scatter_S64x256x64_S1_S64x128x64_012_n_1_0 (fun _ b => b)
    (Host.scatter scatter_S64x256x64_S1_S64x128x64_012_n_1_0 (fun _ b => b)
      (broadcastInDim S64x256x64 ![] bcast_S_S64x256x64 (constant (F := F) S_ .f32 0x00000000#32))
      (idxK 0#32) (headK q0 k0 v0))
    (idxK 128#32) (headK q1 k1 v1)

end Cert.KernelIdeal.Hand

end
-- ==== Proof.KI.HostValue.lean ====
-- The host operations between the launches, read off the buffer contents they are applied to.
import proofs.«104095_j8426725835121_1_alg».proof.Proof.KI.Vals
import proofs.«104095_j8426725835121_1_alg».proof.Proof.KI.Terms
import proofs.«104095_j8426725835121_1_alg».proof.Proof.KernelIdealP.Regions
import proofs.«104095_j8426725835121_1_alg».proof.Proof.Gen.KernelIdeal
import Idealize.ShloMosaic.Lib.StableHlo.Run

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

namespace HostValue

section Stretches

variable (V : Valuation τ sig (Elt F))

abbrev scaleK (A : FVec F S64x128x64 .f32) : FVec F S64x128x64 .f32 :=
  mulf A (broadcastInDim S64x128x64 ![] bcast_S_S64x128x64 (constant (F := F) S_ .f32 0x3E000000#32))

theorem s1_v4 : StableHlo.after hostOps1 V (Proc.devRef .tc main_v4) = rs3K (V (Proc.devRef .tc main_v3)) := by
  after_results; rfl

theorem s2_v7 : StableHlo.after hostOps2 V (Proc.devRef .tc main_v7) = rs3K (V (Proc.devRef .tc main_v6)) := by
  after_results; rfl

theorem s3_v25 : StableHlo.after hostOps3 V (Proc.devRef .tc main_v25)
    = scaleK (attnK (V (Proc.devRef .tc main_v4)) (V (Proc.devRef .tc main_v7)) (rs3K (V (Proc.devRef .tc main_v9)))) := by
  after_results_simp; rfl

theorem s4_v30 : StableHlo.after hostOps4 V (Proc.devRef .tc main_v30) = rs3K (V (Proc.devRef .tc main_v29)) := by
  after_results; rfl

theorem s5_v33 : StableHlo.after hostOps5 V (Proc.devRef .tc main_v33) = rs3K (V (Proc.devRef .tc main_v32)) := by
  after_results; rfl

theorem s6_v56 : StableHlo.after hostOps6 V (Proc.devRef .tc main_v56)
    = Host.scatter scatter_S64x256x64_S1_S64x128x64_012_n_1_0 (fun _ b => b)
        (Host.scatter scatter_S64x256x64_S1_S64x128x64_012_n_1_0 (fun _ b => b)
          (broadcastInDim S64x256x64 ![] bcast_S_S64x256x64 (constant (F := F) S_ .f32 0x00000000#32))
          (idxK 0#32) (V (Proc.devRef .tc main_v25)))
        (idxK 128#32)
        (scaleK (attnK (V (Proc.devRef .tc main_v30)) (V (Proc.devRef .tc main_v33)) (rs3K (V (Proc.devRef .tc main_v35))))) := by
  after_results_simp; rfl

end Stretches

variable (m : (ℓ : Loc nD τ sig) → Buf (Elt F) ℓ)

theorem U2_of (c : Dev nD) (r : Ref sig .tc) (h : r ≠ main_v3) : U2 m c r = U1 m c r :=
  Function.update_of_ne (StableHlo.devRef_ne_of_ne h) _ _
theorem U2_out (c : Dev nD) : U2 m c main_v3 = o0 m c := Function.update_self _ _ _
theorem U3_of (c : Dev nD) (r : Ref sig .tc) (h : r ∉ hostOps1_W) : U3 m c r = U2 m c r :=
  StableHlo.after_of_writes_sub hostOps1 _ hostOps1_writes h
theorem U4_of (c : Dev nD) (r : Ref sig .tc) (h : r ≠ main_v6) : U4 m c r = U3 m c r :=
  Function.update_of_ne (StableHlo.devRef_ne_of_ne h) _ _
theorem U4_out (c : Dev nD) : U4 m c main_v6 = o1 m c := Function.update_self _ _ _
theorem U5_of (c : Dev nD) (r : Ref sig .tc) (h : r ∉ hostOps2_W) : U5 m c r = U4 m c r :=
  StableHlo.after_of_writes_sub hostOps2 _ hostOps2_writes h
theorem U6_of (c : Dev nD) (r : Ref sig .tc) (h : r ≠ main_v9) : U6 m c r = U5 m c r :=
  Function.update_of_ne (StableHlo.devRef_ne_of_ne h) _ _
theorem U6_out (c : Dev nD) : U6 m c main_v9 = o2 m c := Function.update_self _ _ _
theorem U7_of (c : Dev nD) (r : Ref sig .tc) (h : r ∉ hostOps3_W) : U7 m c r = U6 m c r :=
  StableHlo.after_of_writes_sub hostOps3 _ hostOps3_writes h
theorem U8_of (c : Dev nD) (r : Ref sig .tc) (h : r ≠ main_v29) : U8 m c r = U7 m c r :=
  Function.update_of_ne (StableHlo.devRef_ne_of_ne h) _ _
theorem U8_out (c : Dev nD) : U8 m c main_v29 = o3 m c := Function.update_self _ _ _
theorem U9_of (c : Dev nD) (r : Ref sig .tc) (h : r ∉ hostOps4_W) : U9 m c r = U8 m c r :=
  StableHlo.after_of_writes_sub hostOps4 _ hostOps4_writes h
theorem U10_of (c : Dev nD) (r : Ref sig .tc) (h : r ≠ main_v32) : U10 m c r = U9 m c r :=
  Function.update_of_ne (StableHlo.devRef_ne_of_ne h) _ _
theorem U10_out (c : Dev nD) : U10 m c main_v32 = o4 m c := Function.update_self _ _ _
theorem U11_of (c : Dev nD) (r : Ref sig .tc) (h : r ∉ hostOps5_W) : U11 m c r = U10 m c r :=
  StableHlo.after_of_writes_sub hostOps5 _ hostOps5_writes h
theorem U12_of (c : Dev nD) (r : Ref sig .tc) (h : r ≠ main_v35) : U12 m c r = U11 m c r :=
  Function.update_of_ne (StableHlo.devRef_ne_of_ne h) _ _
theorem U12_out (c : Dev nD) : U12 m c main_v35 = o5 m c := Function.update_self _ _ _
theorem U13_of (c : Dev nD) (r : Ref sig .tc) (h : r ∉ hostOps6_W) : U13 m c r = U12 m c r :=
  StableHlo.after_of_writes_sub hostOps6 _ hostOps6_writes h

theorem U6_v4 (c : Dev nD) : U6 m c main_v4 = rs3K (o0 m c) :=
  (U6_of m c main_v4 (by decide)).trans <| (U5_of m c main_v4 (by decide)).trans <| (U4_of m c main_v4 (by decide)).trans <| (s1_v4 (U2 m c)).trans (congrArg rs3K (U2_out m c))

theorem U6_v7 (c : Dev nD) : U6 m c main_v7 = rs3K (o1 m c) :=
  (U6_of m c main_v7 (by decide)).trans <| (s2_v7 (U4 m c)).trans (congrArg rs3K (U4_out m c))

theorem U7_v25 (c : Dev nD) : U7 m c main_v25 = headK (o0 m c) (o1 m c) (o2 m c) := by
  refine (s3_v25 (U6 m c)).trans ?_
  rw [U6_v4, U6_v7, U6_out]; rfl

theorem U12_v25 (c : Dev nD) : U12 m c main_v25 = headK (o0 m c) (o1 m c) (o2 m c) :=
  (U12_of m c main_v25 (by decide)).trans <| (U11_of m c main_v25 (by decide)).trans <| (U10_of m c main_v25 (by decide)).trans <| (U9_of m c main_v25 (by decide)).trans <| (U8_of m c main_v25 (by decide)).trans <| U7_v25 m c

theorem U12_v30 (c : Dev nD) : U12 m c main_v30 = rs3K (o3 m c) :=
  (U12_of m c main_v30 (by decide)).trans <| (U11_of m c main_v30 (by decide)).trans <| (U10_of m c main_v30 (by decide)).trans <| (s4_v30 (U8 m c)).trans (congrArg rs3K (U8_out m c))

theorem U12_v33 (c : Dev nD) : U12 m c main_v33 = rs3K (o4 m c) :=
  (U12_of m c main_v33 (by decide)).trans <| (s5_v33 (U10 m c)).trans (congrArg rs3K (U10_out m c))

end HostValue

open HostValue in

theorem U13_v56 (m : (ℓ : Loc nD τ sig) → Buf (Elt F) ℓ) (c : Dev nD) :
    U13 m c main_v56 = kOut (o0 m c) (o1 m c) (o2 m c) (o3 m c) (o4 m c) (o5 m c) := by
  refine (s6_v56 (U12 m c)).trans ?_
  rw [U12_v25, U12_v30, U12_v33, U12_out]; rfl

end Cert.KernelIdeal.Hand

end
-- ==== Proof.KI.Entries.lean ====
-- What each launch finds in its three input arrays, as functions of the launch memory.
import proofs.«104095_j8426725835121_1_alg».proof.Proof.KI.Vals
import proofs.«104095_j8426725835121_1_alg».proof.Proof.KI.Terms
import proofs.«104095_j8426725835121_1_alg».proof.Proof.KernelIdealP.Regions
import proofs.«104095_j8426725835121_1_alg».proof.Proof.Gen.KernelIdeal
import Idealize.ShloMosaic.Lib.StableHlo.Run

set_option maxRecDepth 16384

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

variable (m : (ℓ : Loc nD τ sig) → Buf (Elt F) ℓ)

theorem U1_unwritten (c : Dev nD) (r : Ref sig .tc) (h : r ∉ hostOps0_W) : U1 m c r = m ((c : Thread nD τ).loc r) :=
  StableHlo.after_of_writes_sub hostOps0 _ hostOps0_writes h

theorem U2_unwritten (c : Dev nD) (r : Ref sig .tc) (h : r ∉ ([main_v3] : List (Ref sig .tc))) : U2 m c r = U1 m c r := by
  simp only [U2, Function.update_of_ne (StableHlo.devRef_ne_of_ne (List.ne_of_not_mem_cons h) : (Proc.devRef .tc r : DevRef τ sig) ≠ Proc.devRef .tc main_v3)]

theorem U3_unwritten (c : Dev nD) (r : Ref sig .tc) (h : r ∉ hostOps1_W) : U3 m c r = U2 m c r :=
  StableHlo.after_of_writes_sub hostOps1 _ hostOps1_writes h

theorem U4_unwritten (c : Dev nD) (r : Ref sig .tc) (h : r ∉ ([main_v6] : List (Ref sig .tc))) : U4 m c r = U3 m c r := by
  simp only [U4, Function.update_of_ne (StableHlo.devRef_ne_of_ne (List.ne_of_not_mem_cons h) : (Proc.devRef .tc r : DevRef τ sig) ≠ Proc.devRef .tc main_v6)]

theorem U5_unwritten (c : Dev nD) (r : Ref sig .tc) (h : r ∉ hostOps2_W) : U5 m c r = U4 m c r :=
  StableHlo.after_of_writes_sub hostOps2 _ hostOps2_writes h

theorem U6_unwritten (c : Dev nD) (r : Ref sig .tc) (h : r ∉ ([main_v9] : List (Ref sig .tc))) : U6 m c r = U5 m c r := by
  simp only [U6, Function.update_of_ne (StableHlo.devRef_ne_of_ne (List.ne_of_not_mem_cons h) : (Proc.devRef .tc r : DevRef τ sig) ≠ Proc.devRef .tc main_v9)]

theorem U7_unwritten (c : Dev nD) (r : Ref sig .tc) (h : r ∉ hostOps3_W) : U7 m c r = U6 m c r :=
  StableHlo.after_of_writes_sub hostOps3 _ hostOps3_writes h

theorem U8_unwritten (c : Dev nD) (r : Ref sig .tc) (h : r ∉ ([main_v29] : List (Ref sig .tc))) : U8 m c r = U7 m c r := by
  simp only [U8, Function.update_of_ne (StableHlo.devRef_ne_of_ne (List.ne_of_not_mem_cons h) : (Proc.devRef .tc r : DevRef τ sig) ≠ Proc.devRef .tc main_v29)]

theorem U9_unwritten (c : Dev nD) (r : Ref sig .tc) (h : r ∉ hostOps4_W) : U9 m c r = U8 m c r :=
  StableHlo.after_of_writes_sub hostOps4 _ hostOps4_writes h

theorem U10_unwritten (c : Dev nD) (r : Ref sig .tc) (h : r ∉ ([main_v32] : List (Ref sig .tc))) : U10 m c r = U9 m c r := by
  simp only [U10, Function.update_of_ne (StableHlo.devRef_ne_of_ne (List.ne_of_not_mem_cons h) : (Proc.devRef .tc r : DevRef τ sig) ≠ Proc.devRef .tc main_v32)]

theorem U11_unwritten (c : Dev nD) (r : Ref sig .tc) (h : r ∉ hostOps5_W) : U11 m c r = U10 m c r :=
  StableHlo.after_of_writes_sub hostOps5 _ hostOps5_writes h

abbrev args : List (Ref sig .tc) :=
  [main_arg0, main_arg1, main_arg2, main_arg3, main_arg4, main_arg5, main_arg6, main_arg7, main_arg8, main_arg9, main_arg10, main_arg11, main_arg12]

/-- No host stretch and no launch writes an argument buffer: it holds the launch memory's contents throughout. -/
theorem U1_arg (c : Dev nD) (r : Ref sig .tc) (h : r ∈ args) : U1 m c r = m ((c : Thread nD τ).loc r) :=
  U1_unwritten m c r (by revert r; decide)
theorem U2_arg (c : Dev nD) (r : Ref sig .tc) (h : r ∈ args) : U2 m c r = m ((c : Thread nD τ).loc r) :=
  (U2_unwritten m c r (by revert r; decide)).trans (U1_arg m c r h)
theorem U3_arg (c : Dev nD) (r : Ref sig .tc) (h : r ∈ args) : U3 m c r = m ((c : Thread nD τ).loc r) :=
  (U3_unwritten m c r (by revert r; decide)).trans (U2_arg m c r h)
theorem U4_arg (c : Dev nD) (r : Ref sig .tc) (h : r ∈ args) : U4 m c r = m ((c : Thread nD τ).loc r) :=
  (U4_unwritten m c r (by revert r; decide)).trans (U3_arg m c r h)
theorem U5_arg (c : Dev nD) (r : Ref sig .tc) (h : r ∈ args) : U5 m c r = m ((c : Thread nD τ).loc r) :=
  (U5_unwritten m c r (by revert r; decide)).trans (U4_arg m c r h)
theorem U6_arg (c : Dev nD) (r : Ref sig .tc) (h : r ∈ args) : U6 m c r = m ((c : Thread nD τ).loc r) :=
  (U6_unwritten m c r (by revert r; decide)).trans (U5_arg m c r h)
theorem U7_arg (c : Dev nD) (r : Ref sig .tc) (h : r ∈ args) : U7 m c r = m ((c : Thread nD τ).loc r) :=
  (U7_unwritten m c r (by revert r; decide)).trans (U6_arg m c r h)
theorem U8_arg (c : Dev nD) (r : Ref sig .tc) (h : r ∈ args) : U8 m c r = m ((c : Thread nD τ).loc r) :=
  (U8_unwritten m c r (by revert r; decide)).trans (U7_arg m c r h)
theorem U9_arg (c : Dev nD) (r : Ref sig .tc) (h : r ∈ args) : U9 m c r = m ((c : Thread nD τ).loc r) :=
  (U9_unwritten m c r (by revert r; decide)).trans (U8_arg m c r h)
theorem U10_arg (c : Dev nD) (r : Ref sig .tc) (h : r ∈ args) : U10 m c r = m ((c : Thread nD τ).loc r) :=
  (U10_unwritten m c r (by revert r; decide)).trans (U9_arg m c r h)
theorem U11_arg (c : Dev nD) (r : Ref sig .tc) (h : r ∈ args) : U11 m c r = m ((c : Thread nD τ).loc r) :=
  (U11_unwritten m c r (by revert r; decide)).trans (U10_arg m c r h)

theorem entry0_x (c : Dev nD) : atRefs (U1 m) c (Pipeline.arrRef spec0 0) = xsK0 (m ((c.tc : Thread nD τ).loc main_arg0)) := by
  show StableHlo.after hostOps0 (fun b => m (c, b)) (Proc.devRef .tc main_v1) = _
  after_results
  rfl

theorem entry0_w (c : Dev nD) : atRefs (U1 m) c (Pipeline.arrRef spec0 1) = m ((c.tc : Thread nD τ).loc main_arg1) :=
  U1_arg m c main_arg1 (by decide)

theorem entry0_b (c : Dev nD) : atRefs (U1 m) c (Pipeline.arrRef spec0 2) = b2K (m ((c.tc : Thread nD τ).loc main_arg2)) := by
  show StableHlo.after hostOps0 (fun b => m (c, b)) (Proc.devRef .tc main_v2) = _
  after_results
  rfl

theorem entry1_x (c : Dev nD) : atRefs (U3 m) c (Pipeline.arrRef spec1 0) = xsK0 (m ((c.tc : Thread nD τ).loc main_arg0)) :=
  (U3_unwritten m c main_v1 (by decide)).trans <| (U2_unwritten m c main_v1 (by decide)).trans <| entry0_x m c

theorem entry1_w (c : Dev nD) : atRefs (U3 m) c (Pipeline.arrRef spec1 1) = m ((c.tc : Thread nD τ).loc main_arg3) :=
  U3_arg m c main_arg3 (by decide)

theorem entry1_b (c : Dev nD) : atRefs (U3 m) c (Pipeline.arrRef spec1 2) = b2K (m ((c.tc : Thread nD τ).loc main_arg4)) := by
  show StableHlo.after hostOps1 (U2 m c) (Proc.devRef .tc main_v5) = _
  after_results
  rw [U2_arg m c main_arg4 (by decide)]; rfl

theorem entry2_x (c : Dev nD) : atRefs (U5 m) c (Pipeline.arrRef spec2 0) = xsK0 (m ((c.tc : Thread nD τ).loc main_arg0)) :=
  (U5_unwritten m c main_v1 (by decide)).trans <| (U4_unwritten m c main_v1 (by decide)).trans <| (U3_unwritten m c main_v1 (by decide)).trans <| (U2_unwritten m c main_v1 (by decide)).trans <| entry0_x m c

theorem entry2_w (c : Dev nD) : atRefs (U5 m) c (Pipeline.arrRef spec2 1) = m ((c.tc : Thread nD τ).loc main_arg5) :=
  U5_arg m c main_arg5 (by decide)

theorem entry2_b (c : Dev nD) : atRefs (U5 m) c (Pipeline.arrRef spec2 2) = b2K (m ((c.tc : Thread nD τ).loc main_arg6)) := by
  show StableHlo.after hostOps2 (U4 m c) (Proc.devRef .tc main_v8) = _
  after_results
  rw [U4_arg m c main_arg6 (by decide)]; rfl

theorem entry3_x (c : Dev nD) : atRefs (U7 m) c (Pipeline.arrRef spec3 0) = xsK1 (m ((c.tc : Thread nD τ).loc main_arg0)) := by
  show StableHlo.after hostOps3 (U6 m c) (Proc.devRef .tc main_v27) = _
  after_results
  rw [U6_arg m c main_arg0 (by decide)]; rfl

theorem entry3_w (c : Dev nD) : atRefs (U7 m) c (Pipeline.arrRef spec3 1) = m ((c.tc : Thread nD τ).loc main_arg7) :=
  U7_arg m c main_arg7 (by decide)

theorem entry3_b (c : Dev nD) : atRefs (U7 m) c (Pipeline.arrRef spec3 2) = b2K (m ((c.tc : Thread nD τ).loc main_arg8)) := by
  show StableHlo.after hostOps3 (U6 m c) (Proc.devRef .tc main_v28) = _
  after_results
  rw [U6_arg m c main_arg8 (by decide)]; rfl

theorem entry4_x (c : Dev nD) : atRefs (U9 m) c (Pipeline.arrRef spec4 0) = xsK1 (m ((c.tc : Thread nD τ).loc main_arg0)) :=
  (U9_unwritten m c main_v27 (by decide)).trans <| (U8_unwritten m c main_v27 (by decide)).trans <| entry3_x m c

theorem entry4_w (c : Dev nD) : atRefs (U9 m) c (Pipeline.arrRef spec4 1) = m ((c.tc : Thread nD τ).loc main_arg9) :=
  U9_arg m c main_arg9 (by decide)

theorem entry4_b (c : Dev nD) : atRefs (U9 m) c (Pipeline.arrRef spec4 2) = b2K (m ((c.tc : Thread nD τ).loc main_arg10)) := by
  show StableHlo.after hostOps4 (U8 m c) (Proc.devRef .tc main_v31) = _
  after_results
  rw [U8_arg m c main_arg10 (by decide)]; rfl

theorem entry5_x (c : Dev nD) : atRefs (U11 m) c (Pipeline.arrRef spec5 0) = xsK1 (m ((c.tc : Thread nD τ).loc main_arg0)) :=
  (U11_unwritten m c main_v27 (by decide)).trans <| (U10_unwritten m c main_v27 (by decide)).trans <| (U9_unwritten m c main_v27 (by decide)).trans <| (U8_unwritten m c main_v27 (by decide)).trans <| entry3_x m c

theorem entry5_w (c : Dev nD) : atRefs (U11 m) c (Pipeline.arrRef spec5 1) = m ((c.tc : Thread nD τ).loc main_arg11) :=
  U11_arg m c main_arg11 (by decide)

theorem entry5_b (c : Dev nD) : atRefs (U11 m) c (Pipeline.arrRef spec5 2) = b2K (m ((c.tc : Thread nD τ).loc main_arg12)) := by
  show StableHlo.after hostOps5 (U10 m c) (Proc.devRef .tc main_v34) = _
  after_results
  rw [U10_arg m c main_arg12 (by decide)]; rfl

end Cert.KernelIdeal.Hand

end
-- ==== Proof.LibBlockSum.lean ====
-- A sum over J·K terms cut into J consecutive blocks of K terms, in any commutative additive monoid.
import Mathlib.Algebra.BigOperators.Fin
import Mathlib.Algebra.BigOperators.Intervals

namespace Cert.Lib

open Finset

theorem sum_range_blocks {β : Type*} [AddCommMonoid β] (f : ℕ → β) (K : ℕ) :
    ∀ J : ℕ, ∑ i ∈ range (J * K), f i = ∑ s ∈ range J, ∑ l ∈ range K, f (K * s + l)
  | 0 => by simp
  | J + 1 => by
    rw [Nat.succ_mul, sum_range_add, sum_range_blocks f K J, sum_range_succ, Nat.mul_comm J K]

theorem sum_fin_blocks {β : Type*} [AddCommMonoid β] (f : ℕ → β) (J K : ℕ) :
    ∑ i : Fin (J * K), f i.val = ∑ s ∈ range J, ∑ l : Fin K, f (K * s + l.val) := by
  rw [Fin.sum_univ_eq_sum_range (fun i => f i) (J * K), sum_range_blocks f K J]
  refine sum_congr rfl fun s _ => ?_
  exact (Fin.sum_univ_eq_sum_range (fun l => f (K * s + l)) K).symm

end Cert.Lib
-- ==== Proof.Spec.lean ====
-- y = x Wᵀ + b on the extended reals, entry by entry, and √64 = 8.
import Idealize.ShloMosaic.Lib.ValueIdx
import Idealize.ShloMosaic.PureOps.Ideal
import proofs.«104095_j8426725835121_1_alg».proof.Proof.LibBlockSum

open scoped BigOperators

noncomputable section

namespace Cert.Spec

open Idealize.ShloMosaic Idealize.ShloMosaic.ValueIdx

def lin (x : FVec Ideal ⟨2, ![64, 8192]⟩ .f32) (W : FVec Ideal ⟨2, ![8192, 8192]⟩ .f32) (b : FVec Ideal ⟨2, ![1, 8192]⟩ .f32) :
    FVec Ideal ⟨2, ![64, 8192]⟩ .f32 :=
  fun i => (∑ k : Fin 8192, x (ix2 (i 0) k) * W (ix2 (i 1) k)) + b (ix2 (0 : Fin 1) (i 1))

theorem lin_apply (x : FVec Ideal ⟨2, ![64, 8192]⟩ .f32) (W : FVec Ideal ⟨2, ![8192, 8192]⟩ .f32) (b : FVec Ideal ⟨2, ![1, 8192]⟩ .f32)
    (p : Fin 64) (q : Fin 8192) :
    lin x W b (ix2 p q) = (∑ k : Fin 8192, x (ix2 p k) * W (ix2 q k)) + b (ix2 (0 : Fin 1) q) := rfl

theorem sqrt_64 : Real.sqrt 64 = 8 := by
  rw [show (64 : ℝ) = 8 ^ 2 by norm_num]; exact Real.sqrt_sq (by norm_num)

end Cert.Spec

end
-- ==== Proof.KI.TileValue.lean ====
import proofs.«104095_j8426725835121_1_alg».proof.Proof.KI.Tile
import proofs.«104095_j8426725835121_1_alg».proof.Proof.Spec
import proofs.«104095_j8426725835121_1_alg».proof.Proof.LibBlockSum
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

abbrev dims := dot_S64x2048_S2048x2048_S64x2048_1_1_0_0_n_n

theorem dims_lhs_row (j : S64x2048.Idx) (k : dims.contr.Idx) : (dims.lhsIdx j k 0 : ℕ) = j 0 := by
  simp [DotDims.lhsIdx, dims, dot_S64x2048_S2048x2048_S64x2048_1_1_0_0_n_n]; rfl
theorem dims_lhs_col (j : S64x2048.Idx) (k : dims.contr.Idx) : (dims.lhsIdx j k 1 : ℕ) = k ⟨0, by decide⟩ := by
  simp [DotDims.lhsIdx, dims, dot_S64x2048_S2048x2048_S64x2048_1_1_0_0_n_n]; rfl
theorem dims_rhs_row (j : S64x2048.Idx) (k : dims.contr.Idx) : (dims.rhsIdx j k 0 : ℕ) = j 1 := by
  simp [DotDims.rhsIdx, dims, dot_S64x2048_S2048x2048_S64x2048_1_1_0_0_n_n]; rfl
theorem dims_rhs_col (j : S64x2048.Idx) (k : dims.contr.Idx) : (dims.rhsIdx j k 1 : ℕ) = k ⟨0, by decide⟩ := by
  simp [DotDims.rhsIdx, dims, dot_S64x2048_S2048x2048_S64x2048_1_1_0_0_n_n]; rfl

/-- The accumulating step at entry (p, j): both blocks are contracted along their second axis. -/
theorem pay2_apply (x : Vec Ideal S64x2048 .f32) (w : Vec Ideal S2048x2048 .f32) (a : Vec Ideal S64x2048 .f32)
    (p : Fin 64) (j : Fin 2048) :
    k0_pay2 x w a (ix2 p j) = a (ix2 p j) + ∑ l : Fin 2048, x (ix2 p l) * w (ix2 j l) := by
  unfold k0_pay2
  simp only [shapeCast_self]
  rw [addf_apply]
  congr 1
  show FloatOps.matmul dims none _ _ (constant (F := Ideal) S64x2048 .f32 0x00000000#32) (ix2 p j) = _
  rw [Ideal.matmul_constant_zero_apply, ← Equiv.sum_comp (contrEquiv1 dims 2048 rfl rfl).symm]
  refine Finset.sum_congr rfl fun l _ => ?_
  have hl := contrEquiv1_symm_val dims 2048 rfl rfl l
  rw [truncf_apply, truncf_apply]
  congr 2
  · apply Shape.idx_ext₂
    · exact dims_lhs_row _ _
    · exact (dims_lhs_col _ _).trans hl
  · apply Shape.idx_ext₂
    · exact dims_rhs_row _ _
    · exact (dims_rhs_col _ _).trans hl

theorem pay1_apply (p : Fin 64) (j : Fin 2048) : k0_pay1 (F := Ideal) (ix2 p j) = 0 := by
  unfold k0_pay1
  simp only [shapeCast_self]
  rw [broadcast_apply]
  exact Ideal.ofBits_zero_f32

theorem pay3_apply (a : Vec Ideal S64x2048 .f32) (b : Vec Ideal S1x2048 .f32) (p : Fin 64) (j : Fin 2048) :
    k0_pay3 a b (ix2 p j) = a (ix2 p j) + b (ix2 (0 : Fin 1) j) := by
  unfold k0_pay3
  simp only [shapeCast_self]
  rw [addf_apply]
  congr 1
  exact broadcastTo_1b_ab_apply _ _ p j

/-- The product's term at contraction coordinate k for output entry (p, r), zero past the contraction's extent. -/
def term (X : FVec Ideal ⟨2, ![64, 8192]⟩ .f32) (W : FVec Ideal ⟨2, ![8192, 8192]⟩ .f32) (p : Fin 64) (r : Fin 8192)
    (k : ℕ) : EReal :=
  if h : k < 8192 then X (ix2 p ⟨k, h⟩) * W (ix2 r ⟨k, h⟩) else 0

/-- Four consecutive blocks of 2048 terms are the whole contraction: only + being associative and commutative. -/
theorem sum_blocks (X : FVec Ideal ⟨2, ![64, 8192]⟩ .f32) (W : FVec Ideal ⟨2, ![8192, 8192]⟩ .f32) (p : Fin 64) (r : Fin 8192) :
    ∑ s' ∈ Finset.range 4, ∑ l : Fin 2048, term X W p r (2048 * s' + l.val) = ∑ k : Fin 8192, X (ix2 p k) * W (ix2 r k) := by
  refine (Cert.Lib.sum_fin_blocks (term X W p r) 4 2048).symm.trans ?_
  show ∑ k : Fin 8192, term X W p r k.val = _
  refine Finset.sum_congr rfl fun k _ => ?_
  rw [term, dif_pos k.isLt]

section

variable (xb : Fin grid0.N → Vec Ideal S64x2048 .f32) (wb : Fin grid0.N → Vec Ideal S2048x2048 .f32)
  (X : FVec Ideal ⟨2, ![64, 8192]⟩ .f32) (W : FVec Ideal ⟨2, ![8192, 8192]⟩ .f32)
  (hx : ∀ (t : Fin grid0.N) (p : Fin 64) (l : Fin 2048) (q : Fin 8192), q.val = 2048 * (t.val % 4) + l.val →
    xb t (ix2 p l) = X (ix2 p q))
  (hw : ∀ (t : Fin grid0.N) (j l : Fin 2048) (r q : Fin 8192), r.val = 2048 * (t.val / 4) + j.val →
    q.val = 2048 * (t.val % 4) + l.val → wb t (ix2 j l) = W (ix2 r q))
include hx hw

/-- With point t = 4 q + s holding column block s of X and block (q, s) of W, the blocks' product at (p, l), (j, l) is
    the term at contraction coordinate 2048 s + l for output entry (p, 2048 q + j). -/
theorem prod_at (t : Fin grid0.N) (p : Fin 64) (j l : Fin 2048) (r : Fin 8192) (hr : r.val = 2048 * (t.val / 4) + j.val) :
    xb t (ix2 p l) * wb t (ix2 j l) = term X W p r (2048 * (t.val % 4) + l.val) := by
  have hk : 2048 * (t.val % 4) + l.val < 8192 := by have := l.isLt; omega
  rw [term, dif_pos hk, hx t p l ⟨_, hk⟩ rfl, hw t j l r ⟨_, hk⟩ hr rfl]

theorem prod_tile (q s : ℕ) (hs : s < 4) (h : 4 * q + s < grid0.N) (p : Fin 64) (j l : Fin 2048) (r : Fin 8192)
    (hr : r.val = 2048 * q + j.val) :
    xb ⟨4 * q + s, h⟩ (ix2 p l) * wb ⟨4 * q + s, h⟩ (ix2 j l) = term X W p r (2048 * s + l.val) := by
  have hq : (4 * q + s) / 4 = q := by omega
  have hm : (4 * q + s) % 4 = s := by omega
  rw [prod_at xb wb X W hx hw ⟨4 * q + s, h⟩ p j l r (by show r.val = 2048 * ((4 * q + s) / 4) + j.val; rw [hq]; exact hr)]
  show term _ _ p r (2048 * ((4 * q + s) % 4) + l.val) = _
  rw [hm]

/-- After the k-step s of tile q the accumulator's entry (p, j) is zero plus the contraction blocks 0 … s. -/
theorem acc_apply (q : ℕ) (p : Fin 64) (j : Fin 2048) (r : Fin 8192) (hr : r.val = 2048 * q + j.val) :
    ∀ (s : ℕ) (h : 4 * q + s < grid0.N), s < 4 →
      acc xb wb (4 * q + s) h (ix2 p j)
        = 0 + ∑ s' ∈ Finset.range (s + 1), ∑ l : Fin 2048, term X W p r (2048 * s' + l.val)
  | 0, h, hs4 => by
    rw [acc_reset xb wb ⟨4 * q + 0, h⟩ (by show (4 * q + 0) % 4 = 0; omega), pay2_apply, pay1_apply, Finset.sum_range_one]
    refine congrArg (fun z : EReal => 0 + z) (Finset.sum_congr rfl fun l _ => ?_)
    exact prod_tile xb wb X W hx hw q 0 hs4 h p j l r hr
  | s + 1, h, hs4 => by
    have hstep : acc xb wb (4 * q + (s + 1)) h = k0_pay2 (xb ⟨4 * q + (s + 1), h⟩) (wb ⟨4 * q + (s + 1), h⟩)
        (acc xb wb (4 * q + s) (Nat.lt_of_succ_lt h)) :=
      acc_step xb wb ⟨4 * q + (s + 1), h⟩ (by show ¬(4 * q + (s + 1)) % 4 = 0; omega)
    rw [hstep, pay2_apply, acc_apply q p j r hr s (Nat.lt_of_succ_lt h) (by omega),
      Finset.sum_range_succ _ (s + 1), add_assoc (0 : EReal)]
    refine congrArg (fun z : EReal => 0 + z) (congrArg (fun z : EReal => _ + z) (Finset.sum_congr rfl fun l _ => ?_))
    exact prod_tile xb wb X W hx hw q (s + 1) hs4 h p j l r hr

/-- What the last k-step of a tile stores is the linear layer's entry: the four blocks are the whole contraction, and
    the bias row's entry is added. -/
theorem stored_apply (t : Fin grid0.N) (h3 : t.val % 4 = 3) (bb : Vec Ideal S1x2048 .f32) (B : FVec Ideal ⟨2, ![1, 8192]⟩ .f32)
    (hb : ∀ (j : Fin 2048) (r : Fin 8192), r.val = 2048 * (t.val / 4) + j.val → bb (ix2 (0 : Fin 1) j) = B (ix2 (0 : Fin 1) r))
    (p : Fin 64) (j : Fin 2048) (hrlt : 2048 * (t.val / 4) + j.val < 8192) :
    k0_pay3 (acc xb wb t.val t.isLt) bb (ix2 p j) = Cert.Spec.lin X W B (ix2 p ⟨2048 * (t.val / 4) + j.val, hrlt⟩) := by
  have htl := t.isLt
  have hacc : acc xb wb t.val t.isLt (ix2 p j)
      = 0 + ∑ s' ∈ Finset.range (3 + 1), ∑ l : Fin 2048, term X W p ⟨2048 * (t.val / 4) + j.val, hrlt⟩ (2048 * s' + l.val) := by
    have same : ∀ (u : ℕ) (hu : u < grid0.N), u = t.val → acc xb wb u hu = acc xb wb t.val t.isLt :=
      fun u hu e => by subst e; rfl
    rw [← same (4 * (t.val / 4) + 3) (by omega) (by omega)]
    exact acc_apply xb wb X W hx hw (t.val / 4) p j ⟨_, hrlt⟩ rfl 3 (by omega) (by omega)
  rw [pay3_apply, hacc, zero_add, sum_blocks, hb j ⟨_, hrlt⟩ rfl, Cert.Spec.lin_apply]

end

end Cert.KernelIdeal.Hand

end
-- ==== Proof.KI.R0Value.lean ====
import proofs.«104095_j8426725835121_1_alg».proof.Proof.KI.R0Defs
import proofs.«104095_j8426725835121_1_alg».proof.Proof.KI.TileValue

set_option maxRecDepth 16384

open scoped BigOperators

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- At point t the activations' block is column block t mod 4, the weights' block is row block t / 4 and column block
    t mod 4, the bias's and the output's blocks are column block t / 4. -/
theorem idx_facts0 : ∀ t : Fin cfg0.N,
    (cfg0.win 0).index t (0 : Fin 2) = 0 ∧ (cfg0.win 0).index t (1 : Fin 2) = t.val % 4
    ∧ (cfg0.win 1).index t (0 : Fin 2) = t.val / 4 ∧ (cfg0.win 1).index t (1 : Fin 2) = t.val % 4
    ∧ (cfg0.win 2).index t (0 : Fin 2) = 0 ∧ (cfg0.win 2).index t (1 : Fin 2) = t.val / 4
    ∧ (cfg0.win 3).index t (0 : Fin 2) = 0 ∧ (cfg0.win 3).index t (1 : Fin 2) = t.val / 4 := by decide +kernel

theorem blk_x0 (c : Dev nD) (t : Fin cfg0.N) (p : Fin 64) (l : Fin 2048) (q : Fin 8192)
    (hq : q.val = 2048 * (t.val % 4) + l.val) :
    xb0 V c t (ix2 p l) = (V c (Pipeline.arrRef spec0 0) : FVec Ideal ⟨2, ![64, 8192]⟩ .f32) (ix2 p q) := by
  obtain ⟨e00, e01, -⟩ := idx_facts0 t
  show iblk0 V c 0 t (ix2 p l) = _
  unfold iblk0
  rw [View.read_apply]
  show V c (Pipeline.arrRef spec0 0) _ = V c (Pipeline.arrRef spec0 0) _
  congr 1
  funext a
  apply Fin.ext
  match a with
  | ⟨0, _⟩ => show (cfg0.win 0).index t (0 : Fin 2) * 64 + 1 * p.val = p.val; rw [e00]; omega
  | ⟨1, _⟩ => show (cfg0.win 0).index t (1 : Fin 2) * 2048 + 1 * l.val = q.val; rw [e01, hq]; omega

theorem blk_w0 (c : Dev nD) (t : Fin cfg0.N) (j l : Fin 2048) (r q : Fin 8192)
    (hr : r.val = 2048 * (t.val / 4) + j.val) (hq : q.val = 2048 * (t.val % 4) + l.val) :
    wb0 V c t (ix2 j l) = (V c (Pipeline.arrRef spec0 1) : FVec Ideal ⟨2, ![8192, 8192]⟩ .f32) (ix2 r q) := by
  obtain ⟨-, -, e10, e11, -⟩ := idx_facts0 t
  show iblk0 V c 1 t (ix2 j l) = _
  unfold iblk0
  rw [View.read_apply]
  show V c (Pipeline.arrRef spec0 1) _ = V c (Pipeline.arrRef spec0 1) _
  congr 1
  funext a
  apply Fin.ext
  match a with
  | ⟨0, _⟩ => show (cfg0.win 1).index t (0 : Fin 2) * 2048 + 1 * j.val = r.val; rw [e10, hr]; omega
  | ⟨1, _⟩ => show (cfg0.win 1).index t (1 : Fin 2) * 2048 + 1 * l.val = q.val; rw [e11, hq]; omega

theorem blk_b0 (c : Dev nD) (t : Fin cfg0.N) (j : Fin 2048) (r : Fin 8192) (hr : r.val = 2048 * (t.val / 4) + j.val) :
    bb0 V c t (ix2 (0 : Fin 1) j) = (V c (Pipeline.arrRef spec0 2) : FVec Ideal ⟨2, ![1, 8192]⟩ .f32) (ix2 (0 : Fin 1) r) := by
  obtain ⟨-, -, -, -, e20, e21, -⟩ := idx_facts0 t
  show iblk0 V c 2 t (ix2 (0 : Fin 1) j) = _
  unfold iblk0
  rw [View.read_apply]
  show V c (Pipeline.arrRef spec0 2) _ = V c (Pipeline.arrRef spec0 2) _
  congr 1
  funext a
  apply Fin.ext
  match a with
  | ⟨0, _⟩ => show (cfg0.win 2).index t (0 : Fin 2) * 1 + 1 * (0 : Fin 1).val = (0 : Fin 1).val; rw [e20]; rfl
  | ⟨1, _⟩ => show (cfg0.win 2).index t (1 : Fin 2) * 2048 + 1 * j.val = r.val; rw [e21, hr]; omega

/-- The block a tile's last k-step writes back is that tile's block of the linear layer of the three arrays. -/
theorem flushed0_eq (c : Dev nD) (t : Fin cfg0.N) (hf : (cfg0.win 3).flush t = true) :
    (dat0 V c).flushed 3 t = ((cfg0.win 3).blk t).view.read (Elt Ideal)
      (Cert.Spec.lin (V c (Pipeline.arrRef spec0 0)) (V c (Pipeline.arrRef spec0 1)) (V c (Pipeline.arrRef spec0 2))) := by
  have h3 : t.val % 4 = 3 := (flush0_3 t).mp hf
  have hN : cfg0.N = 16 := N_0
  have htl := t.isLt
  obtain ⟨-, -, -, -, -, -, e30, e31⟩ := idx_facts0 t
  show (cfg0.win 3).cut (cfg0.grid.coords t) ((dat0 V c).after 3 t) = _
  rw [after0_3]
  funext y
  obtain ⟨p, j, rfl⟩ : ∃ (p : Fin 64) (j : Fin 2048), y = ix2 p j := ⟨y 0, y 1, eq_ix2 y⟩
  have hrlt : 2048 * (t.val / 4) + j.val < 8192 := by have := j.isLt; omega
  rw [View.read_apply]
  show out0 V c t (ix2 p j)
    = Cert.Spec.lin (V c (Pipeline.arrRef spec0 0)) (V c (Pipeline.arrRef spec0 1)) (V c (Pipeline.arrRef spec0 2))
        (((cfg0.win 3).blk t).view.emb (ix2 p j))
  have hemb : ((cfg0.win 3).blk t).view.emb (ix2 p j)
      = (ix2 p ⟨2048 * (t.val / 4) + j.val, hrlt⟩ : (⟨2, ![64, 8192]⟩ : Shape).Idx) := by
    funext a
    apply Fin.ext
    match a with
    | ⟨0, _⟩ => show (cfg0.win 3).index t (0 : Fin 2) * 64 + 1 * p.val = p.val; rw [e30]; omega
    | ⟨1, _⟩ => show (cfg0.win 3).index t (1 : Fin 2) * 2048 + 1 * j.val = 2048 * (t.val / 4) + j.val; rw [e31]; omega
  refine Eq.trans ?_ (congrArg (Cert.Spec.lin (V c (Pipeline.arrRef spec0 0)) (V c (Pipeline.arrRef spec0 1))
    (V c (Pipeline.arrRef spec0 2))) hemb.symm)
  exact stored_apply (xb0 V c) (wb0 V c) _ _ (blk_x0 V c) (blk_w0 V c) t h3 (bb0 V c t) _ (blk_b0 V c t) p j hrlt

/-- Every entry of the output array lies in the block some tile's last k-step writes back: column q in tile q / 2048. -/
theorem cover0 (i : (⟨2, ![64, 8192]⟩ : Shape).Idx) :
    ∃ t : Fin cfg0.N, (cfg0.win 3).flush t = true ∧ i ∈ ((cfg0.win 3).blk t).view.set := by
  have h0 : (i 0).val < 64 := (i 0).isLt
  have h1 : (i 1).val < 8192 := (i 1).isLt
  have hN : cfg0.N = 16 := N_0
  obtain ⟨t, ht⟩ : ∃ t : Fin cfg0.N, t.val = 4 * ((i 1).val / 2048) + 3 := ⟨⟨_, by omega⟩, rfl⟩
  refine ⟨t, (flush0_3 t).mpr (by omega), ?_⟩
  obtain ⟨-, -, -, -, -, -, e30, e31⟩ := idx_facts0 t
  show i ∈ ((View.whole (Pipeline.arrRef spec0 3)).slice ((cfg0.win 3).rect t)).set
  rw [View.set_slice_whole, Rect.mem_set_unit]
  intro a
  match a with
  | ⟨0, _⟩ =>
    show (cfg0.win 3).index t (0 : Fin 2) * 64 ≤ (i 0).val ∧ (i 0).val < (cfg0.win 3).index t (0 : Fin 2) * 64 + 64
    rw [e30]; omega
  | ⟨1, _⟩ =>
    show (cfg0.win 3).index t (1 : Fin 2) * 2048 ≤ (i 1).val ∧ (i 1).val < (cfg0.win 3).index t (1 : Fin 2) * 2048 + 2048
    rw [e31]; omega

/-- After the launch the output array holds the linear layer of the three arrays the launch found. -/
theorem arrAt0_eq (c : Dev nD) :
    (dat0 (F := Ideal) V c).arrAt 3 cfg0.N
      = Cert.Spec.lin (V c (Pipeline.arrRef spec0 0)) (V c (Pipeline.arrRef spec0 1)) (V c (Pipeline.arrRef spec0 2)) :=
  (dat0 V c).arrAt_eq_of_cover 3 _ (flushed0_eq V c) cover0

end Cert.KernelIdeal.Hand

end
-- ==== Proof.KI.R1Value.lean ====
import proofs.«104095_j8426725835121_1_alg».proof.Proof.KI.R1Defs
import proofs.«104095_j8426725835121_1_alg».proof.Proof.KI.TileValue

set_option maxRecDepth 16384

open scoped BigOperators

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- At point t the activations' block is column block t mod 4, the weights' block is row block t / 4 and column block
    t mod 4, the bias's and the output's blocks are column block t / 4. -/
theorem idx_facts1 : ∀ t : Fin cfg1.N,
    (cfg1.win 0).index t (0 : Fin 2) = 0 ∧ (cfg1.win 0).index t (1 : Fin 2) = t.val % 4
    ∧ (cfg1.win 1).index t (0 : Fin 2) = t.val / 4 ∧ (cfg1.win 1).index t (1 : Fin 2) = t.val % 4
    ∧ (cfg1.win 2).index t (0 : Fin 2) = 0 ∧ (cfg1.win 2).index t (1 : Fin 2) = t.val / 4
    ∧ (cfg1.win 3).index t (0 : Fin 2) = 0 ∧ (cfg1.win 3).index t (1 : Fin 2) = t.val / 4 := by decide +kernel

theorem blk_x1 (c : Dev nD) (t : Fin cfg1.N) (p : Fin 64) (l : Fin 2048) (q : Fin 8192)
    (hq : q.val = 2048 * (t.val % 4) + l.val) :
    xb1 V c t (ix2 p l) = (V c (Pipeline.arrRef spec1 0) : FVec Ideal ⟨2, ![64, 8192]⟩ .f32) (ix2 p q) := by
  obtain ⟨e00, e01, -⟩ := idx_facts1 t
  show iblk1 V c 0 t (ix2 p l) = _
  unfold iblk1
  rw [View.read_apply]
  show V c (Pipeline.arrRef spec1 0) _ = V c (Pipeline.arrRef spec1 0) _
  congr 1
  funext a
  apply Fin.ext
  match a with
  | ⟨0, _⟩ => show (cfg1.win 0).index t (0 : Fin 2) * 64 + 1 * p.val = p.val; rw [e00]; omega
  | ⟨1, _⟩ => show (cfg1.win 0).index t (1 : Fin 2) * 2048 + 1 * l.val = q.val; rw [e01, hq]; omega

theorem blk_w1 (c : Dev nD) (t : Fin cfg1.N) (j l : Fin 2048) (r q : Fin 8192)
    (hr : r.val = 2048 * (t.val / 4) + j.val) (hq : q.val = 2048 * (t.val % 4) + l.val) :
    wb1 V c t (ix2 j l) = (V c (Pipeline.arrRef spec1 1) : FVec Ideal ⟨2, ![8192, 8192]⟩ .f32) (ix2 r q) := by
  obtain ⟨-, -, e10, e11, -⟩ := idx_facts1 t
  show iblk1 V c 1 t (ix2 j l) = _
  unfold iblk1
  rw [View.read_apply]
  show V c (Pipeline.arrRef spec1 1) _ = V c (Pipeline.arrRef spec1 1) _
  congr 1
  funext a
  apply Fin.ext
  match a with
  | ⟨0, _⟩ => show (cfg1.win 1).index t (0 : Fin 2) * 2048 + 1 * j.val = r.val; rw [e10, hr]; omega
  | ⟨1, _⟩ => show (cfg1.win 1).index t (1 : Fin 2) * 2048 + 1 * l.val = q.val; rw [e11, hq]; omega

theorem blk_b1 (c : Dev nD) (t : Fin cfg1.N) (j : Fin 2048) (r : Fin 8192) (hr : r.val = 2048 * (t.val / 4) + j.val) :
    bb1 V c t (ix2 (0 : Fin 1) j) = (V c (Pipeline.arrRef spec1 2) : FVec Ideal ⟨2, ![1, 8192]⟩ .f32) (ix2 (0 : Fin 1) r) := by
  obtain ⟨-, -, -, -, e20, e21, -⟩ := idx_facts1 t
  show iblk1 V c 2 t (ix2 (0 : Fin 1) j) = _
  unfold iblk1
  rw [View.read_apply]
  show V c (Pipeline.arrRef spec1 2) _ = V c (Pipeline.arrRef spec1 2) _
  congr 1
  funext a
  apply Fin.ext
  match a with
  | ⟨0, _⟩ => show (cfg1.win 2).index t (0 : Fin 2) * 1 + 1 * (0 : Fin 1).val = (0 : Fin 1).val; rw [e20]; rfl
  | ⟨1, _⟩ => show (cfg1.win 2).index t (1 : Fin 2) * 2048 + 1 * j.val = r.val; rw [e21, hr]; omega

/-- The block a tile's last k-step writes back is that tile's block of the linear layer of the three arrays. -/
theorem flushed1_eq (c : Dev nD) (t : Fin cfg1.N) (hf : (cfg1.win 3).flush t = true) :
    (dat1 V c).flushed 3 t = ((cfg1.win 3).blk t).view.read (Elt Ideal)
      (Cert.Spec.lin (V c (Pipeline.arrRef spec1 0)) (V c (Pipeline.arrRef spec1 1)) (V c (Pipeline.arrRef spec1 2))) := by
  have h3 : t.val % 4 = 3 := (flush1_3 t).mp hf
  have hN : cfg1.N = 16 := N_1
  have htl := t.isLt
  obtain ⟨-, -, -, -, -, -, e30, e31⟩ := idx_facts1 t
  show (cfg1.win 3).cut (cfg1.grid.coords t) ((dat1 V c).after 3 t) = _
  rw [after1_3]
  funext y
  obtain ⟨p, j, rfl⟩ : ∃ (p : Fin 64) (j : Fin 2048), y = ix2 p j := ⟨y 0, y 1, eq_ix2 y⟩
  have hrlt : 2048 * (t.val / 4) + j.val < 8192 := by have := j.isLt; omega
  rw [View.read_apply]
  show out1 V c t (ix2 p j)
    = Cert.Spec.lin (V c (Pipeline.arrRef spec1 0)) (V c (Pipeline.arrRef spec1 1)) (V c (Pipeline.arrRef spec1 2))
        (((cfg1.win 3).blk t).view.emb (ix2 p j))
  have hemb : ((cfg1.win 3).blk t).view.emb (ix2 p j)
      = (ix2 p ⟨2048 * (t.val / 4) + j.val, hrlt⟩ : (⟨2, ![64, 8192]⟩ : Shape).Idx) := by
    funext a
    apply Fin.ext
    match a with
    | ⟨0, _⟩ => show (cfg1.win 3).index t (0 : Fin 2) * 64 + 1 * p.val = p.val; rw [e30]; omega
    | ⟨1, _⟩ => show (cfg1.win 3).index t (1 : Fin 2) * 2048 + 1 * j.val = 2048 * (t.val / 4) + j.val; rw [e31]; omega
  refine Eq.trans ?_ (congrArg (Cert.Spec.lin (V c (Pipeline.arrRef spec1 0)) (V c (Pipeline.arrRef spec1 1))
    (V c (Pipeline.arrRef spec1 2))) hemb.symm)
  exact stored_apply (xb1 V c) (wb1 V c) _ _ (blk_x1 V c) (blk_w1 V c) t h3 (bb1 V c t) _ (blk_b1 V c t) p j hrlt

/-- Every entry of the output array lies in the block some tile's last k-step writes back: column q in tile q / 2048. -/
theorem cover1 (i : (⟨2, ![64, 8192]⟩ : Shape).Idx) :
    ∃ t : Fin cfg1.N, (cfg1.win 3).flush t = true ∧ i ∈ ((cfg1.win 3).blk t).view.set := by
  have h0 : (i 0).val < 64 := (i 0).isLt
  have h1 : (i 1).val < 8192 := (i 1).isLt
  have hN : cfg1.N = 16 := N_1
  obtain ⟨t, ht⟩ : ∃ t : Fin cfg1.N, t.val = 4 * ((i 1).val / 2048) + 3 := ⟨⟨_, by omega⟩, rfl⟩
  refine ⟨t, (flush1_3 t).mpr (by omega), ?_⟩
  obtain ⟨-, -, -, -, -, -, e30, e31⟩ := idx_facts1 t
  show i ∈ ((View.whole (Pipeline.arrRef spec1 3)).slice ((cfg1.win 3).rect t)).set
  rw [View.set_slice_whole, Rect.mem_set_unit]
  intro a
  match a with
  | ⟨0, _⟩ =>
    show (cfg1.win 3).index t (0 : Fin 2) * 64 ≤ (i 0).val ∧ (i 0).val < (cfg1.win 3).index t (0 : Fin 2) * 64 + 64
    rw [e30]; omega
  | ⟨1, _⟩ =>
    show (cfg1.win 3).index t (1 : Fin 2) * 2048 ≤ (i 1).val ∧ (i 1).val < (cfg1.win 3).index t (1 : Fin 2) * 2048 + 2048
    rw [e31]; omega

/-- After the launch the output array holds the linear layer of the three arrays the launch found. -/
theorem arrAt1_eq (c : Dev nD) :
    (dat1 (F := Ideal) V c).arrAt 3 cfg1.N
      = Cert.Spec.lin (V c (Pipeline.arrRef spec1 0)) (V c (Pipeline.arrRef spec1 1)) (V c (Pipeline.arrRef spec1 2)) :=
  (dat1 V c).arrAt_eq_of_cover 3 _ (flushed1_eq V c) cover1

end Cert.KernelIdeal.Hand

end
-- ==== Proof.KI.R2Value.lean ====
import proofs.«104095_j8426725835121_1_alg».proof.Proof.KI.R2Defs
import proofs.«104095_j8426725835121_1_alg».proof.Proof.KI.TileValue

set_option maxRecDepth 16384

open scoped BigOperators

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- At point t the activations' block is column block t mod 4, the weights' block is row block t / 4 and column block
    t mod 4, the bias's and the output's blocks are column block t / 4. -/
theorem idx_facts2 : ∀ t : Fin cfg2.N,
    (cfg2.win 0).index t (0 : Fin 2) = 0 ∧ (cfg2.win 0).index t (1 : Fin 2) = t.val % 4
    ∧ (cfg2.win 1).index t (0 : Fin 2) = t.val / 4 ∧ (cfg2.win 1).index t (1 : Fin 2) = t.val % 4
    ∧ (cfg2.win 2).index t (0 : Fin 2) = 0 ∧ (cfg2.win 2).index t (1 : Fin 2) = t.val / 4
    ∧ (cfg2.win 3).index t (0 : Fin 2) = 0 ∧ (cfg2.win 3).index t (1 : Fin 2) = t.val / 4 := by decide +kernel

theorem blk_x2 (c : Dev nD) (t : Fin cfg2.N) (p : Fin 64) (l : Fin 2048) (q : Fin 8192)
    (hq : q.val = 2048 * (t.val % 4) + l.val) :
    xb2 V c t (ix2 p l) = (V c (Pipeline.arrRef spec2 0) : FVec Ideal ⟨2, ![64, 8192]⟩ .f32) (ix2 p q) := by
  obtain ⟨e00, e01, -⟩ := idx_facts2 t
  show iblk2 V c 0 t (ix2 p l) = _
  unfold iblk2
  rw [View.read_apply]
  show V c (Pipeline.arrRef spec2 0) _ = V c (Pipeline.arrRef spec2 0) _
  congr 1
  funext a
  apply Fin.ext
  match a with
  | ⟨0, _⟩ => show (cfg2.win 0).index t (0 : Fin 2) * 64 + 1 * p.val = p.val; rw [e00]; omega
  | ⟨1, _⟩ => show (cfg2.win 0).index t (1 : Fin 2) * 2048 + 1 * l.val = q.val; rw [e01, hq]; omega

theorem blk_w2 (c : Dev nD) (t : Fin cfg2.N) (j l : Fin 2048) (r q : Fin 8192)
    (hr : r.val = 2048 * (t.val / 4) + j.val) (hq : q.val = 2048 * (t.val % 4) + l.val) :
    wb2 V c t (ix2 j l) = (V c (Pipeline.arrRef spec2 1) : FVec Ideal ⟨2, ![8192, 8192]⟩ .f32) (ix2 r q) := by
  obtain ⟨-, -, e10, e11, -⟩ := idx_facts2 t
  show iblk2 V c 1 t (ix2 j l) = _
  unfold iblk2
  rw [View.read_apply]
  show V c (Pipeline.arrRef spec2 1) _ = V c (Pipeline.arrRef spec2 1) _
  congr 1
  funext a
  apply Fin.ext
  match a with
  | ⟨0, _⟩ => show (cfg2.win 1).index t (0 : Fin 2) * 2048 + 1 * j.val = r.val; rw [e10, hr]; omega
  | ⟨1, _⟩ => show (cfg2.win 1).index t (1 : Fin 2) * 2048 + 1 * l.val = q.val; rw [e11, hq]; omega

theorem blk_b2 (c : Dev nD) (t : Fin cfg2.N) (j : Fin 2048) (r : Fin 8192) (hr : r.val = 2048 * (t.val / 4) + j.val) :
    bb2 V c t (ix2 (0 : Fin 1) j) = (V c (Pipeline.arrRef spec2 2) : FVec Ideal ⟨2, ![1, 8192]⟩ .f32) (ix2 (0 : Fin 1) r) := by
  obtain ⟨-, -, -, -, e20, e21, -⟩ := idx_facts2 t
  show iblk2 V c 2 t (ix2 (0 : Fin 1) j) = _
  unfold iblk2
  rw [View.read_apply]
  show V c (Pipeline.arrRef spec2 2) _ = V c (Pipeline.arrRef spec2 2) _
  congr 1
  funext a
  apply Fin.ext
  match a with
  | ⟨0, _⟩ => show (cfg2.win 2).index t (0 : Fin 2) * 1 + 1 * (0 : Fin 1).val = (0 : Fin 1).val; rw [e20]; rfl
  | ⟨1, _⟩ => show (cfg2.win 2).index t (1 : Fin 2) * 2048 + 1 * j.val = r.val; rw [e21, hr]; omega

/-- The block a tile's last k-step writes back is that tile's block of the linear layer of the three arrays. -/
theorem flushed2_eq (c : Dev nD) (t : Fin cfg2.N) (hf : (cfg2.win 3).flush t = true) :
    (dat2 V c).flushed 3 t = ((cfg2.win 3).blk t).view.read (Elt Ideal)
      (Cert.Spec.lin (V c (Pipeline.arrRef spec2 0)) (V c (Pipeline.arrRef spec2 1)) (V c (Pipeline.arrRef spec2 2))) := by
  have h3 : t.val % 4 = 3 := (flush2_3 t).mp hf
  have hN : cfg2.N = 16 := N_2
  have htl := t.isLt
  obtain ⟨-, -, -, -, -, -, e30, e31⟩ := idx_facts2 t
  show (cfg2.win 3).cut (cfg2.grid.coords t) ((dat2 V c).after 3 t) = _
  rw [after2_3]
  funext y
  obtain ⟨p, j, rfl⟩ : ∃ (p : Fin 64) (j : Fin 2048), y = ix2 p j := ⟨y 0, y 1, eq_ix2 y⟩
  have hrlt : 2048 * (t.val / 4) + j.val < 8192 := by have := j.isLt; omega
  rw [View.read_apply]
  show out2 V c t (ix2 p j)
    = Cert.Spec.lin (V c (Pipeline.arrRef spec2 0)) (V c (Pipeline.arrRef spec2 1)) (V c (Pipeline.arrRef spec2 2))
        (((cfg2.win 3).blk t).view.emb (ix2 p j))
  have hemb : ((cfg2.win 3).blk t).view.emb (ix2 p j)
      = (ix2 p ⟨2048 * (t.val / 4) + j.val, hrlt⟩ : (⟨2, ![64, 8192]⟩ : Shape).Idx) := by
    funext a
    apply Fin.ext
    match a with
    | ⟨0, _⟩ => show (cfg2.win 3).index t (0 : Fin 2) * 64 + 1 * p.val = p.val; rw [e30]; omega
    | ⟨1, _⟩ => show (cfg2.win 3).index t (1 : Fin 2) * 2048 + 1 * j.val = 2048 * (t.val / 4) + j.val; rw [e31]; omega
  refine Eq.trans ?_ (congrArg (Cert.Spec.lin (V c (Pipeline.arrRef spec2 0)) (V c (Pipeline.arrRef spec2 1))
    (V c (Pipeline.arrRef spec2 2))) hemb.symm)
  exact stored_apply (xb2 V c) (wb2 V c) _ _ (blk_x2 V c) (blk_w2 V c) t h3 (bb2 V c t) _ (blk_b2 V c t) p j hrlt

/-- Every entry of the output array lies in the block some tile's last k-step writes back: column q in tile q / 2048. -/
theorem cover2 (i : (⟨2, ![64, 8192]⟩ : Shape).Idx) :
    ∃ t : Fin cfg2.N, (cfg2.win 3).flush t = true ∧ i ∈ ((cfg2.win 3).blk t).view.set := by
  have h0 : (i 0).val < 64 := (i 0).isLt
  have h1 : (i 1).val < 8192 := (i 1).isLt
  have hN : cfg2.N = 16 := N_2
  obtain ⟨t, ht⟩ : ∃ t : Fin cfg2.N, t.val = 4 * ((i 1).val / 2048) + 3 := ⟨⟨_, by omega⟩, rfl⟩
  refine ⟨t, (flush2_3 t).mpr (by omega), ?_⟩
  obtain ⟨-, -, -, -, -, -, e30, e31⟩ := idx_facts2 t
  show i ∈ ((View.whole (Pipeline.arrRef spec2 3)).slice ((cfg2.win 3).rect t)).set
  rw [View.set_slice_whole, Rect.mem_set_unit]
  intro a
  match a with
  | ⟨0, _⟩ =>
    show (cfg2.win 3).index t (0 : Fin 2) * 64 ≤ (i 0).val ∧ (i 0).val < (cfg2.win 3).index t (0 : Fin 2) * 64 + 64
    rw [e30]; omega
  | ⟨1, _⟩ =>
    show (cfg2.win 3).index t (1 : Fin 2) * 2048 ≤ (i 1).val ∧ (i 1).val < (cfg2.win 3).index t (1 : Fin 2) * 2048 + 2048
    rw [e31]; omega

/-- After the launch the output array holds the linear layer of the three arrays the launch found. -/
theorem arrAt2_eq (c : Dev nD) :
    (dat2 (F := Ideal) V c).arrAt 3 cfg2.N
      = Cert.Spec.lin (V c (Pipeline.arrRef spec2 0)) (V c (Pipeline.arrRef spec2 1)) (V c (Pipeline.arrRef spec2 2)) :=
  (dat2 V c).arrAt_eq_of_cover 3 _ (flushed2_eq V c) cover2

end Cert.KernelIdeal.Hand

end
-- ==== Proof.KI.R3Value.lean ====
import proofs.«104095_j8426725835121_1_alg».proof.Proof.KI.R3Defs
import proofs.«104095_j8426725835121_1_alg».proof.Proof.KI.TileValue

set_option maxRecDepth 16384

open scoped BigOperators

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- At point t the activations' block is column block t mod 4, the weights' block is row block t / 4 and column block
    t mod 4, the bias's and the output's blocks are column block t / 4. -/
theorem idx_facts3 : ∀ t : Fin cfg3.N,
    (cfg3.win 0).index t (0 : Fin 2) = 0 ∧ (cfg3.win 0).index t (1 : Fin 2) = t.val % 4
    ∧ (cfg3.win 1).index t (0 : Fin 2) = t.val / 4 ∧ (cfg3.win 1).index t (1 : Fin 2) = t.val % 4
    ∧ (cfg3.win 2).index t (0 : Fin 2) = 0 ∧ (cfg3.win 2).index t (1 : Fin 2) = t.val / 4
    ∧ (cfg3.win 3).index t (0 : Fin 2) = 0 ∧ (cfg3.win 3).index t (1 : Fin 2) = t.val / 4 := by decide +kernel

theorem blk_x3 (c : Dev nD) (t : Fin cfg3.N) (p : Fin 64) (l : Fin 2048) (q : Fin 8192)
    (hq : q.val = 2048 * (t.val % 4) + l.val) :
    xb3 V c t (ix2 p l) = (V c (Pipeline.arrRef spec3 0) : FVec Ideal ⟨2, ![64, 8192]⟩ .f32) (ix2 p q) := by
  obtain ⟨e00, e01, -⟩ := idx_facts3 t
  show iblk3 V c 0 t (ix2 p l) = _
  unfold iblk3
  rw [View.read_apply]
  show V c (Pipeline.arrRef spec3 0) _ = V c (Pipeline.arrRef spec3 0) _
  congr 1
  funext a
  apply Fin.ext
  match a with
  | ⟨0, _⟩ => show (cfg3.win 0).index t (0 : Fin 2) * 64 + 1 * p.val = p.val; rw [e00]; omega
  | ⟨1, _⟩ => show (cfg3.win 0).index t (1 : Fin 2) * 2048 + 1 * l.val = q.val; rw [e01, hq]; omega

theorem blk_w3 (c : Dev nD) (t : Fin cfg3.N) (j l : Fin 2048) (r q : Fin 8192)
    (hr : r.val = 2048 * (t.val / 4) + j.val) (hq : q.val = 2048 * (t.val % 4) + l.val) :
    wb3 V c t (ix2 j l) = (V c (Pipeline.arrRef spec3 1) : FVec Ideal ⟨2, ![8192, 8192]⟩ .f32) (ix2 r q) := by
  obtain ⟨-, -, e10, e11, -⟩ := idx_facts3 t
  show iblk3 V c 1 t (ix2 j l) = _
  unfold iblk3
  rw [View.read_apply]
  show V c (Pipeline.arrRef spec3 1) _ = V c (Pipeline.arrRef spec3 1) _
  congr 1
  funext a
  apply Fin.ext
  match a with
  | ⟨0, _⟩ => show (cfg3.win 1).index t (0 : Fin 2) * 2048 + 1 * j.val = r.val; rw [e10, hr]; omega
  | ⟨1, _⟩ => show (cfg3.win 1).index t (1 : Fin 2) * 2048 + 1 * l.val = q.val; rw [e11, hq]; omega

theorem blk_b3 (c : Dev nD) (t : Fin cfg3.N) (j : Fin 2048) (r : Fin 8192) (hr : r.val = 2048 * (t.val / 4) + j.val) :
    bb3 V c t (ix2 (0 : Fin 1) j) = (V c (Pipeline.arrRef spec3 2) : FVec Ideal ⟨2, ![1, 8192]⟩ .f32) (ix2 (0 : Fin 1) r) := by
  obtain ⟨-, -, -, -, e20, e21, -⟩ := idx_facts3 t
  show iblk3 V c 2 t (ix2 (0 : Fin 1) j) = _
  unfold iblk3
  rw [View.read_apply]
  show V c (Pipeline.arrRef spec3 2) _ = V c (Pipeline.arrRef spec3 2) _
  congr 1
  funext a
  apply Fin.ext
  match a with
  | ⟨0, _⟩ => show (cfg3.win 2).index t (0 : Fin 2) * 1 + 1 * (0 : Fin 1).val = (0 : Fin 1).val; rw [e20]; rfl
  | ⟨1, _⟩ => show (cfg3.win 2).index t (1 : Fin 2) * 2048 + 1 * j.val = r.val; rw [e21, hr]; omega

/-- The block a tile's last k-step writes back is that tile's block of the linear layer of the three arrays. -/
theorem flushed3_eq (c : Dev nD) (t : Fin cfg3.N) (hf : (cfg3.win 3).flush t = true) :
    (dat3 V c).flushed 3 t = ((cfg3.win 3).blk t).view.read (Elt Ideal)
      (Cert.Spec.lin (V c (Pipeline.arrRef spec3 0)) (V c (Pipeline.arrRef spec3 1)) (V c (Pipeline.arrRef spec3 2))) := by
  have h3 : t.val % 4 = 3 := (flush3_3 t).mp hf
  have hN : cfg3.N = 16 := N_3
  have htl := t.isLt
  obtain ⟨-, -, -, -, -, -, e30, e31⟩ := idx_facts3 t
  show (cfg3.win 3).cut (cfg3.grid.coords t) ((dat3 V c).after 3 t) = _
  rw [after3_3]
  funext y
  obtain ⟨p, j, rfl⟩ : ∃ (p : Fin 64) (j : Fin 2048), y = ix2 p j := ⟨y 0, y 1, eq_ix2 y⟩
  have hrlt : 2048 * (t.val / 4) + j.val < 8192 := by have := j.isLt; omega
  rw [View.read_apply]
  show out3 V c t (ix2 p j)
    = Cert.Spec.lin (V c (Pipeline.arrRef spec3 0)) (V c (Pipeline.arrRef spec3 1)) (V c (Pipeline.arrRef spec3 2))
        (((cfg3.win 3).blk t).view.emb (ix2 p j))
  have hemb : ((cfg3.win 3).blk t).view.emb (ix2 p j)
      = (ix2 p ⟨2048 * (t.val / 4) + j.val, hrlt⟩ : (⟨2, ![64, 8192]⟩ : Shape).Idx) := by
    funext a
    apply Fin.ext
    match a with
    | ⟨0, _⟩ => show (cfg3.win 3).index t (0 : Fin 2) * 64 + 1 * p.val = p.val; rw [e30]; omega
    | ⟨1, _⟩ => show (cfg3.win 3).index t (1 : Fin 2) * 2048 + 1 * j.val = 2048 * (t.val / 4) + j.val; rw [e31]; omega
  refine Eq.trans ?_ (congrArg (Cert.Spec.lin (V c (Pipeline.arrRef spec3 0)) (V c (Pipeline.arrRef spec3 1))
    (V c (Pipeline.arrRef spec3 2))) hemb.symm)
  exact stored_apply (xb3 V c) (wb3 V c) _ _ (blk_x3 V c) (blk_w3 V c) t h3 (bb3 V c t) _ (blk_b3 V c t) p j hrlt

/-- Every entry of the output array lies in the block some tile's last k-step writes back: column q in tile q / 2048. -/
theorem cover3 (i : (⟨2, ![64, 8192]⟩ : Shape).Idx) :
    ∃ t : Fin cfg3.N, (cfg3.win 3).flush t = true ∧ i ∈ ((cfg3.win 3).blk t).view.set := by
  have h0 : (i 0).val < 64 := (i 0).isLt
  have h1 : (i 1).val < 8192 := (i 1).isLt
  have hN : cfg3.N = 16 := N_3
  obtain ⟨t, ht⟩ : ∃ t : Fin cfg3.N, t.val = 4 * ((i 1).val / 2048) + 3 := ⟨⟨_, by omega⟩, rfl⟩
  refine ⟨t, (flush3_3 t).mpr (by omega), ?_⟩
  obtain ⟨-, -, -, -, -, -, e30, e31⟩ := idx_facts3 t
  show i ∈ ((View.whole (Pipeline.arrRef spec3 3)).slice ((cfg3.win 3).rect t)).set
  rw [View.set_slice_whole, Rect.mem_set_unit]
  intro a
  match a with
  | ⟨0, _⟩ =>
    show (cfg3.win 3).index t (0 : Fin 2) * 64 ≤ (i 0).val ∧ (i 0).val < (cfg3.win 3).index t (0 : Fin 2) * 64 + 64
    rw [e30]; omega
  | ⟨1, _⟩ =>
    show (cfg3.win 3).index t (1 : Fin 2) * 2048 ≤ (i 1).val ∧ (i 1).val < (cfg3.win 3).index t (1 : Fin 2) * 2048 + 2048
    rw [e31]; omega

/-- After the launch the output array holds the linear layer of the three arrays the launch found. -/
theorem arrAt3_eq (c : Dev nD) :
    (dat3 (F := Ideal) V c).arrAt 3 cfg3.N
      = Cert.Spec.lin (V c (Pipeline.arrRef spec3 0)) (V c (Pipeline.arrRef spec3 1)) (V c (Pipeline.arrRef spec3 2)) :=
  (dat3 V c).arrAt_eq_of_cover 3 _ (flushed3_eq V c) cover3

end Cert.KernelIdeal.Hand

end
-- ==== Proof.KI.R4Value.lean ====
import proofs.«104095_j8426725835121_1_alg».proof.Proof.KI.R4Defs
import proofs.«104095_j8426725835121_1_alg».proof.Proof.KI.TileValue

set_option maxRecDepth 16384

open scoped BigOperators

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- At point t the activations' block is column block t mod 4, the weights' block is row block t / 4 and column block
    t mod 4, the bias's and the output's blocks are column block t / 4. -/
theorem idx_facts4 : ∀ t : Fin cfg4.N,
    (cfg4.win 0).index t (0 : Fin 2) = 0 ∧ (cfg4.win 0).index t (1 : Fin 2) = t.val % 4
    ∧ (cfg4.win 1).index t (0 : Fin 2) = t.val / 4 ∧ (cfg4.win 1).index t (1 : Fin 2) = t.val % 4
    ∧ (cfg4.win 2).index t (0 : Fin 2) = 0 ∧ (cfg4.win 2).index t (1 : Fin 2) = t.val / 4
    ∧ (cfg4.win 3).index t (0 : Fin 2) = 0 ∧ (cfg4.win 3).index t (1 : Fin 2) = t.val / 4 := by decide +kernel

theorem blk_x4 (c : Dev nD) (t : Fin cfg4.N) (p : Fin 64) (l : Fin 2048) (q : Fin 8192)
    (hq : q.val = 2048 * (t.val % 4) + l.val) :
    xb4 V c t (ix2 p l) = (V c (Pipeline.arrRef spec4 0) : FVec Ideal ⟨2, ![64, 8192]⟩ .f32) (ix2 p q) := by
  obtain ⟨e00, e01, -⟩ := idx_facts4 t
  show iblk4 V c 0 t (ix2 p l) = _
  unfold iblk4
  rw [View.read_apply]
  show V c (Pipeline.arrRef spec4 0) _ = V c (Pipeline.arrRef spec4 0) _
  congr 1
  funext a
  apply Fin.ext
  match a with
  | ⟨0, _⟩ => show (cfg4.win 0).index t (0 : Fin 2) * 64 + 1 * p.val = p.val; rw [e00]; omega
  | ⟨1, _⟩ => show (cfg4.win 0).index t (1 : Fin 2) * 2048 + 1 * l.val = q.val; rw [e01, hq]; omega

theorem blk_w4 (c : Dev nD) (t : Fin cfg4.N) (j l : Fin 2048) (r q : Fin 8192)
    (hr : r.val = 2048 * (t.val / 4) + j.val) (hq : q.val = 2048 * (t.val % 4) + l.val) :
    wb4 V c t (ix2 j l) = (V c (Pipeline.arrRef spec4 1) : FVec Ideal ⟨2, ![8192, 8192]⟩ .f32) (ix2 r q) := by
  obtain ⟨-, -, e10, e11, -⟩ := idx_facts4 t
  show iblk4 V c 1 t (ix2 j l) = _
  unfold iblk4
  rw [View.read_apply]
  show V c (Pipeline.arrRef spec4 1) _ = V c (Pipeline.arrRef spec4 1) _
  congr 1
  funext a
  apply Fin.ext
  match a with
  | ⟨0, _⟩ => show (cfg4.win 1).index t (0 : Fin 2) * 2048 + 1 * j.val = r.val; rw [e10, hr]; omega
  | ⟨1, _⟩ => show (cfg4.win 1).index t (1 : Fin 2) * 2048 + 1 * l.val = q.val; rw [e11, hq]; omega

theorem blk_b4 (c : Dev nD) (t : Fin cfg4.N) (j : Fin 2048) (r : Fin 8192) (hr : r.val = 2048 * (t.val / 4) + j.val) :
    bb4 V c t (ix2 (0 : Fin 1) j) = (V c (Pipeline.arrRef spec4 2) : FVec Ideal ⟨2, ![1, 8192]⟩ .f32) (ix2 (0 : Fin 1) r) := by
  obtain ⟨-, -, -, -, e20, e21, -⟩ := idx_facts4 t
  show iblk4 V c 2 t (ix2 (0 : Fin 1) j) = _
  unfold iblk4
  rw [View.read_apply]
  show V c (Pipeline.arrRef spec4 2) _ = V c (Pipeline.arrRef spec4 2) _
  congr 1
  funext a
  apply Fin.ext
  match a with
  | ⟨0, _⟩ => show (cfg4.win 2).index t (0 : Fin 2) * 1 + 1 * (0 : Fin 1).val = (0 : Fin 1).val; rw [e20]; rfl
  | ⟨1, _⟩ => show (cfg4.win 2).index t (1 : Fin 2) * 2048 + 1 * j.val = r.val; rw [e21, hr]; omega

/-- The block a tile's last k-step writes back is that tile's block of the linear layer of the three arrays. -/
theorem flushed4_eq (c : Dev nD) (t : Fin cfg4.N) (hf : (cfg4.win 3).flush t = true) :
    (dat4 V c).flushed 3 t = ((cfg4.win 3).blk t).view.read (Elt Ideal)
      (Cert.Spec.lin (V c (Pipeline.arrRef spec4 0)) (V c (Pipeline.arrRef spec4 1)) (V c (Pipeline.arrRef spec4 2))) := by
  have h3 : t.val % 4 = 3 := (flush4_3 t).mp hf
  have hN : cfg4.N = 16 := N_4
  have htl := t.isLt
  obtain ⟨-, -, -, -, -, -, e30, e31⟩ := idx_facts4 t
  show (cfg4.win 3).cut (cfg4.grid.coords t) ((dat4 V c).after 3 t) = _
  rw [after4_3]
  funext y
  obtain ⟨p, j, rfl⟩ : ∃ (p : Fin 64) (j : Fin 2048), y = ix2 p j := ⟨y 0, y 1, eq_ix2 y⟩
  have hrlt : 2048 * (t.val / 4) + j.val < 8192 := by have := j.isLt; omega
  rw [View.read_apply]
  show out4 V c t (ix2 p j)
    = Cert.Spec.lin (V c (Pipeline.arrRef spec4 0)) (V c (Pipeline.arrRef spec4 1)) (V c (Pipeline.arrRef spec4 2))
        (((cfg4.win 3).blk t).view.emb (ix2 p j))
  have hemb : ((cfg4.win 3).blk t).view.emb (ix2 p j)
      = (ix2 p ⟨2048 * (t.val / 4) + j.val, hrlt⟩ : (⟨2, ![64, 8192]⟩ : Shape).Idx) := by
    funext a
    apply Fin.ext
    match a with
    | ⟨0, _⟩ => show (cfg4.win 3).index t (0 : Fin 2) * 64 + 1 * p.val = p.val; rw [e30]; omega
    | ⟨1, _⟩ => show (cfg4.win 3).index t (1 : Fin 2) * 2048 + 1 * j.val = 2048 * (t.val / 4) + j.val; rw [e31]; omega
  refine Eq.trans ?_ (congrArg (Cert.Spec.lin (V c (Pipeline.arrRef spec4 0)) (V c (Pipeline.arrRef spec4 1))
    (V c (Pipeline.arrRef spec4 2))) hemb.symm)
  exact stored_apply (xb4 V c) (wb4 V c) _ _ (blk_x4 V c) (blk_w4 V c) t h3 (bb4 V c t) _ (blk_b4 V c t) p j hrlt

/-- Every entry of the output array lies in the block some tile's last k-step writes back: column q in tile q / 2048. -/
theorem cover4 (i : (⟨2, ![64, 8192]⟩ : Shape).Idx) :
    ∃ t : Fin cfg4.N, (cfg4.win 3).flush t = true ∧ i ∈ ((cfg4.win 3).blk t).view.set := by
  have h0 : (i 0).val < 64 := (i 0).isLt
  have h1 : (i 1).val < 8192 := (i 1).isLt
  have hN : cfg4.N = 16 := N_4
  obtain ⟨t, ht⟩ : ∃ t : Fin cfg4.N, t.val = 4 * ((i 1).val / 2048) + 3 := ⟨⟨_, by omega⟩, rfl⟩
  refine ⟨t, (flush4_3 t).mpr (by omega), ?_⟩
  obtain ⟨-, -, -, -, -, -, e30, e31⟩ := idx_facts4 t
  show i ∈ ((View.whole (Pipeline.arrRef spec4 3)).slice ((cfg4.win 3).rect t)).set
  rw [View.set_slice_whole, Rect.mem_set_unit]
  intro a
  match a with
  | ⟨0, _⟩ =>
    show (cfg4.win 3).index t (0 : Fin 2) * 64 ≤ (i 0).val ∧ (i 0).val < (cfg4.win 3).index t (0 : Fin 2) * 64 + 64
    rw [e30]; omega
  | ⟨1, _⟩ =>
    show (cfg4.win 3).index t (1 : Fin 2) * 2048 ≤ (i 1).val ∧ (i 1).val < (cfg4.win 3).index t (1 : Fin 2) * 2048 + 2048
    rw [e31]; omega

/-- After the launch the output array holds the linear layer of the three arrays the launch found. -/
theorem arrAt4_eq (c : Dev nD) :
    (dat4 (F := Ideal) V c).arrAt 3 cfg4.N
      = Cert.Spec.lin (V c (Pipeline.arrRef spec4 0)) (V c (Pipeline.arrRef spec4 1)) (V c (Pipeline.arrRef spec4 2)) :=
  (dat4 V c).arrAt_eq_of_cover 3 _ (flushed4_eq V c) cover4

end Cert.KernelIdeal.Hand

end
-- ==== Proof.KI.R5Value.lean ====
import proofs.«104095_j8426725835121_1_alg».proof.Proof.KI.R5Defs
import proofs.«104095_j8426725835121_1_alg».proof.Proof.KI.TileValue

set_option maxRecDepth 16384

open scoped BigOperators

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- At point t the activations' block is column block t mod 4, the weights' block is row block t / 4 and column block
    t mod 4, the bias's and the output's blocks are column block t / 4. -/
theorem idx_facts5 : ∀ t : Fin cfg5.N,
    (cfg5.win 0).index t (0 : Fin 2) = 0 ∧ (cfg5.win 0).index t (1 : Fin 2) = t.val % 4
    ∧ (cfg5.win 1).index t (0 : Fin 2) = t.val / 4 ∧ (cfg5.win 1).index t (1 : Fin 2) = t.val % 4
    ∧ (cfg5.win 2).index t (0 : Fin 2) = 0 ∧ (cfg5.win 2).index t (1 : Fin 2) = t.val / 4
    ∧ (cfg5.win 3).index t (0 : Fin 2) = 0 ∧ (cfg5.win 3).index t (1 : Fin 2) = t.val / 4 := by decide +kernel

theorem blk_x5 (c : Dev nD) (t : Fin cfg5.N) (p : Fin 64) (l : Fin 2048) (q : Fin 8192)
    (hq : q.val = 2048 * (t.val % 4) + l.val) :
    xb5 V c t (ix2 p l) = (V c (Pipeline.arrRef spec5 0) : FVec Ideal ⟨2, ![64, 8192]⟩ .f32) (ix2 p q) := by
  obtain ⟨e00, e01, -⟩ := idx_facts5 t
  show iblk5 V c 0 t (ix2 p l) = _
  unfold iblk5
  rw [View.read_apply]
  show V c (Pipeline.arrRef spec5 0) _ = V c (Pipeline.arrRef spec5 0) _
  congr 1
  funext a
  apply Fin.ext
  match a with
  | ⟨0, _⟩ => show (cfg5.win 0).index t (0 : Fin 2) * 64 + 1 * p.val = p.val; rw [e00]; omega
  | ⟨1, _⟩ => show (cfg5.win 0).index t (1 : Fin 2) * 2048 + 1 * l.val = q.val; rw [e01, hq]; omega

theorem blk_w5 (c : Dev nD) (t : Fin cfg5.N) (j l : Fin 2048) (r q : Fin 8192)
    (hr : r.val = 2048 * (t.val / 4) + j.val) (hq : q.val = 2048 * (t.val % 4) + l.val) :
    wb5 V c t (ix2 j l) = (V c (Pipeline.arrRef spec5 1) : FVec Ideal ⟨2, ![8192, 8192]⟩ .f32) (ix2 r q) := by
  obtain ⟨-, -, e10, e11, -⟩ := idx_facts5 t
  show iblk5 V c 1 t (ix2 j l) = _
  unfold iblk5
  rw [View.read_apply]
  show V c (Pipeline.arrRef spec5 1) _ = V c (Pipeline.arrRef spec5 1) _
  congr 1
  funext a
  apply Fin.ext
  match a with
  | ⟨0, _⟩ => show (cfg5.win 1).index t (0 : Fin 2) * 2048 + 1 * j.val = r.val; rw [e10, hr]; omega
  | ⟨1, _⟩ => show (cfg5.win 1).index t (1 : Fin 2) * 2048 + 1 * l.val = q.val; rw [e11, hq]; omega

theorem blk_b5 (c : Dev nD) (t : Fin cfg5.N) (j : Fin 2048) (r : Fin 8192) (hr : r.val = 2048 * (t.val / 4) + j.val) :
    bb5 V c t (ix2 (0 : Fin 1) j) = (V c (Pipeline.arrRef spec5 2) : FVec Ideal ⟨2, ![1, 8192]⟩ .f32) (ix2 (0 : Fin 1) r) := by
  obtain ⟨-, -, -, -, e20, e21, -⟩ := idx_facts5 t
  show iblk5 V c 2 t (ix2 (0 : Fin 1) j) = _
  unfold iblk5
  rw [View.read_apply]
  show V c (Pipeline.arrRef spec5 2) _ = V c (Pipeline.arrRef spec5 2) _
  congr 1
  funext a
  apply Fin.ext
  match a with
  | ⟨0, _⟩ => show (cfg5.win 2).index t (0 : Fin 2) * 1 + 1 * (0 : Fin 1).val = (0 : Fin 1).val; rw [e20]; rfl
  | ⟨1, _⟩ => show (cfg5.win 2).index t (1 : Fin 2) * 2048 + 1 * j.val = r.val; rw [e21, hr]; omega

/-- The block a tile's last k-step writes back is that tile's block of the linear layer of the three arrays. -/
theorem flushed5_eq (c : Dev nD) (t : Fin cfg5.N) (hf : (cfg5.win 3).flush t = true) :
    (dat5 V c).flushed 3 t = ((cfg5.win 3).blk t).view.read (Elt Ideal)
      (Cert.Spec.lin (V c (Pipeline.arrRef spec5 0)) (V c (Pipeline.arrRef spec5 1)) (V c (Pipeline.arrRef spec5 2))) := by
  have h3 : t.val % 4 = 3 := (flush5_3 t).mp hf
  have hN : cfg5.N = 16 := N_5
  have htl := t.isLt
  obtain ⟨-, -, -, -, -, -, e30, e31⟩ := idx_facts5 t
  show (cfg5.win 3).cut (cfg5.grid.coords t) ((dat5 V c).after 3 t) = _
  rw [after5_3]
  funext y
  obtain ⟨p, j, rfl⟩ : ∃ (p : Fin 64) (j : Fin 2048), y = ix2 p j := ⟨y 0, y 1, eq_ix2 y⟩
  have hrlt : 2048 * (t.val / 4) + j.val < 8192 := by have := j.isLt; omega
  rw [View.read_apply]
  show out5 V c t (ix2 p j)
    = Cert.Spec.lin (V c (Pipeline.arrRef spec5 0)) (V c (Pipeline.arrRef spec5 1)) (V c (Pipeline.arrRef spec5 2))
        (((cfg5.win 3).blk t).view.emb (ix2 p j))
  have hemb : ((cfg5.win 3).blk t).view.emb (ix2 p j)
      = (ix2 p ⟨2048 * (t.val / 4) + j.val, hrlt⟩ : (⟨2, ![64, 8192]⟩ : Shape).Idx) := by
    funext a
    apply Fin.ext
    match a with
    | ⟨0, _⟩ => show (cfg5.win 3).index t (0 : Fin 2) * 64 + 1 * p.val = p.val; rw [e30]; omega
    | ⟨1, _⟩ => show (cfg5.win 3).index t (1 : Fin 2) * 2048 + 1 * j.val = 2048 * (t.val / 4) + j.val; rw [e31]; omega
  refine Eq.trans ?_ (congrArg (Cert.Spec.lin (V c (Pipeline.arrRef spec5 0)) (V c (Pipeline.arrRef spec5 1))
    (V c (Pipeline.arrRef spec5 2))) hemb.symm)
  exact stored_apply (xb5 V c) (wb5 V c) _ _ (blk_x5 V c) (blk_w5 V c) t h3 (bb5 V c t) _ (blk_b5 V c t) p j hrlt

/-- Every entry of the output array lies in the block some tile's last k-step writes back: column q in tile q / 2048. -/
theorem cover5 (i : (⟨2, ![64, 8192]⟩ : Shape).Idx) :
    ∃ t : Fin cfg5.N, (cfg5.win 3).flush t = true ∧ i ∈ ((cfg5.win 3).blk t).view.set := by
  have h0 : (i 0).val < 64 := (i 0).isLt
  have h1 : (i 1).val < 8192 := (i 1).isLt
  have hN : cfg5.N = 16 := N_5
  obtain ⟨t, ht⟩ : ∃ t : Fin cfg5.N, t.val = 4 * ((i 1).val / 2048) + 3 := ⟨⟨_, by omega⟩, rfl⟩
  refine ⟨t, (flush5_3 t).mpr (by omega), ?_⟩
  obtain ⟨-, -, -, -, -, -, e30, e31⟩ := idx_facts5 t
  show i ∈ ((View.whole (Pipeline.arrRef spec5 3)).slice ((cfg5.win 3).rect t)).set
  rw [View.set_slice_whole, Rect.mem_set_unit]
  intro a
  match a with
  | ⟨0, _⟩ =>
    show (cfg5.win 3).index t (0 : Fin 2) * 64 ≤ (i 0).val ∧ (i 0).val < (cfg5.win 3).index t (0 : Fin 2) * 64 + 64
    rw [e30]; omega
  | ⟨1, _⟩ =>
    show (cfg5.win 3).index t (1 : Fin 2) * 2048 ≤ (i 1).val ∧ (i 1).val < (cfg5.win 3).index t (1 : Fin 2) * 2048 + 2048
    rw [e31]; omega

/-- After the launch the output array holds the linear layer of the three arrays the launch found. -/
theorem arrAt5_eq (c : Dev nD) :
    (dat5 (F := Ideal) V c).arrAt 3 cfg5.N
      = Cert.Spec.lin (V c (Pipeline.arrRef spec5 0)) (V c (Pipeline.arrRef spec5 1)) (V c (Pipeline.arrRef spec5 2)) :=
  (dat5 V c).arrAt_eq_of_cover 3 _ (flushed5_eq V c) cover5

end Cert.KernelIdeal.Hand

end
-- ==== Proof.Ref.Terms.lean ====
-- The reference's result as a composition of named pieces over its own shape records.
import proofs.«104095_j8426725835121_1_alg».proof.ReferenceIdeal

noncomputable section

namespace Cert.ReferenceIdeal.Hand

open Idealize.ShloMosaic Idealize.SL.Sem
open Cert.ReferenceIdeal Cert.ReferenceIdeal.Facts₀ Cert.ReferenceIdeal.Facts

variable {F : FTy → Type} [FloatOps F]
variable [Cert.ReferenceIdeal.Facts]

def idxR (lit : Fin 128 → BitVec 32) : IVec S128x1 32 :=
  broadcastInDim S128x1 ![0] bcast_S128_S128x1_0
    (select (constantI S128 1 0#1)
      (addi (fun i => lit (S128.rowMajor i)) (broadcastInDim S128 ![] bcast_S_S128 (constantI S_ 32 256#32)))
      (fun i => lit (S128.rowMajor i)))

def xsR (x : FVec F S64x256x64 .f32) (lit : Fin 128 → BitVec 32) : FVec F S64x8192 .f32 :=
  shapeCast S64x8192 (Host.gather gather_S64x256x64_S128x1_S64x128x64_02_1_n_n_1_1_64164 x (idxR lit))
    shapeCasts_S64x128x64_S64x8192

def linR (xs : FVec F S64x8192 .f32) (W : FVec F S8192x8192 .f32) (b : FVec F S8192 .f32) : FVec F S64x128x64 .f32 :=
  shapeCast S64x128x64
    (addf
      (Host.dotGeneral dot_S64x8192_S8192x8192_S64x8192_1_0_0_1_n_n none xs
        (transpose S8192x8192 [1, 0] W transposes_S8192x8192_S8192x8192_1_0))
      (broadcastInDim S64x8192 ![0, 1] bcast_S1x8192_S64x8192_0_1
        (broadcastInDim S1x8192 ![1] bcast_S8192_S1x8192_1 b)))
    shapeCasts_S64x8192_S64x128x64

def attnR (Q K V : FVec F S64x128x64 .f32) : FVec F S64x128x64 .f32 :=
  Host.dotGeneral dot_S64x128x128_S64x128x64_S64x128x64_2_1_1_2_0_0 none
    (Host.divf
      (Host.exp (subf
        (Host.dotGeneral dot_S64x128x64_S64x128x64_S64x128x128_2_2_1_1_0_0 none Q K)
        (broadcastInDim S64x128x128 ![0, 1, 2] bcast_S64x1x128_S64x128x128_0_1_2
          (broadcastInDim S64x1x128 ![0, 2] bcast_S64x128_S64x1x128_0_2
            (maximumf (broadcastInDim S64x128 ![] bcast_S_S64x128 (constant (F := F) S_ .f32 0xFF800000#32))
              (Host.reduce FloatOps.maximumf
                (Host.dotGeneral dot_S64x128x64_S64x128x64_S64x128x128_2_2_1_1_0_0 none Q K)
                (constant (F := F) S_ .f32 0xFF800000#32) reducesTo_S64x128x128_S64x128_d1 h_S_))))))
      (broadcastInDim S64x128x128 ![0, 1, 2] bcast_S64x1x128_S64x128x128_0_1_2
        (broadcastInDim S64x1x128 ![0, 2] bcast_S64x128_S64x1x128_0_2
          (Host.reduceAdd
            (Host.exp (subf
              (Host.dotGeneral dot_S64x128x64_S64x128x64_S64x128x128_2_2_1_1_0_0 none Q K)
              (broadcastInDim S64x128x128 ![0, 1, 2] bcast_S64x1x128_S64x128x128_0_1_2
                (broadcastInDim S64x1x128 ![0, 2] bcast_S64x128_S64x1x128_0_2
                  (maximumf (broadcastInDim S64x128 ![] bcast_S_S64x128 (constant (F := F) S_ .f32 0xFF800000#32))
                    (Host.reduce FloatOps.maximumf
                      (Host.dotGeneral dot_S64x128x64_S64x128x64_S64x128x128_2_2_1_1_0_0 none Q K)
                      (constant (F := F) S_ .f32 0xFF800000#32) reducesTo_S64x128x128_S64x128_d1 h_S_))))))
            (constant (F := F) S_ .f32 0x00000000#32) reducesTo_S64x128x128_S64x128_d1 h_S_))))
    V

def scaleR : FVec F S_ .f32 :=
  Host.divf (constant (F := F) S_ .f32 0x3F800000#32) (Host.sqrt (constant (F := F) S_ .f32 0x42800000#32))

def headR (x : FVec F S64x256x64 .f32) (lit : Fin 128 → BitVec 32)
    (WQ : FVec F S8192x8192 .f32) (bQ : FVec F S8192 .f32) (WK : FVec F S8192x8192 .f32) (bK : FVec F S8192 .f32)
    (WV : FVec F S8192x8192 .f32) (bV : FVec F S8192 .f32) : FVec F S64x128x64 .f32 :=
  mulf (attnR (linR (xsR x lit) WQ bQ) (linR (xsR x lit) WK bK) (linR (xsR x lit) WV bV))
    (broadcastInDim S64x128x64 ![] bcast_S_S64x128x64 (scaleR (F := F)))

def refOut (x : FVec F S64x256x64 .f32)
    (WQ0 : FVec F S8192x8192 .f32) (bQ0 : FVec F S8192 .f32) (WK0 : FVec F S8192x8192 .f32) (bK0 : FVec F S8192 .f32)
    (WV0 : FVec F S8192x8192 .f32) (bV0 : FVec F S8192 .f32)
    (WQ1 : FVec F S8192x8192 .f32) (bQ1 : FVec F S8192 .f32) (WK1 : FVec F S8192x8192 .f32) (bK1 : FVec F S8192 .f32)
    (WV1 : FVec F S8192x8192 .f32) (bV1 : FVec F S8192 .f32) : FVec F S64x256x64 .f32 :=
  Host.scatter scatter_S64x256x64_S128x1_S64x128x64_02_1_1_1 (fun _ b => b)
    (Host.scatter scatter_S64x256x64_S128x1_S64x128x64_02_1_1_1 (fun _ b => b)
      (broadcastInDim S64x256x64 ![] bcast_S_S64x256x64 (constant (F := F) S_ .f32 0x00000000#32))
      (idxR lit0) (headR x lit0 WQ0 bQ0 WK0 bK0 WV0 bV0))
    (idxR lit1) (headR x lit1 WQ1 bQ1 WK1 bK1 WV1 bV1)

end Cert.ReferenceIdeal.Hand

end
-- ==== Proof.Bridge.Consts.lean ====
-- The two programs' attention chains are the same operations over records that differ in name only, and 1 / √64 is 0.125.
import proofs.«104095_j8426725835121_1_alg».proof.Proof.KI.Terms
import proofs.«104095_j8426725835121_1_alg».proof.Proof.Ref.Terms
import proofs.«104095_j8426725835121_1_alg».proof.Proof.Spec
import proofs.«104095_j8426725835121_1_alg».proof.Proof.Gen.KernelIdeal
import proofs.«104095_j8426725835121_1_alg».proof.Proof.Gen.ReferenceIdeal
import Idealize.ShloMosaic.PureOps.Ideal

noncomputable section

namespace Cert.Bridge

open Idealize.ShloMosaic

theorem attn_eq {F : FTy → Type} [FloatOps F] (Q K V : FVec F Cert.KernelIdeal.S64x128x64 .f32) :
    Cert.KernelIdeal.Hand.attnK Q K V = Cert.ReferenceIdeal.Hand.attnR Q K V := rfl

theorem ofBits_64 : Ideal.ofBits .f32 0x42800000#32 = ((64 : ℝ) : EReal) := by
  simp [Ideal.ofBits, Ideal.ieee, -EReal.coe_mul]; norm_num

theorem ofBits_1 : Ideal.ofBits .f32 0x3F800000#32 = ((1 : ℝ) : EReal) := by
  simp [Ideal.ofBits, Ideal.ieee, -EReal.coe_mul]; norm_num

theorem ofBits_eighth : Ideal.ofBits .f32 0x3E000000#32 = ((1 / 8 : ℝ) : EReal) := by
  simp [Ideal.ofBits, Ideal.ieee, -EReal.coe_mul]; norm_num

theorem scale_eq : constant (F := Ideal) Cert.KernelIdeal.S_ .f32 0x3E000000#32 = Cert.ReferenceIdeal.Hand.scaleR (F := Ideal) := by
  funext i
  simp only [Cert.ReferenceIdeal.Hand.scaleR, Host.divf, Host.sqrt, constant, Ideal.hostDivf_def, Ideal.hostUnary_sqrt_def, Ideal.ofBits_def,
    ofBits_64, ofBits_1, ofBits_eighth]
  rw [Ideal.sqrt_coe, if_neg (by norm_num), Cert.Spec.sqrt_64, Ideal.div_coe (by norm_num : (8 : ℝ) ≠ 0), ← EReal.coe_mul]
  norm_num

end Cert.Bridge

end
-- ==== Proof.LibPlainMatmul.lean ====
-- A kernel matrix product accumulated into zero, read at an entry: the sum over the contracted axis.
import Idealize.ShloMosaic.Lib.ValueIdx
import Idealize.ShloMosaic.PureOps.Ideal.Laws

open scoped BigOperators

noncomputable section

namespace Idealize.ShloMosaic.PlainMatmul

open Idealize.ShloMosaic Idealize.ShloMosaic.ValueIdx

variable {m k n : Nat} {φ₁ φ₂ : FTy}

def dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

theorem lhsIdx_dims (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have hc := contrEquiv1_symm_val (dims w) k rfl rfl c
  funext ax; apply Fin.ext
  match ax with
  | ⟨0, _⟩ => simp [DotDims.lhsIdx, dims]; rfl
  | ⟨1, _⟩ => simp [DotDims.lhsIdx, dims]; exact hc

theorem rhsIdx_dims (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have hc := contrEquiv1_symm_val (dims w) k rfl rfl c
  funext ax; apply Fin.ext
  match ax with
  | ⟨0, _⟩ => simp [DotDims.rhsIdx, dims]; exact hc
  | ⟨1, _⟩ => simp [DotDims.rhsIdx, dims]; rfl

theorem matmul_zero_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  show FloatOps.matmul (dims w) prec A B (constant ⟨2, ![m, n]⟩ .f32 0x00000000#32) (ix2 a b) = _
  rw [Ideal.matmul_constant_zero_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.LibPlainDot.lean ====
-- A host dot product of an m × k by a k × n matrix, read at an entry: the sum over the contracted axis.
import proofs.«104095_j8426725835121_1_alg».proof.Proof.LibPlainMatmul

open scoped BigOperators

noncomputable section

namespace Idealize.ShloMosaic.PlainMatmul

open Idealize.ShloMosaic Idealize.ShloMosaic.ValueIdx

variable {m k n : Nat} {φ₁ φ₂ : FTy}

theorem dotGeneral_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (sched : HostSchedule) (A : FVec Ideal ⟨2, ![m, k]⟩ φ₁) (B : FVec Ideal ⟨2, ![k, n]⟩ φ₂)
    (a : Fin m) (b : Fin n) :
    FloatOps.dotGeneral d prec sched A B (ix2 a b) = ∑ c : Fin k, A (ix2 a c) * B (ix2 c b) := by
  subst hd
  rw [Ideal.dotGeneral_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.Bridge.Lin.lean ====
-- Each program's linear layer of a head's rows, read at an entry, is y = x Wᵀ + b.
import proofs.«104095_j8426725835121_1_alg».proof.Proof.KI.Terms
import proofs.«104095_j8426725835121_1_alg».proof.Proof.Ref.Terms
import proofs.«104095_j8426725835121_1_alg».proof.Proof.Spec
import proofs.«104095_j8426725835121_1_alg».proof.Proof.LibPlainDot
import proofs.«104095_j8426725835121_1_alg».proof.Proof.Gen.KernelIdeal
import proofs.«104095_j8426725835121_1_alg».proof.Proof.Gen.ReferenceIdeal
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.Bridge

open Idealize.ShloMosaic Idealize.ShloMosaic.ValueIdx

private theorem getElem_single {β : Type} {l : List β} {b : β} (h : l = [b]) (k : Nat) (hk : k < l.length) :
    l[k] = b :=
  List.mem_singleton.1 (h ▸ List.getElem_mem hk)

private theorem getElem_pair {β : Type} {l : List β} {a b : β} (h : l = [a, b]) (i : Nat) (hi : i < l.length) :
    (i = 0 → l[i] = a) ∧ (i = 1 → l[i] = b) := by
  subst h
  constructor
  · intro h0; subst h0; rfl
  · intro h1; subst h1; rfl

theorem gather_mid {α : Type} {A N E n w : Nat} (d : GatherDims ⟨3, ![A, N, E]⟩ ⟨2, ![n, 1]⟩ ⟨3, ![A, n, E]⟩)
    (hoff : d.offsetDims = [0, 2]) (hcoll : d.collapsedSliceDims = [1]) (hob : d.operandBatchingDims = [])
    (hsim : d.startIndexMap = [1]) (hivd : d.indexVectorDim = 1) (hss : d.sliceSizes = ![A, 1, E])
    (x : (⟨3, ![A, N, E]⟩ : Shape).Idx → α) (idx : IVec ⟨2, ![n, 1]⟩ w) (a : Fin A) (j : Fin n) (e : Fin E) (r : Fin N)
    (hr : r.val = min (idx (ix2 j (0 : Fin 1))).toInt.toNat (N - 1)) :
    Host.gather d x idx (ix3 a j e) = x (ix3 a r e) := by
  have hb : ∀ c : Fin 3, c ∉ d.operandBatchingDims := fun c => by rw [hob]; exact List.not_mem_nil

  have hbd : d.batchDims = [1] := by
    show Shape.kept _ d.offsetDims = [1]
    rw [hoff]
    show (List.finRange 3).filter (fun c : Fin 3 => c ∉ [(0 : Fin 3), 2]) = [1]
    decide

  have hsk : d.sKept = [0, 2] := by
    show Shape.kept _ (d.collapsedSliceDims ++ d.operandBatchingDims) = [0, 2]
    rw [hcoll, hob]
    show (List.finRange 3).filter (fun c : Fin 3 => c ∉ [(1 : Fin 3)] ++ []) = [0, 2]
    decide

  have h1 : (d.operandIdx (ix3 a j e) idx (1 : Fin 3)).val = r.val := by
    have hk : (1 : Fin 3) ∉ d.sKept := by rw [GatherDims.mem_sKept, hcoll]; simp
    have hm : (1 : Fin 3) ∈ d.startIndexMap := by rw [hsim]; exact List.mem_singleton.mpr rfl
    have hsl : d.sliceSizes 1 = 1 := by rw [hss]; rfl
    show d.start (ix3 a j e) idx 1 + d.batchCoord (ix3 a j e) 1 + d.offCoord (ix3 a j e) 1 = r.val
    rw [GatherDims.batchCoord_eq_zero _ _ _ (hb 1), GatherDims.offCoord_eq_zero _ _ _ hk, Nat.add_zero, hr]
    unfold GatherDims.start
    rw [dif_pos hm]
    show min (idx _).toInt.toNat (N - d.sliceSizes 1) = min (idx (ix2 j (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have he : ∀ X : Fin 3, X = 1 → ((ix3 a j e : (⟨3, ![A, n, E]⟩ : Shape).Idx) X).val = j.val := fun X hX => by subst hX; rfl
      exact he _ (getElem_single hbd _ _)
    | ⟨1, _⟩ =>
      unfold GatherDims.siIdx
      rw [dif_pos (by rw [hivd])]
      apply Fin.ext
      show List.idxOf (1 : Fin 3) d.startIndexMap = 0
      rw [hsim]; simp

  have h0 : (d.operandIdx (ix3 a j e) idx (0 : Fin 3)).val = a.val := by
    have hk : (0 : Fin 3) ∈ d.sKept := by rw [GatherDims.mem_sKept, hcoll, hob]; simp
    have hm : (0 : Fin 3) ∉ d.startIndexMap := by rw [hsim]; simp
    show d.start (ix3 a j e) idx 0 + d.batchCoord (ix3 a j e) 0 + d.offCoord (ix3 a j e) 0 = a.val
    rw [GatherDims.batchCoord_eq_zero _ _ _ (hb 0), Nat.add_zero]
    unfold GatherDims.start GatherDims.offCoord
    rw [dif_neg hm, dif_pos hk, Nat.zero_add]
    have hj : ∀ X : Fin 3, X = 0 → ((ix3 a j e : (⟨3, ![A, n, E]⟩ : Shape).Idx) X).val = a.val := fun X hX => by subst hX; rfl
    exact hj _ ((getElem_pair hoff _ _).1 (by rw [hsk]; rfl))
  have h2 : (d.operandIdx (ix3 a j e) idx (2 : Fin 3)).val = e.val := by
    have hk : (2 : Fin 3) ∈ d.sKept := by rw [GatherDims.mem_sKept, hcoll, hob]; simp
    have hm : (2 : Fin 3) ∉ d.startIndexMap := by rw [hsim]; simp
    show d.start (ix3 a j e) idx 2 + d.batchCoord (ix3 a j e) 2 + d.offCoord (ix3 a j e) 2 = e.val
    rw [GatherDims.batchCoord_eq_zero _ _ _ (hb 2), Nat.add_zero]
    unfold GatherDims.start GatherDims.offCoord
    rw [dif_neg hm, dif_pos hk, Nat.zero_add]
    have hj : ∀ X : Fin 3, X = 2 → ((ix3 a j e : (⟨3, ![A, n, E]⟩ : Shape).Idx) X).val = e.val := fun X hX => by subst hX; rfl
    exact hj _ ((getElem_pair hoff _ _).2 (by rw [hsk]; rfl))
  unfold Host.gather
  congr 1
  funext c
  apply Fin.ext
  match c with
  | ⟨0, _⟩ => exact h0
  | ⟨1, _⟩ => exact h1
  | ⟨2, _⟩ => exact h2

theorem idxR_apply (lit : Fin 128 → BitVec 32) (j : Fin 128) :
    Cert.ReferenceIdeal.Hand.idxR lit (ix2 j (0 : Fin 1)) = lit j := by
  unfold Cert.ReferenceIdeal.Hand.idxR
  rw [broadcastInDim_apply _ _ _ (ix2 j (0 : Fin 1)) (ix1 j) (fun a => by
    match a with
    | ⟨0, _⟩ =>
      show j.val = if (128 : Nat) = 1 then 0 else j.val
      rw [if_neg (by decide)])]
  rw [select_apply]
  show Scalar.select 0#1 _ (lit (Cert.ReferenceIdeal.S128.rowMajor (ix1 j))) = lit j
  rw [select_zero]
  congr 1
  apply Fin.ext
  exact Shape.rowMajor_val_one _

theorem lit0_val : ∀ j : Fin 128, (Cert.ReferenceIdeal.lit0 j).toInt.toNat = j.val := by decide

theorem lit1_val : ∀ j : Fin 128, (Cert.ReferenceIdeal.lit1 j).toInt.toNat = 128 + j.val := by decide

theorem xs_eq0 (x : FVec Ideal Cert.KernelIdeal.S64x256x64 .f32) :
    Cert.ReferenceIdeal.Hand.xsR x Cert.ReferenceIdeal.lit0 = Cert.KernelIdeal.Hand.xsK0 x := by
  unfold Cert.ReferenceIdeal.Hand.xsR Cert.KernelIdeal.Hand.xsK0
  congr 1
  funext i
  obtain ⟨a, j, e, rfl⟩ : ∃ (a : Fin 64) (j : Fin 128) (e : Fin 64), i = ix3 a j e := ⟨i 0, i 1, i 2, eq_ix3 i⟩
  have hj := j.isLt
  rw [gather_mid _ rfl rfl rfl rfl rfl rfl x _ a j e ⟨0 + j.val, by omega⟩ (by
    rw [idxR_apply, lit0_val]
    show 0 + j.val = min j.val (256 - 1)
    omega)]
  exact (slice3_axis1_apply 0 x _ a j e ⟨0 + j.val, by omega⟩ rfl).symm

theorem xs_eq1 (x : FVec Ideal Cert.KernelIdeal.S64x256x64 .f32) :
    Cert.ReferenceIdeal.Hand.xsR x Cert.ReferenceIdeal.lit1 = Cert.KernelIdeal.Hand.xsK1 x := by
  unfold Cert.ReferenceIdeal.Hand.xsR Cert.KernelIdeal.Hand.xsK1
  congr 1
  funext i
  obtain ⟨a, j, e, rfl⟩ : ∃ (a : Fin 64) (j : Fin 128) (e : Fin 64), i = ix3 a j e := ⟨i 0, i 1, i 2, eq_ix3 i⟩
  have hj := j.isLt
  rw [gather_mid _ rfl rfl rfl rfl rfl rfl x _ a j e ⟨128 + j.val, by omega⟩ (by
    rw [idxR_apply, lit1_val]
    show 128 + j.val = min (128 + j.val) (256 - 1)
    omega)]
  exact (slice3_axis1_apply 128 x _ a j e ⟨128 + j.val, by omega⟩ rfl).symm

theorem lin_eq (xs : FVec Ideal Cert.KernelIdeal.S64x8192 .f32) (W : FVec Ideal Cert.KernelIdeal.S8192x8192 .f32)
    (b : FVec Ideal Cert.KernelIdeal.S8192 .f32) :
    Cert.ReferenceIdeal.Hand.linR xs W b
      = Cert.KernelIdeal.Hand.rs3K (Cert.Spec.lin xs W (Cert.KernelIdeal.Hand.b2K b)) := by
  unfold Cert.ReferenceIdeal.Hand.linR Cert.KernelIdeal.Hand.rs3K
  congr 1
  funext i
  obtain ⟨p, q, rfl⟩ : ∃ (p : Fin 64) (q : Fin 8192), i = ix2 p q := ⟨i 0, i 1, eq_ix2 i⟩
  rw [addf_apply, Cert.Spec.lin_apply]
  congr 1
  ·
    show FloatOps.dotGeneral _ none .single xs _ (ix2 p q) = _
    rw [Idealize.ShloMosaic.PlainMatmul.dotGeneral_apply Cert.ReferenceIdeal.dot_S64x8192_S8192x8192_S64x8192_1_0_0_1_n_n
      Cert.ReferenceIdeal.Gen.dot_S64x8192_S8192x8192_S64x8192_1_0_0_1_n_n_wf rfl]
    refine Finset.sum_congr rfl fun c _ => ?_
    rw [transpose_ix2_apply]
  ·
    unfold Cert.KernelIdeal.Hand.b2K
    rw [broadcastInDim_apply _ _ _ (ix2 p q) (ix2 (0 : Fin 1) q) (fun a => by
      match a with
      | ⟨0, _⟩ => rfl
      | ⟨1, _⟩ =>
        show q.val = if (8192 : Nat) = 1 then 0 else q.val
        rw [if_neg (by decide)])]
    rw [broadcastInDim_apply _ _ _ (ix2 (0 : Fin 1) q) (ix1 q) (fun a => by
      match a with
      | ⟨0, _⟩ =>
        show q.val = if (8192 : Nat) = 1 then 0 else q.val
        rw [if_neg (by decide)])]
    exact (shapeCast_a_1a_apply b _ (0 : Fin 1) q).symm

theorem lin_bridge0 (x : FVec Ideal Cert.KernelIdeal.S64x256x64 .f32) (W : FVec Ideal Cert.KernelIdeal.S8192x8192 .f32)
    (b : FVec Ideal Cert.KernelIdeal.S8192 .f32) :
    Cert.ReferenceIdeal.Hand.linR (Cert.ReferenceIdeal.Hand.xsR x Cert.ReferenceIdeal.lit0) W b
      = Cert.KernelIdeal.Hand.rs3K (Cert.Spec.lin (Cert.KernelIdeal.Hand.xsK0 x) W (Cert.KernelIdeal.Hand.b2K b)) := by
  rw [xs_eq0, lin_eq]

theorem lin_bridge1 (x : FVec Ideal Cert.KernelIdeal.S64x256x64 .f32) (W : FVec Ideal Cert.KernelIdeal.S8192x8192 .f32)
    (b : FVec Ideal Cert.KernelIdeal.S8192 .f32) :
    Cert.ReferenceIdeal.Hand.linR (Cert.ReferenceIdeal.Hand.xsR x Cert.ReferenceIdeal.lit1) W b
      = Cert.KernelIdeal.Hand.rs3K (Cert.Spec.lin (Cert.KernelIdeal.Hand.xsK1 x) W (Cert.KernelIdeal.Hand.b2K b)) := by
  rw [xs_eq1, lin_eq]

end Cert.Bridge

end
-- ==== Proof.LibScatterSet.lean ====
-- An overwriting scatter read at an entry: the update entry that lands there if one does, else the operand's entry.
import Idealize.ShloMosaic.PureOps.ShapeOps

namespace Idealize.ShloMosaic.ScatterSet

open Idealize.ShloMosaic

variable {α : Type} {s si u : Shape} {w : Nat}

def step (d : ScatterDims s si u) (idx : IVec si w) (upd : u.Idx → α) (r : s.Idx → α) (n : Fin u.numel) : s.Idx → α :=
  match d.resultIdx? (u.rowMajor.symm n) idx with
  | some i => fun i' => if i' = i then (fun (_ b : α) => b) (r i) (upd (u.rowMajor.symm n)) else r i'
  | none => r

theorem scatter_eq_foldl (d : ScatterDims s si u) (x : s.Idx → α) (idx : IVec si w) (upd : u.Idx → α) :
    Host.scatter d (fun _ b => b) x idx upd = (List.finRange u.numel).foldl (step d idx upd) x := rfl

theorem step_apply (d : ScatterDims s si u) (idx : IVec si w) (upd : u.Idx → α) (r : s.Idx → α) (n : Fin u.numel)
    (i : s.Idx) :
    step d idx upd r n i = if d.resultIdx? (u.rowMajor.symm n) idx = some i then upd (u.rowMajor.symm n) else r i := by
  unfold step
  cases hres : d.resultIdx? (u.rowMajor.symm n) idx with
  | none => simp
  | some i' =>
    by_cases hi : i = i'
    · subst hi; simp
    · have hne : ¬ (some i' = some i) := fun e => hi (Option.some.inj e).symm
      simp [hi, hne]

theorem foldl_apply_unique (d : ScatterDims s si u) (idx : IVec si w) (upd : u.Idx → α) (i : s.Idx) (n0 : Fin u.numel)
    (h0 : d.resultIdx? (u.rowMajor.symm n0) idx = some i)
    (huniq : ∀ n, d.resultIdx? (u.rowMajor.symm n) idx = some i → n = n0) (l : List (Fin u.numel)) (r : s.Idx → α) :
    (l.foldl (step d idx upd) r) i = if n0 ∈ l then upd (u.rowMajor.symm n0) else r i := by
  induction l generalizing r with
  | nil => simp
  | cons a t ih =>
    rw [List.foldl_cons, ih, step_apply]
    by_cases hmem : n0 ∈ t
    · simp [hmem]
    · rw [if_neg hmem]
      by_cases ha : d.resultIdx? (u.rowMajor.symm a) idx = some i
      · have : a = n0 := huniq a ha
        subst this
        simp [ha]
      · have hne : n0 ≠ a := fun e => ha (e ▸ h0)
        simp [ha, hne, hmem]

theorem foldl_apply_none (d : ScatterDims s si u) (idx : IVec si w) (upd : u.Idx → α) (i : s.Idx)
    (hmiss : ∀ j, d.resultIdx? j idx ≠ some i) (l : List (Fin u.numel)) (r : s.Idx → α) :
    (l.foldl (step d idx upd) r) i = r i := by
  induction l generalizing r with
  | nil => rfl
  | cons a t ih => rw [List.foldl_cons, ih, step_apply, if_neg (hmiss _)]

theorem scatter_set_hit (d : ScatterDims s si u) (x : s.Idx → α) (idx : IVec si w) (upd : u.Idx → α) (i : s.Idx) (j : u.Idx)
    (h0 : d.resultIdx? j idx = some i) (huniq : ∀ j', d.resultIdx? j' idx = some i → j' = j) :
    Host.scatter d (fun _ b => b) x idx upd i = upd j := by
  have hj : u.rowMajor.symm (u.rowMajor j) = j := Equiv.symm_apply_apply _ _
  rw [scatter_eq_foldl, foldl_apply_unique d idx upd i (u.rowMajor j) (by rw [hj]; exact h0)
    (fun n hn => by rw [← huniq _ hn]; exact (Equiv.apply_symm_apply _ _).symm), if_pos (List.mem_finRange _), hj]

theorem scatter_set_miss (d : ScatterDims s si u) (x : s.Idx → α) (idx : IVec si w) (upd : u.Idx → α) (i : s.Idx)
    (hmiss : ∀ j, d.resultIdx? j idx ≠ some i) : Host.scatter d (fun _ b => b) x idx upd i = x i := by
  rw [scatter_eq_foldl, foldl_apply_none d idx upd i hmiss]

theorem scatter_set_land (d : ScatterDims s si u) (x : s.Idx → α) (idx : IVec si w) (upd : u.Idx → α) (land : u.Idx → s.Idx)
    (hland : ∀ j, d.resultIdx? j idx = some (land j)) (hinj : Function.Injective land) (j : u.Idx) :
    Host.scatter d (fun _ b => b) x idx upd (land j) = upd j :=
  scatter_set_hit d x idx upd (land j) j (hland j) fun j' h => hinj (Option.some.inj ((hland j').symm.trans h))

theorem scatter_set_off (d : ScatterDims s si u) (x : s.Idx → α) (idx : IVec si w) (upd : u.Idx → α) (land : u.Idx → s.Idx)
    (hland : ∀ j, d.resultIdx? j idx = some (land j)) (i : s.Idx) (hoff : ∀ j, land j ≠ i) :
    Host.scatter d (fun _ b => b) x idx upd i = x i :=
  scatter_set_miss d x idx upd i fun j h => hoff j (Option.some.inj ((hland j).symm.trans h))

end Idealize.ShloMosaic.ScatterSet
-- ==== Proof.Bridge.Scatter.lean ====
-- Writing a head's [64, 128, 64] block as one window at a start row equals writing it as 128 one-row windows.
import proofs.«104095_j8426725835121_1_alg».proof.Proof.KI.Terms
import proofs.«104095_j8426725835121_1_alg».proof.Proof.Ref.Terms
import proofs.«104095_j8426725835121_1_alg».proof.Proof.LibScatterSet
import proofs.«104095_j8426725835121_1_alg».proof.Proof.Gen.KernelIdeal
import proofs.«104095_j8426725835121_1_alg».proof.Proof.Gen.ReferenceIdeal
import Idealize.ShloMosaic.Lib.ValueIdx
import Idealize.ShloMosaic.PureOps.ShapeOps

namespace Cert.Bridge.Scatter
open Idealize.ShloMosaic Idealize.ShloMosaic.ValueIdx Idealize.ShloMosaic.ScatterSet

abbrev DK := Cert.KernelIdeal.scatter_S64x256x64_S1_S64x128x64_012_n_1_0
abbrev DR := Cert.ReferenceIdeal.scatter_S64x256x64_S128x1_S64x128x64_02_1_1_1
abbrev idxK := Cert.KernelIdeal.Hand.idxK
abbrev idxR := Cert.ReferenceIdeal.Hand.idxR

theorem idxK_apply (s : BitVec 32) (i : Cert.KernelIdeal.S1.Idx) : idxK s i = s := rfl

theorem DK_start0 (s : BitVec 32) (a : Fin 64) (j : Fin 128) (e : Fin 64) :
    DK.start (ix3 a j e) (idxK s) 0 = 0 := rfl
theorem DK_start1 (s : BitVec 32) (a : Fin 64) (j : Fin 128) (e : Fin 64) :
    DK.start (ix3 a j e) (idxK s) 1 = s.toInt := rfl
theorem DK_start2 (s : BitVec 32) (a : Fin 64) (j : Fin 128) (e : Fin 64) :
    DK.start (ix3 a j e) (idxK s) 2 = 0 := rfl
theorem DK_window0 (a : Fin 64) (j : Fin 128) (e : Fin 64) : DK.window (ix3 a j e) 0 = a.val := rfl
theorem DK_window1 (a : Fin 64) (j : Fin 128) (e : Fin 64) : DK.window (ix3 a j e) 1 = j.val := rfl
theorem DK_window2 (a : Fin 64) (j : Fin 128) (e : Fin 64) : DK.window (ix3 a j e) 2 = e.val := rfl

theorem DR_start0 (idx : IVec Cert.ReferenceIdeal.S128x1 32) (a : Fin 64) (j : Fin 128) (e : Fin 64) :
    DR.start (ix3 a j e) idx 0 = 0 := rfl
theorem DR_start1 (idx : IVec Cert.ReferenceIdeal.S128x1 32) (a : Fin 64) (j : Fin 128) (e : Fin 64) :
    DR.start (ix3 a j e) idx 1 = (idx (ix2 j 0)).toInt := by
  unfold ScatterDims.start
  rw [dif_pos (by decide)]
  congr 2
  funext b
  match b with
  | ⟨0, _⟩ => rfl
  | ⟨1, _⟩ => rfl
theorem DR_start2 (idx : IVec Cert.ReferenceIdeal.S128x1 32) (a : Fin 64) (j : Fin 128) (e : Fin 64) :
    DR.start (ix3 a j e) idx 2 = 0 := rfl
theorem DR_window0 (a : Fin 64) (j : Fin 128) (e : Fin 64) : DR.window (ix3 a j e) 0 = a.val := rfl
theorem DR_window1 (a : Fin 64) (j : Fin 128) (e : Fin 64) : DR.window (ix3 a j e) 1 = 0 := rfl
theorem DR_window2 (a : Fin 64) (j : Fin 128) (e : Fin 64) : DR.window (ix3 a j e) 2 = e.val := rfl

theorem idxR_apply (lit : Fin 128 → BitVec 32) (j : Fin 128) (z : Fin 1) : idxR lit (ix2 j z) = lit j := by
  unfold idxR Cert.ReferenceIdeal.Hand.idxR
  simp only [broadcastInDim, select, constantI, Scalar.select]
  rw [if_neg (by decide)]
  congr 1
  apply Fin.ext
  rw [Shape.rowMajor_val_one]
  rfl

theorem lit0_toInt : ∀ j : Fin 128, (Cert.ReferenceIdeal.lit0 j).toInt = (j.val : Int) := by decide +kernel
theorem lit1_toInt : ∀ j : Fin 128, (Cert.ReferenceIdeal.lit1 j).toInt = (j.val : Int) + 128 := by decide +kernel

theorem DK_resultIdx (s : BitVec 32) (n : Nat) (hs : s.toInt = (n : Int)) (hn : n + 128 ≤ 256)
    (a : Fin 64) (j : Fin 128) (e : Fin 64) :
    DK.resultIdx? (ix3 a j e) (idxK s) = some (ix3 a (⟨j.val + n, by omega⟩ : Fin 256) e) := by
  have hsum : ∀ ax : Fin 3, DK.start (ix3 a j e) (idxK s) ax + (DK.window (ix3 a j e) ax : Int)
      = (((ix3 a (⟨j.val + n, by omega⟩ : Fin 256) e : Cert.KernelIdeal.S64x256x64.Idx) ax).val : Int) := by
    intro ax
    match ax with
    | ⟨0, _⟩ => show DK.start (ix3 a j e) (idxK s) 0 + (DK.window (ix3 a j e) 0 : Int) = (a.val : Int)
                rw [DK_start0, DK_window0]; omega
    | ⟨1, _⟩ => show DK.start (ix3 a j e) (idxK s) 1 + (DK.window (ix3 a j e) 1 : Int) = ((j.val + n : Nat) : Int)
                rw [DK_start1, DK_window1, hs]; omega
    | ⟨2, _⟩ => show DK.start (ix3 a j e) (idxK s) 2 + (DK.window (ix3 a j e) 2 : Int) = (e.val : Int)
                rw [DK_start2, DK_window2]; omega
  unfold ScatterDims.resultIdx?
  rw [dif_pos (fun ax => by rw [hsum ax]; exact ⟨by omega, by exact_mod_cast (Fin.isLt _)⟩)]
  congr 1
  funext ax
  apply Fin.ext
  show (DK.start (ix3 a j e) (idxK s) ax + (DK.window (ix3 a j e) ax : Int)).toNat = _
  rw [hsum ax]; rfl

theorem DR_resultIdx (idx : IVec Cert.ReferenceIdeal.S128x1 32) (a : Fin 64) (j : Fin 128) (e : Fin 64) (m : Fin 256)
    (hm : (idx (ix2 j 0)).toInt = (m.val : Int)) :
    DR.resultIdx? (ix3 a j e) idx = some (ix3 a m e) := by
  have hsum : ∀ ax : Fin 3, DR.start (ix3 a j e) idx ax + (DR.window (ix3 a j e) ax : Int)
      = (((ix3 a m e : Cert.ReferenceIdeal.S64x256x64.Idx) ax).val : Int) := by
    intro ax
    match ax with
    | ⟨0, _⟩ => show DR.start (ix3 a j e) idx 0 + (DR.window (ix3 a j e) 0 : Int) = (a.val : Int)
                rw [DR_start0, DR_window0]; omega
    | ⟨1, _⟩ => show DR.start (ix3 a j e) idx 1 + (DR.window (ix3 a j e) 1 : Int) = (m.val : Int)
                rw [DR_start1, DR_window1, hm]; omega
    | ⟨2, _⟩ => show DR.start (ix3 a j e) idx 2 + (DR.window (ix3 a j e) 2 : Int) = (e.val : Int)
                rw [DR_start2, DR_window2]; omega
  unfold ScatterDims.resultIdx?
  rw [dif_pos (fun ax => by rw [hsum ax]; exact ⟨by omega, by exact_mod_cast (Fin.isLt _)⟩)]
  congr 1
  funext ax
  apply Fin.ext
  show (DR.start (ix3 a j e) idx ax + (DR.window (ix3 a j e) ax : Int)).toNat = _
  rw [hsum ax]; rfl

section Reads
variable {α : Type}

theorem K_hit (x : Cert.KernelIdeal.S64x256x64.Idx → α) (s : BitVec 32) (n : Nat) (hs : s.toInt = (n : Int)) (hn : n + 128 ≤ 256)
    (upd : Cert.KernelIdeal.S64x128x64.Idx → α) (a : Fin 64) (r : Fin 256) (e : Fin 64) (j : Fin 128) (hr : r.val = j.val + n) :
    Host.scatter DK (fun _ b => b) x (idxK s) upd (ix3 a r e) = upd (ix3 a j e) := by
  obtain ⟨rv, hrv⟩ := r
  simp only at hr
  subst hr
  refine scatter_set_hit DK x (idxK s) upd _ (ix3 a j e) (DK_resultIdx s n hs hn a j e) ?_
  intro j' h
  obtain ⟨a', j2, e', rfl⟩ : ∃ (a' : Fin 64) (j2 : Fin 128) (e' : Fin 64), j' = ix3 a' j2 e' := ⟨j' 0, j' 1, j' 2, eq_ix3 j'⟩
  rw [DK_resultIdx s n hs hn a' j2 e'] at h
  have h' := Option.some.inj h
  have h0 : a' = a := congrFun h' 0
  have h1 : (⟨j2.val + n, by omega⟩ : Fin 256) = ⟨j.val + n, by omega⟩ := congrFun h' 1
  have h2 : e' = e := congrFun h' 2
  have h1' : j2 = j := Fin.ext (by have := Fin.val_eq_of_eq h1; simp only at this; omega)
  rw [h0, h1', h2]

theorem K_miss (x : Cert.KernelIdeal.S64x256x64.Idx → α) (s : BitVec 32) (n : Nat) (hs : s.toInt = (n : Int)) (hn : n + 128 ≤ 256)
    (upd : Cert.KernelIdeal.S64x128x64.Idx → α) (a : Fin 64) (r : Fin 256) (e : Fin 64) (hr : ∀ j : Fin 128, r.val ≠ j.val + n) :
    Host.scatter DK (fun _ b => b) x (idxK s) upd (ix3 a r e) = x (ix3 a r e) := by
  refine scatter_set_miss DK x (idxK s) upd _ ?_
  intro j' h
  obtain ⟨a', j2, e', rfl⟩ : ∃ (a' : Fin 64) (j2 : Fin 128) (e' : Fin 64), j' = ix3 a' j2 e' := ⟨j' 0, j' 1, j' 2, eq_ix3 j'⟩
  rw [DK_resultIdx s n hs hn a' j2 e'] at h
  have h1 : (⟨j2.val + n, by omega⟩ : Fin 256) = r := congrFun (Option.some.inj h) 1
  exact hr j2 (by rw [← h1])

theorem R_hit (x : Cert.ReferenceIdeal.S64x256x64.Idx → α) (idx : IVec Cert.ReferenceIdeal.S128x1 32) (row : Fin 128 → Fin 256)
    (hrow : ∀ j, (idx (ix2 j 0)).toInt = ((row j).val : Int)) (hinj : Function.Injective row)
    (upd : Cert.ReferenceIdeal.S64x128x64.Idx → α) (a : Fin 64) (r : Fin 256) (e : Fin 64) (j : Fin 128) (hr : r = row j) :
    Host.scatter DR (fun _ b => b) x idx upd (ix3 a r e) = upd (ix3 a j e) := by
  subst hr
  refine scatter_set_hit DR x idx upd _ (ix3 a j e) (DR_resultIdx idx a j e (row j) (hrow j)) ?_
  intro j' h
  obtain ⟨a', j2, e', rfl⟩ : ∃ (a' : Fin 64) (j2 : Fin 128) (e' : Fin 64), j' = ix3 a' j2 e' := ⟨j' 0, j' 1, j' 2, eq_ix3 j'⟩
  rw [DR_resultIdx idx a' j2 e' (row j2) (hrow j2)] at h
  have h' := Option.some.inj h
  have h0 : a' = a := congrFun h' 0
  have h1 : row j2 = row j := congrFun h' 1
  have h2 : e' = e := congrFun h' 2
  rw [h0, hinj h1, h2]

theorem R_miss (x : Cert.ReferenceIdeal.S64x256x64.Idx → α) (idx : IVec Cert.ReferenceIdeal.S128x1 32) (row : Fin 128 → Fin 256)
    (hrow : ∀ j, (idx (ix2 j 0)).toInt = ((row j).val : Int))
    (upd : Cert.ReferenceIdeal.S64x128x64.Idx → α) (a : Fin 64) (r : Fin 256) (e : Fin 64) (hr : ∀ j, row j ≠ r) :
    Host.scatter DR (fun _ b => b) x idx upd (ix3 a r e) = x (ix3 a r e) := by
  refine scatter_set_miss DR x idx upd _ ?_
  intro j' h
  obtain ⟨a', j2, e', rfl⟩ : ∃ (a' : Fin 64) (j2 : Fin 128) (e' : Fin 64), j' = ix3 a' j2 e' := ⟨j' 0, j' 1, j' 2, eq_ix3 j'⟩
  rw [DR_resultIdx idx a' j2 e' (row j2) (hrow j2)] at h
  exact hr j2 (congrFun (Option.some.inj h) 1)

end Reads

def row0 : Fin 128 → Fin 256 := fun j => ⟨j.val, by omega⟩
def row1 : Fin 128 → Fin 256 := fun j => ⟨j.val + 128, by omega⟩

theorem hrow0 (j : Fin 128) : (idxR Cert.ReferenceIdeal.lit0 (ix2 j 0)).toInt = ((row0 j).val : Int) := by
  rw [idxR_apply, lit0_toInt]; rfl
theorem hrow1 (j : Fin 128) : (idxR Cert.ReferenceIdeal.lit1 (ix2 j 0)).toInt = ((row1 j).val : Int) := by
  rw [idxR_apply, lit1_toInt]; rfl
theorem row0_inj : Function.Injective row0 := fun j j' h => Fin.ext (by have := Fin.val_eq_of_eq h; simpa [row0] using this)
theorem row1_inj : Function.Injective row1 := fun j j' h => Fin.ext (by have := Fin.val_eq_of_eq h; simp only [row1] at this; omega)

variable {F : FTy → Type}

theorem scatter_bridge (Z : FVec F Cert.KernelIdeal.S64x256x64 .f32) (A B : FVec F Cert.KernelIdeal.S64x128x64 .f32) :
    Host.scatter Cert.KernelIdeal.scatter_S64x256x64_S1_S64x128x64_012_n_1_0 (fun _ b => b)
      (Host.scatter Cert.KernelIdeal.scatter_S64x256x64_S1_S64x128x64_012_n_1_0 (fun _ b => b) Z (Cert.KernelIdeal.Hand.idxK 0#32) A)
      (Cert.KernelIdeal.Hand.idxK 128#32) B
    = Host.scatter Cert.ReferenceIdeal.scatter_S64x256x64_S128x1_S64x128x64_02_1_1_1 (fun _ b => b)
      (Host.scatter Cert.ReferenceIdeal.scatter_S64x256x64_S128x1_S64x128x64_02_1_1_1 (fun _ b => b) Z (Cert.ReferenceIdeal.Hand.idxR Cert.ReferenceIdeal.lit0) A)
      (Cert.ReferenceIdeal.Hand.idxR Cert.ReferenceIdeal.lit1) B := by
  funext i
  obtain ⟨a, r, e, rfl⟩ : ∃ (a : Fin 64) (r : Fin 256) (e : Fin 64), i = ix3 a r e := ⟨i 0, i 1, i 2, eq_ix3 i⟩
  by_cases hr : r.val < 128
  · refine ((K_miss _ 128#32 128 (by decide) (by omega) B a r e (fun j => by omega)).trans
      (K_hit Z 0#32 0 (by decide) (by omega) A a r e ⟨r.val, hr⟩ rfl)).trans
      ((R_miss _ (idxR Cert.ReferenceIdeal.lit1) row1 hrow1 B a r e (fun j h => ?_)).trans
        (R_hit Z (idxR Cert.ReferenceIdeal.lit0) row0 hrow0 row0_inj A a r e ⟨r.val, hr⟩ (Fin.ext rfl))).symm
    have := Fin.val_eq_of_eq h; simp only [row1] at this; omega
  · have hj : r.val - 128 < 128 := by have := r.isLt; omega
    exact (K_hit _ 128#32 128 (by decide) (by omega) B a r e ⟨r.val - 128, hj⟩ (by simp only; omega)).trans
      (R_hit _ (idxR Cert.ReferenceIdeal.lit1) row1 hrow1 row1_inj B a r e ⟨r.val - 128, hj⟩
        (Fin.ext (by simp only [row1]; omega))).symm

end Cert.Bridge.Scatter
-- ==== Proof.Bridge.Out.lean ====
-- Both programs join the six linear layers to the result in the same way, so the results are equal.
import proofs.«104095_j8426725835121_1_alg».proof.Proof.Bridge.Consts
import proofs.«104095_j8426725835121_1_alg».proof.Proof.Bridge.Lin
import proofs.«104095_j8426725835121_1_alg».proof.Proof.Bridge.Scatter

noncomputable section

namespace Cert.Bridge

open Idealize.ShloMosaic
open Cert.KernelIdeal.Hand Cert.ReferenceIdeal.Hand

theorem out_eq (x : FVec Ideal Cert.KernelIdeal.S64x256x64 .f32)
    (WQ0 : FVec Ideal Cert.KernelIdeal.S8192x8192 .f32) (bQ0 : FVec Ideal Cert.KernelIdeal.S8192 .f32)
    (WK0 : FVec Ideal Cert.KernelIdeal.S8192x8192 .f32) (bK0 : FVec Ideal Cert.KernelIdeal.S8192 .f32)
    (WV0 : FVec Ideal Cert.KernelIdeal.S8192x8192 .f32) (bV0 : FVec Ideal Cert.KernelIdeal.S8192 .f32)
    (WQ1 : FVec Ideal Cert.KernelIdeal.S8192x8192 .f32) (bQ1 : FVec Ideal Cert.KernelIdeal.S8192 .f32)
    (WK1 : FVec Ideal Cert.KernelIdeal.S8192x8192 .f32) (bK1 : FVec Ideal Cert.KernelIdeal.S8192 .f32)
    (WV1 : FVec Ideal Cert.KernelIdeal.S8192x8192 .f32) (bV1 : FVec Ideal Cert.KernelIdeal.S8192 .f32) :
    kOut (Cert.Spec.lin (xsK0 x) WQ0 (b2K bQ0)) (Cert.Spec.lin (xsK0 x) WK0 (b2K bK0)) (Cert.Spec.lin (xsK0 x) WV0 (b2K bV0))
         (Cert.Spec.lin (xsK1 x) WQ1 (b2K bQ1)) (Cert.Spec.lin (xsK1 x) WK1 (b2K bK1)) (Cert.Spec.lin (xsK1 x) WV1 (b2K bV1))
      = refOut x WQ0 bQ0 WK0 bK0 WV0 bV0 WQ1 bQ1 WK1 bK1 WV1 bV1 := by
  unfold kOut refOut headK headR
  rw [Cert.Bridge.Scatter.scatter_bridge, lin_bridge0, lin_bridge0, lin_bridge0, lin_bridge1, lin_bridge1, lin_bridge1,
    attn_eq, attn_eq, scale_eq]

end Cert.Bridge

end
-- ==== Proof.KI.Value.lean ====
-- At the extended reals the kernel program's result is the reference's result of the same arguments: every launch leaves y = x Wᵀ + b.
import proofs.«104095_j8426725835121_1_alg».proof.Proof.KI.Vals
import proofs.«104095_j8426725835121_1_alg».proof.Proof.KI.HostValue
import proofs.«104095_j8426725835121_1_alg».proof.Proof.KI.Entries
import proofs.«104095_j8426725835121_1_alg».proof.Proof.KI.R0Value
import proofs.«104095_j8426725835121_1_alg».proof.Proof.KI.R1Value
import proofs.«104095_j8426725835121_1_alg».proof.Proof.KI.R2Value
import proofs.«104095_j8426725835121_1_alg».proof.Proof.KI.R3Value
import proofs.«104095_j8426725835121_1_alg».proof.Proof.KI.R4Value
import proofs.«104095_j8426725835121_1_alg».proof.Proof.KI.R5Value
import proofs.«104095_j8426725835121_1_alg».proof.Proof.Bridge.Out

noncomputable section

namespace Cert.KernelIdeal.Hand

open Idealize.ShloMosaic Idealize.ShloMosaic.TcCoe Idealize.SL.Sem
open Cert.KernelIdeal Cert.KernelIdeal.Gen

variable (m : (ℓ : Loc nD τ sig) → Buf (Elt Ideal) ℓ)

theorem o0_eq (c : Dev nD) : o0 m c = Cert.Spec.lin (xsK0 (m ((c.tc : Thread nD τ).loc main_arg0))) (m ((c.tc : Thread nD τ).loc main_arg1)) (b2K (m ((c.tc : Thread nD τ).loc main_arg2))) := by
  unfold o0
  rw [arrAt0_eq, entry0_x, entry0_w, entry0_b]

theorem o1_eq (c : Dev nD) : o1 m c = Cert.Spec.lin (xsK0 (m ((c.tc : Thread nD τ).loc main_arg0))) (m ((c.tc : Thread nD τ).loc main_arg3)) (b2K (m ((c.tc : Thread nD τ).loc main_arg4))) := by
  unfold o1
  rw [arrAt1_eq, entry1_x, entry1_w, entry1_b]

theorem o2_eq (c : Dev nD) : o2 m c = Cert.Spec.lin (xsK0 (m ((c.tc : Thread nD τ).loc main_arg0))) (m ((c.tc : Thread nD τ).loc main_arg5)) (b2K (m ((c.tc : Thread nD τ).loc main_arg6))) := by
  unfold o2
  rw [arrAt2_eq, entry2_x, entry2_w, entry2_b]

theorem o3_eq (c : Dev nD) : o3 m c = Cert.Spec.lin (xsK1 (m ((c.tc : Thread nD τ).loc main_arg0))) (m ((c.tc : Thread nD τ).loc main_arg7)) (b2K (m ((c.tc : Thread nD τ).loc main_arg8))) := by
  unfold o3
  rw [arrAt3_eq, entry3_x, entry3_w, entry3_b]

theorem o4_eq (c : Dev nD) : o4 m c = Cert.Spec.lin (xsK1 (m ((c.tc : Thread nD τ).loc main_arg0))) (m ((c.tc : Thread nD τ).loc main_arg9)) (b2K (m ((c.tc : Thread nD τ).loc main_arg10))) := by
  unfold o4
  rw [arrAt4_eq, entry4_x, entry4_w, entry4_b]

theorem o5_eq (c : Dev nD) : o5 m c = Cert.Spec.lin (xsK1 (m ((c.tc : Thread nD τ).loc main_arg0))) (m ((c.tc : Thread nD τ).loc main_arg11)) (b2K (m ((c.tc : Thread nD τ).loc main_arg12))) := by
  unfold o5
  rw [arrAt5_eq, entry5_x, entry5_w, entry5_b]

theorem result_eq (c : Dev nD) :
    (U13 m c main_v56 : FVec Ideal S64x256x64 .f32) = Cert.ReferenceIdeal.Hand.refOut (F := Ideal) (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9))
      (m ((c.tc : Thread nD τ).loc main_arg10)) (m ((c.tc : Thread nD τ).loc main_arg11)) (m ((c.tc : Thread nD τ).loc main_arg12)) := by
  rw [U13_v56, o0_eq, o1_eq, o2_eq, o3_eq, o4_eq, o5_eq]
  exact Cert.Bridge.out_eq _ _ _ _ _ _ _ _ _ _ _ _ _

end Cert.KernelIdeal.Hand

end
-- ==== Proof.Ref.Run0.lean ====
-- The first sixty operations of the reference as a list, and what they leave in the buffers the rest reads.
import proofs.«104095_j8426725835121_1_alg».proof.Proof.Ref.Terms
import proofs.«104095_j8426725835121_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ nullary main_c (fun i => lit0 (S128.rowMajor i)),
    nullary main_c_0 (constantI S128 1 0#1),
    nullary main_c_1 (constantI S128 1 0#1),
    nullary main_c_2 (fun i => lit1 (S128.rowMajor i)),
    nullary main_c_3 (constantI S128 1 0#1),
    nullary main_c_4 (constantI S128 1 0#1),
    nullary main_cst (constant S_ .f32 0x00000000#32),
    unary main_cst main_v0 (broadcastInDim S64x256x64 ![] bcast_S_S64x256x64 : (⟨S_, .f32⟩ : BufTy).Contents (Elt F) → (⟨S64x256x64, .f32⟩ : BufTy).Contents (Elt F)),
    nullary main_c_5 (constantI S_ 32 256#32),
    unary main_c_5 main_v1 (broadcastInDim S128 ![] bcast_S_S128 : (⟨S_, .i32⟩ : BufTy).Contents (Elt F) → (⟨S128, .i32⟩ : BufTy).Contents (Elt F)),
    binary main_c main_v1 main_v2 (addi : (⟨S128, .i32⟩ : BufTy).Contents (Elt F) → (⟨S128, .i32⟩ : BufTy).Contents (Elt F) → (⟨S128, .i32⟩ : BufTy).Contents (Elt F)),
    ternary main_c_0 main_v2 main_c main_v3 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    unary main_v3 main_v4 (broadcastInDim S128x1 ![0] bcast_S128_S128x1_0 : (⟨S128, .i32⟩ : BufTy).Contents (Elt F) → (⟨S128x1, .i32⟩ : BufTy).Contents (Elt F)),
    binary main_arg0 main_v4 main_v5 ((fun x i => Host.gather gather_S64x256x64_S128x1_S64x128x64_02_1_n_n_1_1_64164 x i) : (⟨S64x256x64, .f32⟩ : BufTy).Contents (Elt F) → (⟨S128x1, .i32⟩ : BufTy).Contents (Elt F) → (⟨S64x128x64, .f32⟩ : BufTy).Contents (Elt F)),
    reshape main_v5 main_v6 rfl shapeCasts_S64x128x64_S64x8192,
    unary main_arg1 main_v7 ((transpose S8192x8192 [1, 0] · transposes_S8192x8192_S8192x8192_1_0) : (⟨S8192x8192, .f32⟩ : BufTy).Contents (Elt F) → (⟨S8192x8192, .f32⟩ : BufTy).Contents (Elt F)),
    binary main_v6 main_v7 main_v8 ((fun l r => Host.dotGeneral dot_S64x8192_S8192x8192_S64x8192_1_0_0_1_n_n none l r) : (⟨S64x8192, .f32⟩ : BufTy).Contents (Elt F) → (⟨S8192x8192, .f32⟩ : BufTy).Contents (Elt F) → (⟨S64x8192, .f32⟩ : BufTy).Contents (Elt F)),
    unary main_arg2 main_v9 (broadcastInDim S1x8192 ![1] bcast_S8192_S1x8192_1 : (⟨S8192, .f32⟩ : BufTy).Contents (Elt F) → (⟨S1x8192, .f32⟩ : BufTy).Contents (Elt F)),
    unary main_v9 main_v10 (broadcastInDim S64x8192 ![0, 1] bcast_S1x8192_S64x8192_0_1 : (⟨S1x8192, .f32⟩ : BufTy).Contents (Elt F) → (⟨S64x8192, .f32⟩ : BufTy).Contents (Elt F)),
    binary main_v8 main_v10 main_v11 (addf : (⟨S64x8192, .f32⟩ : BufTy).Contents (Elt F) → (⟨S64x8192, .f32⟩ : BufTy).Contents (Elt F) → (⟨S64x8192, .f32⟩ : BufTy).Contents (Elt F)),
    reshape main_v11 main_v12 rfl shapeCasts_S64x8192_S64x128x64,
    unary main_arg3 main_v13 ((transpose S8192x8192 [1, 0] · transposes_S8192x8192_S8192x8192_1_0) : (⟨S8192x8192, .f32⟩ : BufTy).Contents (Elt F) → (⟨S8192x8192, .f32⟩ : BufTy).Contents (Elt F)),
    binary main_v6 main_v13 main_v14 ((fun l r => Host.dotGeneral dot_S64x8192_S8192x8192_S64x8192_1_0_0_1_n_n none l r) : (⟨S64x8192, .f32⟩ : BufTy).Contents (Elt F) → (⟨S8192x8192, .f32⟩ : BufTy).Contents (Elt F) → (⟨S64x8192, .f32⟩ : BufTy).Contents (Elt F)),
    unary main_arg4 main_v15 (broadcastInDim S1x8192 ![1] bcast_S8192_S1x8192_1 : (⟨S8192, .f32⟩ : BufTy).Contents (Elt F) → (⟨S1x8192, .f32⟩ : BufTy).Contents (Elt F)),
    unary main_v15 main_v16 (broadcastInDim S64x8192 ![0, 1] bcast_S1x8192_S64x8192_0_1 : (⟨S1x8192, .f32⟩ : BufTy).Contents (Elt F) → (⟨S64x8192, .f32⟩ : BufTy).Contents (Elt F)),
    binary main_v14 main_v16 main_v17 (addf : (⟨S64x8192, .f32⟩ : BufTy).Contents (Elt F) → (⟨S64x8192, .f32⟩ : BufTy).Contents (Elt F) → (⟨S64x8192, .f32⟩ : BufTy).Contents (Elt F)),
    reshape main_v17 main_v18 rfl shapeCasts_S64x8192_S64x128x64,
    unary main_arg5 main_v19 ((transpose S8192x8192 [1, 0] · transposes_S8192x8192_S8192x8192_1_0) : (⟨S8192x8192, .f32⟩ : BufTy).Contents (Elt F) → (⟨S8192x8192, .f32⟩ : BufTy).Contents (Elt F)),
    binary main_v6 main_v19 main_v20 ((fun l r => Host.dotGeneral dot_S64x8192_S8192x8192_S64x8192_1_0_0_1_n_n none l r) : (⟨S64x8192, .f32⟩ : BufTy).Contents (Elt F) → (⟨S8192x8192, .f32⟩ : BufTy).Contents (Elt F) → (⟨S64x8192, .f32⟩ : BufTy).Contents (Elt F)),
    unary main_arg6 main_v21 (broadcastInDim S1x8192 ![1] bcast_S8192_S1x8192_1 : (⟨S8192, .f32⟩ : BufTy).Contents (Elt F) → (⟨S1x8192, .f32⟩ : BufTy).Contents (Elt F)),
    unary main_v21 main_v22 (broadcastInDim S64x8192 ![0, 1] bcast_S1x8192_S64x8192_0_1 : (⟨S1x8192, .f32⟩ : BufTy).Contents (Elt F) → (⟨S64x8192, .f32⟩ : BufTy).Contents (Elt F)),
    binary main_v20 main_v22 main_v23 (addf : (⟨S64x8192, .f32⟩ : BufTy).Contents (Elt F) → (⟨S64x8192, .f32⟩ : BufTy).Contents (Elt F) → (⟨S64x8192, .f32⟩ : BufTy).Contents (Elt F)),
    reshape main_v23 main_v24 rfl shapeCasts_S64x8192_S64x128x64,
    binary main_v12 main_v18 main_v25 ((fun l r => Host.dotGeneral dot_S64x128x64_S64x128x64_S64x128x128_2_2_1_1_0_0 none l r) : (⟨S64x128x64, .f32⟩ : BufTy).Contents (Elt F) → (⟨S64x128x64, .f32⟩ : BufTy).Contents (Elt F) → (⟨S64x128x128, .f32⟩ : BufTy).Contents (Elt F)),
    nullary main_cst_6 (constant S_ .f32 0xFF800000#32),
    binary main_v25 main_cst_6 main_v26 ((fun x v => Host.reduce FloatOps.maximumf x v reducesTo_S64x128x128_S64x128_d1 h_S_) : (⟨S64x128x128, .f32⟩ : BufTy).Contents (Elt F) → (⟨S_, .f32⟩ : BufTy).Contents (Elt F) → (⟨S64x128, .f32⟩ : BufTy).Contents (Elt F)),
    nullary main_cst_7 (constant S_ .f32 0xFF800000#32),
    unary main_cst_7 main_v27 (broadcastInDim S64x128 ![] bcast_S_S64x128 : (⟨S_, .f32⟩ : BufTy).Contents (Elt F) → (⟨S64x128, .f32⟩ : BufTy).Contents (Elt F)),
    binary main_v27 main_v26 main_v28 (maximumf : (⟨S64x128, .f32⟩ : BufTy).Contents (Elt F) → (⟨S64x128, .f32⟩ : BufTy).Contents (Elt F) → (⟨S64x128, .f32⟩ : BufTy).Contents (Elt F)),
    unary main_v28 main_v29 (broadcastInDim S64x1x128 ![0, 2] bcast_S64x128_S64x1x128_0_2 : (⟨S64x128, .f32⟩ : BufTy).Contents (Elt F) → (⟨S64x1x128, .f32⟩ : BufTy).Contents (Elt F)),
    unary main_v29 main_v30 (broadcastInDim S64x128x128 ![0, 1, 2] bcast_S64x1x128_S64x128x128_0_1_2 : (⟨S64x1x128, .f32⟩ : BufTy).Contents (Elt F) → (⟨S64x128x128, .f32⟩ : BufTy).Contents (Elt F)),
    binary main_v25 main_v30 main_v31 (subf : (⟨S64x128x128, .f32⟩ : BufTy).Contents (Elt F) → (⟨S64x128x128, .f32⟩ : BufTy).Contents (Elt F) → (⟨S64x128x128, .f32⟩ : BufTy).Contents (Elt F)),
    unary main_v31 main_v32 (Host.exp : (⟨S64x128x128, .f32⟩ : BufTy).Contents (Elt F) → (⟨S64x128x128, .f32⟩ : BufTy).Contents (Elt F)),
    nullary main_cst_8 (constant S_ .f32 0x00000000#32),
    binary main_v32 main_cst_8 main_v33 ((fun x v => Host.reduceAdd x v reducesTo_S64x128x128_S64x128_d1 h_S_) : (⟨S64x128x128, .f32⟩ : BufTy).Contents (Elt F) → (⟨S_, .f32⟩ : BufTy).Contents (Elt F) → (⟨S64x128, .f32⟩ : BufTy).Contents (Elt F)),
    unary main_v33 main_v34 (broadcastInDim S64x1x128 ![0, 2] bcast_S64x128_S64x1x128_0_2 : (⟨S64x128, .f32⟩ : BufTy).Contents (Elt F) → (⟨S64x1x128, .f32⟩ : BufTy).Contents (Elt F)),
    unary main_v34 main_v35 (broadcastInDim S64x128x128 ![0, 1, 2] bcast_S64x1x128_S64x128x128_0_1_2 : (⟨S64x1x128, .f32⟩ : BufTy).Contents (Elt F) → (⟨S64x128x128, .f32⟩ : BufTy).Contents (Elt F)),
    binary main_v32 main_v35 main_v36 (Host.divf : (⟨S64x128x128, .f32⟩ : BufTy).Contents (Elt F) → (⟨S64x128x128, .f32⟩ : BufTy).Contents (Elt F) → (⟨S64x128x128, .f32⟩ : BufTy).Contents (Elt F)),
    binary main_v36 main_v24 main_v37 ((fun l r => Host.dotGeneral dot_S64x128x128_S64x128x64_S64x128x64_2_1_1_2_0_0 none l r) : (⟨S64x128x128, .f32⟩ : BufTy).Contents (Elt F) → (⟨S64x128x64, .f32⟩ : BufTy).Contents (Elt F) → (⟨S64x128x64, .f32⟩ : BufTy).Contents (Elt F)),
    nullary main_cst_9 (constant S_ .f32 0x42800000#32),
    unary main_cst_9 main_v38 (Host.sqrt : (⟨S_, .f32⟩ : BufTy).Contents (Elt F) → (⟨S_, .f32⟩ : BufTy).Contents (Elt F)),
    nullary main_cst_10 (constant S_ .f32 0x3F800000#32),
    binary main_cst_10 main_v38 main_v39 (Host.divf : (⟨S_, .f32⟩ : BufTy).Contents (Elt F) → (⟨S_, .f32⟩ : BufTy).Contents (Elt F) → (⟨S_, .f32⟩ : BufTy).Contents (Elt F)),
    unary main_v39 main_v40 (broadcastInDim S64x128x64 ![] bcast_S_S64x128x64 : (⟨S_, .f32⟩ : BufTy).Contents (Elt F) → (⟨S64x128x64, .f32⟩ : BufTy).Contents (Elt F)),
    binary main_v37 main_v40 main_v41 (mulf : (⟨S64x128x64, .f32⟩ : BufTy).Contents (Elt F) → (⟨S64x128x64, .f32⟩ : BufTy).Contents (Elt F) → (⟨S64x128x64, .f32⟩ : BufTy).Contents (Elt F)),
    nullary main_c_11 (constantI S_ 32 256#32),
    unary main_c_11 main_v42 (broadcastInDim S128 ![] bcast_S_S128 : (⟨S_, .i32⟩ : BufTy).Contents (Elt F) → (⟨S128, .i32⟩ : BufTy).Contents (Elt F)),
    binary main_c main_v42 main_v43 (addi : (⟨S128, .i32⟩ : BufTy).Contents (Elt F) → (⟨S128, .i32⟩ : BufTy).Contents (Elt F) → (⟨S128, .i32⟩ : BufTy).Contents (Elt F)),
    ternary main_c_1 main_v43 main_c main_v44 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    unary main_v44 main_v45 (broadcastInDim S128x1 ![0] bcast_S128_S128x1_0 : (⟨S128, .i32⟩ : BufTy).Contents (Elt F) → (⟨S128x1, .i32⟩ : BufTy).Contents (Elt F)) ]

set_option maxRecDepth 8192 in
set_option maxHeartbeats 4000000 in
theorem main_part0_eq (c : Dev nD) : main_part0 (F := F) c = seq ops0 := rfl

set_option maxRecDepth 8192 in
theorem ops0_sub : (ops0 : List (HloOp τ sig (Elt F))).Forall fun op => op.bufs ⊆ tcRefs τ sig :=
  ⟨nullary_bufs_sub .., nullary_bufs_sub .., nullary_bufs_sub .., nullary_bufs_sub .., nullary_bufs_sub .., nullary_bufs_sub .., nullary_bufs_sub .., unary_bufs_sub .., nullary_bufs_sub .., unary_bufs_sub .., binary_bufs_sub .., ternary_bufs_sub .., unary_bufs_sub .., binary_bufs_sub .., reshape_bufs_sub .., unary_bufs_sub .., binary_bufs_sub .., unary_bufs_sub .., unary_bufs_sub .., binary_bufs_sub .., reshape_bufs_sub .., unary_bufs_sub .., binary_bufs_sub .., unary_bufs_sub .., unary_bufs_sub .., binary_bufs_sub .., reshape_bufs_sub .., unary_bufs_sub .., binary_bufs_sub .., unary_bufs_sub .., unary_bufs_sub .., binary_bufs_sub .., reshape_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., nullary_bufs_sub .., binary_bufs_sub .., unary_bufs_sub .., binary_bufs_sub .., nullary_bufs_sub .., unary_bufs_sub .., binary_bufs_sub .., ternary_bufs_sub .., unary_bufs_sub ..⟩

set_option maxRecDepth 8192 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
set_option maxHeartbeats 4000000 in

theorem val0_v41 (V0 : Valuation τ sig (Elt F)) :
    after ops0 V0 (Proc.devRef .tc main_v41) = headR (V0 (Proc.devRef .tc main_arg0)) lit0 (V0 (Proc.devRef .tc main_arg1)) (V0 (Proc.devRef .tc main_arg2))
      (V0 (Proc.devRef .tc main_arg3)) (V0 (Proc.devRef .tc main_arg4)) (V0 (Proc.devRef .tc main_arg5)) (V0 (Proc.devRef .tc main_arg6)) := by
  after_results_simp
  rfl

set_option maxRecDepth 8192 in
set_option maxHeartbeats 4000000 in

theorem val0_v45 (V0 : Valuation τ sig (Elt F)) : after ops0 V0 (Proc.devRef .tc main_v45) = idxR lit0 := by
  after_results_simp
  rfl

set_option maxRecDepth 8192 in
set_option maxHeartbeats 4000000 in

theorem val0_v0 (V0 : Valuation τ sig (Elt F)) :
    after ops0 V0 (Proc.devRef .tc main_v0) = broadcastInDim S64x256x64 ![] bcast_S_S64x256x64 (constant (F := F) S_ .f32 0x00000000#32) := by
  after_results_simp

set_option maxRecDepth 8192 in
set_option maxHeartbeats 4000000 in

theorem val0_c_2 (V0 : Valuation τ sig (Elt F)) :
    after ops0 V0 (Proc.devRef .tc main_c_2) = fun i => lit1 (S128.rowMajor i) := by
  after_results_simp
  rfl

set_option maxRecDepth 8192 in
set_option maxHeartbeats 4000000 in

theorem val0_c_3 (V0 : Valuation τ sig (Elt F)) :
    after ops0 V0 (Proc.devRef .tc main_c_3) = constantI S128 1 0#1 := by
  after_results_simp

set_option maxRecDepth 8192 in
set_option maxHeartbeats 4000000 in

theorem val0_c_4 (V0 : Valuation τ sig (Elt F)) :
    after ops0 V0 (Proc.devRef .tc main_c_4) = constantI S128 1 0#1 := by
  after_results_simp

set_option maxRecDepth 8192 in
set_option maxHeartbeats 4000000 in
theorem val0_main_arg0 (V0 : Valuation τ sig (Elt F)) : after ops0 V0 (Proc.devRef .tc main_arg0) = V0 (Proc.devRef .tc main_arg0) := by
  after_results_simp

set_option maxRecDepth 8192 in
set_option maxHeartbeats 4000000 in
theorem val0_main_arg1 (V0 : Valuation τ sig (Elt F)) : after ops0 V0 (Proc.devRef .tc main_arg1) = V0 (Proc.devRef .tc main_arg1) := by
  after_results_simp

set_option maxRecDepth 8192 in
set_option maxHeartbeats 4000000 in
theorem val0_main_arg2 (V0 : Valuation τ sig (Elt F)) : after ops0 V0 (Proc.devRef .tc main_arg2) = V0 (Proc.devRef .tc main_arg2) := by
  after_results_simp

set_option maxRecDepth 8192 in
set_option maxHeartbeats 4000000 in
theorem val0_main_arg3 (V0 : Valuation τ sig (Elt F)) : after ops0 V0 (Proc.devRef .tc main_arg3) = V0 (Proc.devRef .tc main_arg3) := by
  after_results_simp

set_option maxRecDepth 8192 in
set_option maxHeartbeats 4000000 in
theorem val0_main_arg4 (V0 : Valuation τ sig (Elt F)) : after ops0 V0 (Proc.devRef .tc main_arg4) = V0 (Proc.devRef .tc main_arg4) := by
  after_results_simp

set_option maxRecDepth 8192 in
set_option maxHeartbeats 4000000 in
theorem val0_main_arg5 (V0 : Valuation τ sig (Elt F)) : after ops0 V0 (Proc.devRef .tc main_arg5) = V0 (Proc.devRef .tc main_arg5) := by
  after_results_simp

set_option maxRecDepth 8192 in
set_option maxHeartbeats 4000000 in
theorem val0_main_arg6 (V0 : Valuation τ sig (Elt F)) : after ops0 V0 (Proc.devRef .tc main_arg6) = V0 (Proc.devRef .tc main_arg6) := by
  after_results_simp

set_option maxRecDepth 8192 in
set_option maxHeartbeats 4000000 in
theorem val0_main_arg7 (V0 : Valuation τ sig (Elt F)) : after ops0 V0 (Proc.devRef .tc main_arg7) = V0 (Proc.devRef .tc main_arg7) := by
  after_results_simp

set_option maxRecDepth 8192 in
set_option maxHeartbeats 4000000 in
theorem val0_main_arg8 (V0 : Valuation τ sig (Elt F)) : after ops0 V0 (Proc.devRef .tc main_arg8) = V0 (Proc.devRef .tc main_arg8) := by
  after_results_simp

set_option maxRecDepth 8192 in
set_option maxHeartbeats 4000000 in
theorem val0_main_arg9 (V0 : Valuation τ sig (Elt F)) : after ops0 V0 (Proc.devRef .tc main_arg9) = V0 (Proc.devRef .tc main_arg9) := by
  after_results_simp

set_option maxRecDepth 8192 in
set_option maxHeartbeats 4000000 in
theorem val0_main_arg10 (V0 : Valuation τ sig (Elt F)) : after ops0 V0 (Proc.devRef .tc main_arg10) = V0 (Proc.devRef .tc main_arg10) := by
  after_results_simp

set_option maxRecDepth 8192 in
set_option maxHeartbeats 4000000 in
theorem val0_main_arg11 (V0 : Valuation τ sig (Elt F)) : after ops0 V0 (Proc.devRef .tc main_arg11) = V0 (Proc.devRef .tc main_arg11) := by
  after_results_simp

set_option maxRecDepth 8192 in
set_option maxHeartbeats 4000000 in
theorem val0_main_arg12 (V0 : Valuation τ sig (Elt F)) : after ops0 V0 (Proc.devRef .tc main_arg12) = V0 (Proc.devRef .tc main_arg12) := by
  after_results_simp

end Cert.ReferenceIdeal.Hand

end
-- ==== Proof.Ref.Run1.lean ====
-- The last fifty-four operations of the reference as a list, and what they leave in the result buffer.
import proofs.«104095_j8426725835121_1_alg».proof.Proof.Ref.Terms
import proofs.«104095_j8426725835121_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops1 : List (HloOp τ sig (Elt F)) :=
  [ ternary main_v0 main_v45 main_v41 main_v46 ((fun x i u => Host.scatter scatter_S64x256x64_S128x1_S64x128x64_02_1_1_1 (fun _ b => b) x i u) : (⟨S64x256x64, .f32⟩ : BufTy).Contents (Elt F) → (⟨S128x1, .i32⟩ : BufTy).Contents (Elt F) → (⟨S64x128x64, .f32⟩ : BufTy).Contents (Elt F) → (⟨S64x256x64, .f32⟩ : BufTy).Contents (Elt F)),
    nullary main_c_12 (constantI S_ 32 256#32),
    unary main_c_12 main_v47 (broadcastInDim S128 ![] bcast_S_S128 : (⟨S_, .i32⟩ : BufTy).Contents (Elt F) → (⟨S128, .i32⟩ : BufTy).Contents (Elt F)),
    binary main_c_2 main_v47 main_v48 (addi : (⟨S128, .i32⟩ : BufTy).Contents (Elt F) → (⟨S128, .i32⟩ : BufTy).Contents (Elt F) → (⟨S128, .i32⟩ : BufTy).Contents (Elt F)),
    ternary main_c_3 main_v48 main_c_2 main_v49 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    unary main_v49 main_v50 (broadcastInDim S128x1 ![0] bcast_S128_S128x1_0 : (⟨S128, .i32⟩ : BufTy).Contents (Elt F) → (⟨S128x1, .i32⟩ : BufTy).Contents (Elt F)),
    binary main_arg0 main_v50 main_v51 ((fun x i => Host.gather gather_S64x256x64_S128x1_S64x128x64_02_1_n_n_1_1_64164 x i) : (⟨S64x256x64, .f32⟩ : BufTy).Contents (Elt F) → (⟨S128x1, .i32⟩ : BufTy).Contents (Elt F) → (⟨S64x128x64, .f32⟩ : BufTy).Contents (Elt F)),
    reshape main_v51 main_v52 rfl shapeCasts_S64x128x64_S64x8192,
    unary main_arg7 main_v53 ((transpose S8192x8192 [1, 0] · transposes_S8192x8192_S8192x8192_1_0) : (⟨S8192x8192, .f32⟩ : BufTy).Contents (Elt F) → (⟨S8192x8192, .f32⟩ : BufTy).Contents (Elt F)),
    binary main_v52 main_v53 main_v54 ((fun l r => Host.dotGeneral dot_S64x8192_S8192x8192_S64x8192_1_0_0_1_n_n none l r) : (⟨S64x8192, .f32⟩ : BufTy).Contents (Elt F) → (⟨S8192x8192, .f32⟩ : BufTy).Contents (Elt F) → (⟨S64x8192, .f32⟩ : BufTy).Contents (Elt F)),
    unary main_arg8 main_v55 (broadcastInDim S1x8192 ![1] bcast_S8192_S1x8192_1 : (⟨S8192, .f32⟩ : BufTy).Contents (Elt F) → (⟨S1x8192, .f32⟩ : BufTy).Contents (Elt F)),
    unary main_v55 main_v56 (broadcastInDim S64x8192 ![0, 1] bcast_S1x8192_S64x8192_0_1 : (⟨S1x8192, .f32⟩ : BufTy).Contents (Elt F) → (⟨S64x8192, .f32⟩ : BufTy).Contents (Elt F)),
    binary main_v54 main_v56 main_v57 (addf : (⟨S64x8192, .f32⟩ : BufTy).Contents (Elt F) → (⟨S64x8192, .f32⟩ : BufTy).Contents (Elt F) → (⟨S64x8192, .f32⟩ : BufTy).Contents (Elt F)),
    reshape main_v57 main_v58 rfl shapeCasts_S64x8192_S64x128x64,
    unary main_arg9 main_v59 ((transpose S8192x8192 [1, 0] · transposes_S8192x8192_S8192x8192_1_0) : (⟨S8192x8192, .f32⟩ : BufTy).Contents (Elt F) → (⟨S8192x8192, .f32⟩ : BufTy).Contents (Elt F)),
    binary main_v52 main_v59 main_v60 ((fun l r => Host.dotGeneral dot_S64x8192_S8192x8192_S64x8192_1_0_0_1_n_n none l r) : (⟨S64x8192, .f32⟩ : BufTy).Contents (Elt F) → (⟨S8192x8192, .f32⟩ : BufTy).Contents (Elt F) → (⟨S64x8192, .f32⟩ : BufTy).Contents (Elt F)),
    unary main_arg10 main_v61 (broadcastInDim S1x8192 ![1] bcast_S8192_S1x8192_1 : (⟨S8192, .f32⟩ : BufTy).Contents (Elt F) → (⟨S1x8192, .f32⟩ : BufTy).Contents (Elt F)),
    unary main_v61 main_v62 (broadcastInDim S64x8192 ![0, 1] bcast_S1x8192_S64x8192_0_1 : (⟨S1x8192, .f32⟩ : BufTy).Contents (Elt F) → (⟨S64x8192, .f32⟩ : BufTy).Contents (Elt F)),
    binary main_v60 main_v62 main_v63 (addf : (⟨S64x8192, .f32⟩ : BufTy).Contents (Elt F) → (⟨S64x8192, .f32⟩ : BufTy).Contents (Elt F) → (⟨S64x8192, .f32⟩ : BufTy).Contents (Elt F)),
    reshape main_v63 main_v64 rfl shapeCasts_S64x8192_S64x128x64,
    unary main_arg11 main_v65 ((transpose S8192x8192 [1, 0] · transposes_S8192x8192_S8192x8192_1_0) : (⟨S8192x8192, .f32⟩ : BufTy).Contents (Elt F) → (⟨S8192x8192, .f32⟩ : BufTy).Contents (Elt F)),
    binary main_v52 main_v65 main_v66 ((fun l r => Host.dotGeneral dot_S64x8192_S8192x8192_S64x8192_1_0_0_1_n_n none l r) : (⟨S64x8192, .f32⟩ : BufTy).Contents (Elt F) → (⟨S8192x8192, .f32⟩ : BufTy).Contents (Elt F) → (⟨S64x8192, .f32⟩ : BufTy).Contents (Elt F)),
    unary main_arg12 main_v67 (broadcastInDim S1x8192 ![1] bcast_S8192_S1x8192_1 : (⟨S8192, .f32⟩ : BufTy).Contents (Elt F) → (⟨S1x8192, .f32⟩ : BufTy).Contents (Elt F)),
    unary main_v67 main_v68 (broadcastInDim S64x8192 ![0, 1] bcast_S1x8192_S64x8192_0_1 : (⟨S1x8192, .f32⟩ : BufTy).Contents (Elt F) → (⟨S64x8192, .f32⟩ : BufTy).Contents (Elt F)),
    binary main_v66 main_v68 main_v69 (addf : (⟨S64x8192, .f32⟩ : BufTy).Contents (Elt F) → (⟨S64x8192, .f32⟩ : BufTy).Contents (Elt F) → (⟨S64x8192, .f32⟩ : BufTy).Contents (Elt F)),
    reshape main_v69 main_v70 rfl shapeCasts_S64x8192_S64x128x64,
    binary main_v58 main_v64 main_v71 ((fun l r => Host.dotGeneral dot_S64x128x64_S64x128x64_S64x128x128_2_2_1_1_0_0 none l r) : (⟨S64x128x64, .f32⟩ : BufTy).Contents (Elt F) → (⟨S64x128x64, .f32⟩ : BufTy).Contents (Elt F) → (⟨S64x128x128, .f32⟩ : BufTy).Contents (Elt F)),
    nullary main_cst_13 (constant S_ .f32 0xFF800000#32),
    binary main_v71 main_cst_13 main_v72 ((fun x v => Host.reduce FloatOps.maximumf x v reducesTo_S64x128x128_S64x128_d1 h_S_) : (⟨S64x128x128, .f32⟩ : BufTy).Contents (Elt F) → (⟨S_, .f32⟩ : BufTy).Contents (Elt F) → (⟨S64x128, .f32⟩ : BufTy).Contents (Elt F)),
    nullary main_cst_14 (constant S_ .f32 0xFF800000#32),
    unary main_cst_14 main_v73 (broadcastInDim S64x128 ![] bcast_S_S64x128 : (⟨S_, .f32⟩ : BufTy).Contents (Elt F) → (⟨S64x128, .f32⟩ : BufTy).Contents (Elt F)),
    binary main_v73 main_v72 main_v74 (maximumf : (⟨S64x128, .f32⟩ : BufTy).Contents (Elt F) → (⟨S64x128, .f32⟩ : BufTy).Contents (Elt F) → (⟨S64x128, .f32⟩ : BufTy).Contents (Elt F)),
    unary main_v74 main_v75 (broadcastInDim S64x1x128 ![0, 2] bcast_S64x128_S64x1x128_0_2 : (⟨S64x128, .f32⟩ : BufTy).Contents (Elt F) → (⟨S64x1x128, .f32⟩ : BufTy).Contents (Elt F)),
    unary main_v75 main_v76 (broadcastInDim S64x128x128 ![0, 1, 2] bcast_S64x1x128_S64x128x128_0_1_2 : (⟨S64x1x128, .f32⟩ : BufTy).Contents (Elt F) → (⟨S64x128x128, .f32⟩ : BufTy).Contents (Elt F)),
    binary main_v71 main_v76 main_v77 (subf : (⟨S64x128x128, .f32⟩ : BufTy).Contents (Elt F) → (⟨S64x128x128, .f32⟩ : BufTy).Contents (Elt F) → (⟨S64x128x128, .f32⟩ : BufTy).Contents (Elt F)),
    unary main_v77 main_v78 (Host.exp : (⟨S64x128x128, .f32⟩ : BufTy).Contents (Elt F) → (⟨S64x128x128, .f32⟩ : BufTy).Contents (Elt F)),
    nullary main_cst_15 (constant S_ .f32 0x00000000#32),
    binary main_v78 main_cst_15 main_v79 ((fun x v => Host.reduceAdd x v reducesTo_S64x128x128_S64x128_d1 h_S_) : (⟨S64x128x128, .f32⟩ : BufTy).Contents (Elt F) → (⟨S_, .f32⟩ : BufTy).Contents (Elt F) → (⟨S64x128, .f32⟩ : BufTy).Contents (Elt F)),
    unary main_v79 main_v80 (broadcastInDim S64x1x128 ![0, 2] bcast_S64x128_S64x1x128_0_2 : (⟨S64x128, .f32⟩ : BufTy).Contents (Elt F) → (⟨S64x1x128, .f32⟩ : BufTy).Contents (Elt F)),
    unary main_v80 main_v81 (broadcastInDim S64x128x128 ![0, 1, 2] bcast_S64x1x128_S64x128x128_0_1_2 : (⟨S64x1x128, .f32⟩ : BufTy).Contents (Elt F) → (⟨S64x128x128, .f32⟩ : BufTy).Contents (Elt F)),
    binary main_v78 main_v81 main_v82 (Host.divf : (⟨S64x128x128, .f32⟩ : BufTy).Contents (Elt F) → (⟨S64x128x128, .f32⟩ : BufTy).Contents (Elt F) → (⟨S64x128x128, .f32⟩ : BufTy).Contents (Elt F)),
    binary main_v82 main_v70 main_v83 ((fun l r => Host.dotGeneral dot_S64x128x128_S64x128x64_S64x128x64_2_1_1_2_0_0 none l r) : (⟨S64x128x128, .f32⟩ : BufTy).Contents (Elt F) → (⟨S64x128x64, .f32⟩ : BufTy).Contents (Elt F) → (⟨S64x128x64, .f32⟩ : BufTy).Contents (Elt F)),
    nullary main_cst_16 (constant S_ .f32 0x42800000#32),
    unary main_cst_16 main_v84 (Host.sqrt : (⟨S_, .f32⟩ : BufTy).Contents (Elt F) → (⟨S_, .f32⟩ : BufTy).Contents (Elt F)),
    nullary main_cst_17 (constant S_ .f32 0x3F800000#32),
    binary main_cst_17 main_v84 main_v85 (Host.divf : (⟨S_, .f32⟩ : BufTy).Contents (Elt F) → (⟨S_, .f32⟩ : BufTy).Contents (Elt F) → (⟨S_, .f32⟩ : BufTy).Contents (Elt F)),
    unary main_v85 main_v86 (broadcastInDim S64x128x64 ![] bcast_S_S64x128x64 : (⟨S_, .f32⟩ : BufTy).Contents (Elt F) → (⟨S64x128x64, .f32⟩ : BufTy).Contents (Elt F)),
    binary main_v83 main_v86 main_v87 (mulf : (⟨S64x128x64, .f32⟩ : BufTy).Contents (Elt F) → (⟨S64x128x64, .f32⟩ : BufTy).Contents (Elt F) → (⟨S64x128x64, .f32⟩ : BufTy).Contents (Elt F)),
    nullary main_c_18 (constantI S_ 32 256#32),
    unary main_c_18 main_v88 (broadcastInDim S128 ![] bcast_S_S128 : (⟨S_, .i32⟩ : BufTy).Contents (Elt F) → (⟨S128, .i32⟩ : BufTy).Contents (Elt F)),
    binary main_c_2 main_v88 main_v89 (addi : (⟨S128, .i32⟩ : BufTy).Contents (Elt F) → (⟨S128, .i32⟩ : BufTy).Contents (Elt F) → (⟨S128, .i32⟩ : BufTy).Contents (Elt F)),
    ternary main_c_4 main_v89 main_c_2 main_v90 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    unary main_v90 main_v91 (broadcastInDim S128x1 ![0] bcast_S128_S128x1_0 : (⟨S128, .i32⟩ : BufTy).Contents (Elt F) → (⟨S128x1, .i32⟩ : BufTy).Contents (Elt F)),
    ternary main_v46 main_v91 main_v87 main_v92 ((fun x i u => Host.scatter scatter_S64x256x64_S128x1_S64x128x64_02_1_1_1 (fun _ b => b) x i u) : (⟨S64x256x64, .f32⟩ : BufTy).Contents (Elt F) → (⟨S128x1, .i32⟩ : BufTy).Contents (Elt F) → (⟨S64x128x64, .f32⟩ : BufTy).Contents (Elt F) → (⟨S64x256x64, .f32⟩ : BufTy).Contents (Elt F)) ]

set_option maxRecDepth 8192 in
set_option maxHeartbeats 4000000 in
theorem main_part1_eq (c : Dev nD) : main_part1 (F := F) c = seq ops1 := rfl

set_option maxRecDepth 8192 in
theorem ops1_sub : (ops1 : List (HloOp τ sig (Elt F))).Forall fun op => op.bufs ⊆ tcRefs τ sig :=
  ⟨ternary_bufs_sub .., nullary_bufs_sub .., unary_bufs_sub .., binary_bufs_sub .., ternary_bufs_sub .., unary_bufs_sub .., binary_bufs_sub .., reshape_bufs_sub .., unary_bufs_sub .., binary_bufs_sub .., unary_bufs_sub .., unary_bufs_sub .., binary_bufs_sub .., reshape_bufs_sub .., unary_bufs_sub .., binary_bufs_sub .., unary_bufs_sub .., unary_bufs_sub .., binary_bufs_sub .., reshape_bufs_sub .., unary_bufs_sub .., binary_bufs_sub .., unary_bufs_sub .., unary_bufs_sub .., binary_bufs_sub .., reshape_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., nullary_bufs_sub .., binary_bufs_sub .., unary_bufs_sub .., binary_bufs_sub .., nullary_bufs_sub .., unary_bufs_sub .., binary_bufs_sub .., ternary_bufs_sub .., unary_bufs_sub .., ternary_bufs_sub ..⟩

set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
set_option maxHeartbeats 4000000 in

theorem val1_v92 (V1 : Valuation τ sig (Elt F))
    (hc : V1 (Proc.devRef .tc main_c_2) = fun i => lit1 (S128.rowMajor i))
    (hc3 : V1 (Proc.devRef .tc main_c_3) = constantI S128 1 0#1) (hc4 : V1 (Proc.devRef .tc main_c_4) = constantI S128 1 0#1) :
    after ops1 V1 (Proc.devRef .tc main_v92)
      = Host.scatter scatter_S64x256x64_S128x1_S64x128x64_02_1_1_1 (fun _ b => b)
          (Host.scatter scatter_S64x256x64_S128x1_S64x128x64_02_1_1_1 (fun _ b => b)
            (V1 (Proc.devRef .tc main_v0)) (V1 (Proc.devRef .tc main_v45)) (V1 (Proc.devRef .tc main_v41)))
          (idxR lit1)
          (headR (V1 (Proc.devRef .tc main_arg0)) lit1 (V1 (Proc.devRef .tc main_arg7)) (V1 (Proc.devRef .tc main_arg8))
            (V1 (Proc.devRef .tc main_arg9)) (V1 (Proc.devRef .tc main_arg10)) (V1 (Proc.devRef .tc main_arg11)) (V1 (Proc.devRef .tc main_arg12))) := by
  after_results_simp
  rw [hc, hc3, hc4]
  rfl

set_option maxRecDepth 8192 in
set_option maxHeartbeats 4000000 in
theorem val1_main_arg0 (V1 : Valuation τ sig (Elt F)) : after ops1 V1 (Proc.devRef .tc main_arg0) = V1 (Proc.devRef .tc main_arg0) := by
  after_results_simp

set_option maxRecDepth 8192 in
set_option maxHeartbeats 4000000 in
theorem val1_main_arg1 (V1 : Valuation τ sig (Elt F)) : after ops1 V1 (Proc.devRef .tc main_arg1) = V1 (Proc.devRef .tc main_arg1) := by
  after_results_simp

set_option maxRecDepth 8192 in
set_option maxHeartbeats 4000000 in
theorem val1_main_arg2 (V1 : Valuation τ sig (Elt F)) : after ops1 V1 (Proc.devRef .tc main_arg2) = V1 (Proc.devRef .tc main_arg2) := by
  after_results_simp

set_option maxRecDepth 8192 in
set_option maxHeartbeats 4000000 in
theorem val1_main_arg3 (V1 : Valuation τ sig (Elt F)) : after ops1 V1 (Proc.devRef .tc main_arg3) = V1 (Proc.devRef .tc main_arg3) := by
  after_results_simp

set_option maxRecDepth 8192 in
set_option maxHeartbeats 4000000 in
theorem val1_main_arg4 (V1 : Valuation τ sig (Elt F)) : after ops1 V1 (Proc.devRef .tc main_arg4) = V1 (Proc.devRef .tc main_arg4) := by
  after_results_simp

set_option maxRecDepth 8192 in
set_option maxHeartbeats 4000000 in
theorem val1_main_arg5 (V1 : Valuation τ sig (Elt F)) : after ops1 V1 (Proc.devRef .tc main_arg5) = V1 (Proc.devRef .tc main_arg5) := by
  after_results_simp

set_option maxRecDepth 8192 in
set_option maxHeartbeats 4000000 in
theorem val1_main_arg6 (V1 : Valuation τ sig (Elt F)) : after ops1 V1 (Proc.devRef .tc main_arg6) = V1 (Proc.devRef .tc main_arg6) := by
  after_results_simp

set_option maxRecDepth 8192 in
set_option maxHeartbeats 4000000 in
theorem val1_main_arg7 (V1 : Valuation τ sig (Elt F)) : after ops1 V1 (Proc.devRef .tc main_arg7) = V1 (Proc.devRef .tc main_arg7) := by
  after_results_simp

set_option maxRecDepth 8192 in
set_option maxHeartbeats 4000000 in
theorem val1_main_arg8 (V1 : Valuation τ sig (Elt F)) : after ops1 V1 (Proc.devRef .tc main_arg8) = V1 (Proc.devRef .tc main_arg8) := by
  after_results_simp

set_option maxRecDepth 8192 in
set_option maxHeartbeats 4000000 in
theorem val1_main_arg9 (V1 : Valuation τ sig (Elt F)) : after ops1 V1 (Proc.devRef .tc main_arg9) = V1 (Proc.devRef .tc main_arg9) := by
  after_results_simp

set_option maxRecDepth 8192 in
set_option maxHeartbeats 4000000 in
theorem val1_main_arg10 (V1 : Valuation τ sig (Elt F)) : after ops1 V1 (Proc.devRef .tc main_arg10) = V1 (Proc.devRef .tc main_arg10) := by
  after_results_simp

set_option maxRecDepth 8192 in
set_option maxHeartbeats 4000000 in
theorem val1_main_arg11 (V1 : Valuation τ sig (Elt F)) : after ops1 V1 (Proc.devRef .tc main_arg11) = V1 (Proc.devRef .tc main_arg11) := by
  after_results_simp

set_option maxRecDepth 8192 in
set_option maxHeartbeats 4000000 in
theorem val1_main_arg12 (V1 : Valuation τ sig (Elt F)) : after ops1 V1 (Proc.devRef .tc main_arg12) = V1 (Proc.devRef .tc main_arg12) := by
  after_results_simp

end Cert.ReferenceIdeal.Hand

end
-- ==== Proof.Ref.Run.lean ====
-- The reference's host program as the run of its operation list: it ends, faults nowhere, and its result is the list's composed term.
import proofs.«104095_j8426725835121_1_alg».proof.Proof.Ref.Terms
import proofs.«104095_j8426725835121_1_alg».proof.Proof.Gen.ReferenceIdeal
import Idealize.ShloMosaic.Lib.StableHlo.Run
import proofs.«104095_j8426725835121_1_alg».proof.Proof.Ref.Run0
import proofs.«104095_j8426725835121_1_alg».proof.Proof.Ref.Run1
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) := ops0 ++ ops1

theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops0_sub op h, List.forall_iff_forall_mem.mp ops1_sub op h]

theorem ops_fresh : ∀ op ∈ (ops : List (HloOp τ sig (Elt F))), op.fresh = ∅ := fun op h => by
  simp only [ops, List.mem_append] at h
  rcases h with h | h
  exacts [List.forall_iff_forall_mem.mp ops0_fresh op h, List.forall_iff_forall_mem.mp ops1_fresh op h]

theorem after_ops (V0 : Valuation τ sig (Elt F)) : after ops V0 = after ops1 (after ops0 V0) := by
  simp only [ops, after_append]

set_option maxRecDepth 8192 in
set_option maxHeartbeats 4000000 in

theorem after_ops_v92 (V0 : Valuation τ sig (Elt F)) :
    after ops V0 (Proc.devRef .tc main_v92)
      = refOut (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) := by
  rw [after_ops, val1_v92 _ (val0_c_2 _) (val0_c_3 _) (val0_c_4 _), val0_v0, val0_v45, val0_v41, val0_main_arg0, val0_main_arg7, val0_main_arg8, val0_main_arg9, val0_main_arg10, val0_main_arg11, val0_main_arg12]
  rfl

theorem after_ops_main_arg0 (V0 : Valuation τ sig (Elt F)) : after ops V0 (Proc.devRef .tc main_arg0) = V0 (Proc.devRef .tc main_arg0) := by
  rw [after_ops, val1_main_arg0, val0_main_arg0]

theorem after_ops_main_arg1 (V0 : Valuation τ sig (Elt F)) : after ops V0 (Proc.devRef .tc main_arg1) = V0 (Proc.devRef .tc main_arg1) := by
  rw [after_ops, val1_main_arg1, val0_main_arg1]

theorem after_ops_main_arg2 (V0 : Valuation τ sig (Elt F)) : after ops V0 (Proc.devRef .tc main_arg2) = V0 (Proc.devRef .tc main_arg2) := by
  rw [after_ops, val1_main_arg2, val0_main_arg2]

theorem after_ops_main_arg3 (V0 : Valuation τ sig (Elt F)) : after ops V0 (Proc.devRef .tc main_arg3) = V0 (Proc.devRef .tc main_arg3) := by
  rw [after_ops, val1_main_arg3, val0_main_arg3]

theorem after_ops_main_arg4 (V0 : Valuation τ sig (Elt F)) : after ops V0 (Proc.devRef .tc main_arg4) = V0 (Proc.devRef .tc main_arg4) := by
  rw [after_ops, val1_main_arg4, val0_main_arg4]

theorem after_ops_main_arg5 (V0 : Valuation τ sig (Elt F)) : after ops V0 (Proc.devRef .tc main_arg5) = V0 (Proc.devRef .tc main_arg5) := by
  rw [after_ops, val1_main_arg5, val0_main_arg5]

theorem after_ops_main_arg6 (V0 : Valuation τ sig (Elt F)) : after ops V0 (Proc.devRef .tc main_arg6) = V0 (Proc.devRef .tc main_arg6) := by
  rw [after_ops, val1_main_arg6, val0_main_arg6]

theorem after_ops_main_arg7 (V0 : Valuation τ sig (Elt F)) : after ops V0 (Proc.devRef .tc main_arg7) = V0 (Proc.devRef .tc main_arg7) := by
  rw [after_ops, val1_main_arg7, val0_main_arg7]

theorem after_ops_main_arg8 (V0 : Valuation τ sig (Elt F)) : after ops V0 (Proc.devRef .tc main_arg8) = V0 (Proc.devRef .tc main_arg8) := by
  rw [after_ops, val1_main_arg8, val0_main_arg8]

theorem after_ops_main_arg9 (V0 : Valuation τ sig (Elt F)) : after ops V0 (Proc.devRef .tc main_arg9) = V0 (Proc.devRef .tc main_arg9) := by
  rw [after_ops, val1_main_arg9, val0_main_arg9]

theorem after_ops_main_arg10 (V0 : Valuation τ sig (Elt F)) : after ops V0 (Proc.devRef .tc main_arg10) = V0 (Proc.devRef .tc main_arg10) := by
  rw [after_ops, val1_main_arg10, val0_main_arg10]

theorem after_ops_main_arg11 (V0 : Valuation τ sig (Elt F)) : after ops V0 (Proc.devRef .tc main_arg11) = V0 (Proc.devRef .tc main_arg11) := by
  rw [after_ops, val1_main_arg11, val0_main_arg11]

theorem after_ops_main_arg12 (V0 : Valuation τ sig (Elt F)) : after ops V0 (Proc.devRef .tc main_arg12) = V0 (Proc.devRef .tc main_arg12) := by
  rw [after_ops, val1_main_arg12, val0_main_arg12]

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v92) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c main_v92).trans (after_ops_v92 (launchContents m c)),
      (h c main_arg0).trans (after_ops_main_arg0 (launchContents m c)),
      (h c main_arg1).trans (after_ops_main_arg1 (launchContents m c)),
      (h c main_arg2).trans (after_ops_main_arg2 (launchContents m c)),
      (h c main_arg3).trans (after_ops_main_arg3 (launchContents m c)),
      (h c main_arg4).trans (after_ops_main_arg4 (launchContents m c)),
      (h c main_arg5).trans (after_ops_main_arg5 (launchContents m c)),
      (h c main_arg6).trans (after_ops_main_arg6 (launchContents m c)),
      (h c main_arg7).trans (after_ops_main_arg7 (launchContents m c)),
      (h c main_arg8).trans (after_ops_main_arg8 (launchContents m c)),
      (h c main_arg9).trans (after_ops_main_arg9 (launchContents m c)),
      (h c main_arg10).trans (after_ops_main_arg10 (launchContents m c)),
      (h c main_arg11).trans (after_ops_main_arg11 (launchContents m c)),
      (h c main_arg12).trans (after_ops_main_arg12 (launchContents m c))⟩)
    (run_seq scopedRefs_eq scopedSems_eq defs main (fun _ => ops) main_eq (fun _ => ops_sub) m ρ (fun _ => ops_fresh))

end Cert.ReferenceIdeal.Hand

end
-- ==== Proof.lean ====
-- The five claims: each program runs to the end without fault and leaves its inputs unchanged, the idealization ledger is empty, and the two idealized programs end with equal results.
import proofs.«104095_j8426725835121_1_alg».proof.Defs
import proofs.«104095_j8426725835121_1_alg».proof.Proof.Gen.Kernel
import proofs.«104095_j8426725835121_1_alg».proof.Proof.Gen.KernelIdeal
import proofs.«104095_j8426725835121_1_alg».proof.Proof.Gen.ReferenceIdeal
import proofs.«104095_j8426725835121_1_alg».proof.Proof.Gen.Pre_finite_inputs
import proofs.«104095_j8426725835121_1_alg».proof.Proof.K.Run
import proofs.«104095_j8426725835121_1_alg».proof.Proof.KI.Run
import proofs.«104095_j8426725835121_1_alg».proof.Proof.KI.RunVal
import proofs.«104095_j8426725835121_1_alg».proof.Proof.KI.Value
import proofs.«104095_j8426725835121_1_alg».proof.Proof.Ref.Run

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Hand.run m ρ)

theorem algebraic : Cert.algebraic_KernelIdeal_ReferenceIdeal := by
  intro m ρ m' ρ' _ hagree
  refine ⟨fun c => Cert.ReferenceIdeal.Hand.refOut (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12)),
    ?_, ?_⟩
  swap
  · exact Cert.ReferenceIdeal.Hand.run m' ρ'
  refine (θ_run Cert.KernelIdeal.defs _ _).mono (fun r h c => ⟨(h c).1.trans ?_, (h c).2⟩) (Cert.KernelIdeal.Hand.run_val m ρ)
  obtain ⟨h0, h1, h2, h3, h4, h5, h6, h7, h8, h9, h10, h11, h12⟩ := hagree c
  beta_reduce
  rw [h0, h1, h2, h3, h4, h5, h6, h7, h8, h9, h10, h11, h12]
  exact Cert.KernelIdeal.Hand.result_eq m c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
